-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v215)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v215) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v280) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S2048x64 : Shape := ⟨2, ![2048, 64]⟩
abbrev S8192x64 : Shape := ⟨2, ![8192, 64]⟩
abbrev S64x64 : Shape := ⟨2, ![64, 64]⟩
abbrev S16384x128 : Shape := ⟨2, ![16384, 128]⟩
abbrev S256x128 : Shape := ⟨2, ![256, 128]⟩
abbrev S256 : Shape := ⟨1, ![256]⟩
abbrev S64x256 : Shape := ⟨2, ![64, 256]⟩
abbrev S64 : Shape := ⟨1, ![64]⟩
abbrev S256x64 : Shape := ⟨2, ![256, 64]⟩
abbrev S128x256 : Shape := ⟨2, ![128, 256]⟩
abbrev S128 : Shape := ⟨1, ![128]⟩
abbrev S16384 : Shape := ⟨1, ![16384]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_
  bcast_S_S8192x64 : S_.BroadcastsInDim S8192x64 (![] : Fin 0 → Fin S8192x64.rank)
  reducesTo_S8192x64_S_d0_1 : S8192x64.ReducesTo [0, 1] S_
  bcast_S_S64x64 : S_.BroadcastsInDim S64x64 (![] : Fin 0 → Fin S64x64.rank)
  reducesTo_S64x64_S_d0_1 : S64x64.ReducesTo [0, 1] S_
  bcast_S_S16384x128 : S_.BroadcastsInDim S16384x128 (![] : Fin 0 → Fin S16384x128.rank)
  reducesTo_S16384x128_S_d0_1 : S16384x128.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg14 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg11 : FVec F S256 .f32) (main_arg12 : FVec F S256 .f32) (main_arg13 : FVec F S128x256 .f32) (main_arg14 : FVec F S128 .f32) (main_v48 : IVec S_ 1) (main_v49 : FVec F S256x64 .f32) (main_v50 : FVec F S256x64 .f32) : IVec S_ 1 :=
  let main_v51 : IVec S256x64 1 := cmpf .olt main_v49 main_v50
  let main_c_19 : IVec S_ 1 := constantI S_ 1 1#1
  let main_v52 : IVec S_ 1 := (fun x v => Host.reduce IntOp.andi x v reducesTo_S256x64_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S128x256 .f32 := Host.absf main_arg13
  let main_cst_24 : FVec F S_ .f32 := constant S_ .f32 0x7F800000#32
  let main_v65 : FVec F S128x256 .f32 := broadcastInDim S128x256 ![] bcast_S_S128x256 main_cst_24
  let main_v66 : IVec S128x256 1 := cmpf .olt main_v64 main_v65
  let main_c_25 : IVec S_ 1 := constantI S_ 1 1#1
  let main_v67 : IVec S_ 1 := (fun x v => Host.reduce IntOp.andi x v reducesTo_S128x256_S_d0_1 h_S_) main_v66 main_c_25
  fn_part4 (F := F) main_arg14 main_v63 main_v67

def fn_part2 {F : FTy → Type} [FloatOps F] (main_arg7 : FVec F S256 .f32) (main_arg8 : FVec F S64x256 .f32) (main_arg9 : FVec F S64 .f32) (main_arg10 : FVec F S256x64 .f32) (main_arg11 : FVec F S256 .f32) (main_arg12 : FVec F S256 .f32) (main_arg13 : FVec F S128x256 .f32) (main_arg14 : FVec F S128 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S64x256 .f32 := Host.absf main_arg8
  let main_cst_14 : FVec F S_ .f32 := constant S_ .f32 0x7F800000#32
  let main_v40 : FVec F S64x256 .f32 := broadcastInDim S64x256 ![] bcast_S_S64x256 main_cst_14
  let main_v41 : IVec S64x256 1 := cmpf .olt main_v39 main_v40
  let main_c_15 : IVec S_ 1 := constantI S_ 1 1#1
  let main_v42 : IVec S_ 1 := (fun x v => Host.reduce IntOp.andi x v reducesTo_S64x256_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S256x64 .f32 := Host.absf main_arg10
  let main_cst_18 : FVec F S_ .f32 := constant S_ .f32 0x7F800000#32
  let main_v50 : FVec F S256x64 .f32 := broadcastInDim S256x64 ![] bcast_S_S256x64 main_cst_18
  fn_part3 (F := F) main_arg11 main_arg12 main_arg13 main_arg14 main_v48 main_v49 main_v50

def fn_part1 {F : FTy → Type} [FloatOps F] (main_arg4 : FVec F S16384x128 .f32) (main_arg5 : FVec F S256x128 .f32) (main_arg6 : FVec F S256 .f32) (main_arg7 : FVec F S256 .f32) (main_arg8 : FVec F S64x256 .f32) (main_arg9 : FVec F S64 .f32) (main_arg10 : FVec F S256x64 .f32) (main_arg11 : FVec F S256 .f32) (main_arg12 : FVec F S256 .f32) (main_arg13 : FVec F S128x256 .f32) (main_arg14 : FVec F S128 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S16384x128 .f32 := Host.absf main_arg4
  let main_cst_6 : FVec F S_ .f32 := constant S_ .f32 0x7F800000#32
  let main_v20 : FVec F S16384x128 .f32 := broadcastInDim S16384x128 ![] bcast_S_S16384x128 main_cst_6
  let main_v21 : IVec S16384x128 1 := cmpf .olt main_v19 main_v20
  let main_c_7 : IVec S_ 1 := constantI S_ 1 1#1
  let main_v22 : IVec S_ 1 := (fun x v => Host.reduce IntOp.andi x v reducesTo_S16384x128_S_d0_1 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S16384x64 .f32) (main_arg1 : FVec F S2048x64 .f32) (main_arg2 : FVec F S8192x64 .f32) (main_arg3 : FVec F S64x64 .f32) (main_arg4 : FVec F S16384x128 .f32) (main_arg5 : FVec F S256x128 .f32) (main_arg6 : FVec F S256 .f32) (main_arg7 : FVec F S256 .f32) (main_arg8 : FVec F S64x256 .f32) (main_arg9 : FVec F S64 .f32) (main_arg10 : FVec F S256x64 .f32) (main_arg11 : FVec F S256 .f32) (main_arg12 : FVec F S256 .f32) (main_arg13 : FVec F S128x256 .f32) (main_arg14 : FVec F S128 .f32) (main_arg15 : IVec S16384 32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S8192x64 .f32 := Host.absf main_arg2
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_c_3 : IVec S_ 1 := constantI S_ 1 1#1
  let main_v12 : IVec S_ 1 := (fun x v => Host.reduce IntOp.andi x v reducesTo_S8192x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S16384x64 : Shape := ⟨2, ![16384, 64]⟩
abbrev S2048x64 : Shape := ⟨2, ![2048, 64]⟩
abbrev S8192x64 : Shape := ⟨2, ![8192, 64]⟩
abbrev S64x64 : Shape := ⟨2, ![64, 64]⟩
abbrev S16384x128 : Shape := ⟨2, ![16384, 128]⟩
abbrev S256x128 : Shape := ⟨2, ![256, 128]⟩
abbrev S256 : Shape := ⟨1, ![256]⟩
abbrev S64x256 : Shape := ⟨2, ![64, 256]⟩
abbrev S64 : Shape := ⟨1, ![64]⟩
abbrev S256x64 : Shape := ⟨2, ![256, 64]⟩
abbrev S128x256 : Shape := ⟨2, ![128, 256]⟩
abbrev S128 : Shape := ⟨1, ![128]⟩
abbrev S16384 : Shape := ⟨1, ![16384]⟩
abbrev S_ : Shape := ⟨0, ![]⟩
abbrev S16384x256 : Shape := ⟨2, ![16384, 256]⟩
abbrev S1x256 : Shape := ⟨2, ![1, 256]⟩
abbrev S1x64 : Shape := ⟨2, ![1, 64]⟩
abbrev S2048x256 : Shape := ⟨2, ![2048, 256]⟩
abbrev S2048x128 : Shape := ⟨2, ![2048, 128]⟩
abbrev S1x128 : Shape := ⟨2, ![1, 128]⟩
abbrev S16384x1 : Shape := ⟨2, ![16384, 1]⟩
abbrev S2048x1 : Shape := ⟨2, ![2048, 1]⟩
abbrev S256x1 : Shape := ⟨2, ![256, 1]⟩
abbrev S256x2048 : Shape := ⟨2, ![256, 2048]⟩
abbrev S1x2048 : Shape := ⟨2, ![1, 2048]⟩
abbrev S8192x256 : Shape := ⟨2, ![8192, 256]⟩
abbrev S8192x128 : Shape := ⟨2, ![8192, 128]⟩
abbrev S64x8192 : Shape := ⟨2, ![64, 8192]⟩
abbrev S64x1 : Shape := ⟨2, ![64, 1]⟩
abbrev S64x1x64 : Shape := ⟨3, ![64, 1, 64]⟩
abbrev S1x1 : Shape := ⟨2, ![1, 1]⟩
abbrev S1x1x64 : Shape := ⟨3, ![1, 1, 64]⟩
abbrev S8192x1 : Shape := ⟨2, ![8192, 1]⟩
abbrev S1 : Shape := ⟨1, ![1]⟩

abbrev nBuf : Space → Nat
  | .hbm => 360
  | .vmem => 19
  | .smem => 0
  | _ => 0

abbrev hbmTy0_0 (i : Nat) : BufTy := match i % 128 with
  | 0 => ⟨S16384x64, .f32⟩
  | 1 => ⟨S2048x64, .f32⟩
  | 2 => ⟨S8192x64, .f32⟩
  | 3 => ⟨S64x64, .f32⟩
  | 4 => ⟨S16384x128, .f32⟩
  | 5 => ⟨S256x128, .f32⟩
  | 6 => ⟨S256, .f32⟩
  | 7 => ⟨S256, .f32⟩
  | 8 => ⟨S64x256, .f32⟩
  | 9 => ⟨S64, .f32⟩
  | 10 => ⟨S256x64, .f32⟩
  | 11 => ⟨S256, .f32⟩
  | 12 => ⟨S256, .f32⟩
  | 13 => ⟨S128x256, .f32⟩
  | 14 => ⟨S128, .f32⟩
  | 15 => ⟨S16384, .i32⟩
  | 16 => ⟨S64x64, .f32⟩
  | 17 => ⟨S64x64, .f32⟩
  | 18 => ⟨S64x64, .f32⟩
  | 19 => ⟨S64x64, .f32⟩
  | 20 => ⟨S_, .f32⟩
  | 21 => ⟨S64x64, .f32⟩
  | 22 => ⟨S64x64, .f32⟩
  | 23 => ⟨S_, .f32⟩
  | 24 => ⟨S64x64, .f32⟩
  | 25 => ⟨S64x64, .f32⟩
  | 26 => ⟨S64x64, .i32⟩
  | 27 => ⟨S64x64, .i32⟩
  | 28 => ⟨S_, .i32⟩
  | 29 => ⟨S64x64, .i32⟩
  | 30 => ⟨S64x64, .i32⟩
  | 31 => ⟨S64x64, .i1⟩
  | 32 => ⟨S64x64, .f32⟩
  | 33 => ⟨S_, .f32⟩
  | 34 => ⟨S64x64, .f32⟩
  | 35 => ⟨S64x64, .f32⟩
  | 36 => ⟨S64x64, .f32⟩
  | 37 => ⟨S64x64, .f32⟩
  | 38 => ⟨S64x64, .f32⟩
  | 39 => ⟨S64x64, .f32⟩
  | 40 => ⟨S_, .f32⟩
  | 41 => ⟨S_, .f32⟩
  | 42 => ⟨S128x256, .f32⟩
  | 43 => ⟨S16384x256, .f32⟩
  | 44 => ⟨S_, .f32⟩
  | 45 => ⟨S256, .f32⟩
  | 46 => ⟨S_, .f32⟩
  | 47 => ⟨S256, .f32⟩
  | 48 => ⟨S256, .f32⟩
  | 49 => ⟨S_, .i32⟩
  | 50 => ⟨S_, .f32⟩
  | 51 => ⟨S256, .f32⟩
  | 52 => ⟨S1x256, .f32⟩
  | 53 => ⟨S_, .f32⟩
  | 54 => ⟨S1x256, .f32⟩
  | 55 => ⟨S1x256, .f32⟩
  | 56 => ⟨S16384x256, .f32⟩
  | 57 => ⟨S16384x256, .f32⟩
  | 58 => ⟨S16384x256, .f32⟩
  | 59 => ⟨S_, .f32⟩
  | 60 => ⟨S_, .f32⟩
  | 61 => ⟨S_, .f32⟩
  | 62 => ⟨S_, .f32⟩
  | 63 => ⟨S256, .f32⟩
  | 64 => ⟨S256, .f32⟩
  | 65 => ⟨S256, .f32⟩
  | 66 => ⟨S_, .f32⟩
  | 67 => ⟨S_, .i1⟩
  | 68 => ⟨S_, .f32⟩
  | 69 => ⟨S_, .f32⟩
  | 70 => ⟨S256, .f32⟩
  | 71 => ⟨S256, .f32⟩
  | 72 => ⟨S1x256, .f32⟩
  | 73 => ⟨S16384x256, .f32⟩
  | 74 => ⟨S16384x256, .f32⟩
  | 75 => ⟨S_, .f32⟩
  | 76 => ⟨S256, .f32⟩
  | 77 => ⟨S256, .f32⟩
  | 78 => ⟨S256, .f32⟩
  | 79 => ⟨S1x256, .f32⟩
  | 80 => ⟨S16384x256, .f32⟩
  | 81 => ⟨S16384x256, .f32⟩
  | 82 => ⟨S1x256, .f32⟩
  | 83 => ⟨S16384x256, .f32⟩
  | 84 => ⟨S16384x256, .f32⟩
  | 85 => ⟨S1x256, .f32⟩
  | 86 => ⟨S16384x256, .f32⟩
  | 87 => ⟨S16384x256, .f32⟩
  | 88 => ⟨S_, .f32⟩
  | 89 => ⟨S16384x256, .f32⟩
  | 90 => ⟨S16384x256, .i1⟩
  | 91 => ⟨S_, .f32⟩
  | 92 => ⟨S16384x256, .f32⟩
  | 93 => ⟨S16384x256, .f32⟩
  | 94 => ⟨S16384x256, .f32⟩
  | 95 => ⟨S256x64, .f32⟩
  | 96 => ⟨S16384x64, .f32⟩
  | 97 => ⟨S1x64, .f32⟩
  | 98 => ⟨S16384x64, .f32⟩
  | 99 => ⟨S16384x64, .f32⟩
  | 100 => ⟨S16384x64, .f32⟩
  | 101 => ⟨S16384x64, .f32⟩
  | 102 => ⟨S_, .f32⟩
  | 103 => ⟨S_, .f32⟩
  | 104 => ⟨S_, .f32⟩
  | 105 => ⟨S_, .f32⟩
  | 106 => ⟨S64x256, .f32⟩
  | 107 => ⟨S2048x256, .f32⟩
  | 108 => ⟨S_, .f32⟩
  | 109 => ⟨S256, .f32⟩
  | 110 => ⟨S_, .f32⟩
  | 111 => ⟨S256, .f32⟩
  | 112 => ⟨S256, .f32⟩
  | 113 => ⟨S_, .i32⟩
  | 114 => ⟨S_, .f32⟩
  | 115 => ⟨S256, .f32⟩
  | 116 => ⟨S1x256, .f32⟩
  | 117 => ⟨S_, .f32⟩
  | 118 => ⟨S1x256, .f32⟩
  | 119 => ⟨S1x256, .f32⟩
  | 120 => ⟨S2048x256, .f32⟩
  | 121 => ⟨S2048x256, .f32⟩
  | 122 => ⟨S2048x256, .f32⟩
  | 123 => ⟨S_, .f32⟩
  | 124 => ⟨S_, .f32⟩
  | 125 => ⟨S_, .f32⟩
  | 126 => ⟨S_, .f32⟩
  | 127 => ⟨S256, .f32⟩
  | _ => ⟨S16384x64, .f32⟩

abbrev hbmTy0_1 (i : Nat) : BufTy := match i % 128 with
  | 0 => ⟨S256, .f32⟩
  | 1 => ⟨S256, .f32⟩
  | 2 => ⟨S_, .f32⟩
  | 3 => ⟨S_, .i1⟩
  | 4 => ⟨S_, .f32⟩
  | 5 => ⟨S_, .f32⟩
  | 6 => ⟨S256, .f32⟩
  | 7 => ⟨S256, .f32⟩
  | 8 => ⟨S1x256, .f32⟩
  | 9 => ⟨S2048x256, .f32⟩
  | 10 => ⟨S2048x256, .f32⟩
  | 11 => ⟨S_, .f32⟩
  | 12 => ⟨S256, .f32⟩
  | 13 => ⟨S256, .f32⟩
  | 14 => ⟨S256, .f32⟩
  | 15 => ⟨S1x256, .f32⟩
  | 16 => ⟨S2048x256, .f32⟩
  | 17 => ⟨S2048x256, .f32⟩
  | 18 => ⟨S1x256, .f32⟩
  | 19 => ⟨S2048x256, .f32⟩
  | 20 => ⟨S2048x256, .f32⟩
  | 21 => ⟨S1x256, .f32⟩
  | 22 => ⟨S2048x256, .f32⟩
  | 23 => ⟨S2048x256, .f32⟩
  | 24 => ⟨S_, .f32⟩
  | 25 => ⟨S2048x256, .f32⟩
  | 26 => ⟨S2048x256, .i1⟩
  | 27 => ⟨S_, .f32⟩
  | 28 => ⟨S2048x256, .f32⟩
  | 29 => ⟨S2048x256, .f32⟩
  | 30 => ⟨S2048x256, .f32⟩
  | 31 => ⟨S256x128, .f32⟩
  | 32 => ⟨S2048x128, .f32⟩
  | 33 => ⟨S1x128, .f32⟩
  | 34 => ⟨S2048x128, .f32⟩
  | 35 => ⟨S2048x128, .f32⟩
  | 36 => ⟨S_, .i32⟩
  | 37 => ⟨S16384, .i32⟩
  | 38 => ⟨S16384, .i1⟩
  | 39 => ⟨S_, .i32⟩
  | 40 => ⟨S16384, .i32⟩
  | 41 => ⟨S16384, .i32⟩
  | 42 => ⟨S16384, .i32⟩
  | 43 => ⟨S16384x1, .i32⟩
  | 44 => ⟨S16384x128, .f32⟩
  | 45 => ⟨S2048x1, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S64x256, .f32⟩
  | 53 => ⟨S8192x256, .f32⟩
  | 54 => ⟨S_, .f32⟩
  | 55 => ⟨S256, .f32⟩
  | 56 => ⟨S_, .f32⟩
  | 57 => ⟨S256, .f32⟩
  | 58 => ⟨S256, .f32⟩
  | 59 => ⟨S_, .i32⟩
  | 60 => ⟨S_, .f32⟩
  | 61 => ⟨S256, .f32⟩
  | 62 => ⟨S1x256, .f32⟩
  | 63 => ⟨S_, .f32⟩
  | 64 => ⟨S1x256, .f32⟩
  | 65 => ⟨S1x256, .f32⟩
  | 66 => ⟨S8192x256, .f32⟩
  | 67 => ⟨S8192x256, .f32⟩
  | 68 => ⟨S8192x256, .f32⟩
  | 69 => ⟨S_, .f32⟩
  | 70 => ⟨S_, .f32⟩
  | 71 => ⟨S_, .f32⟩
  | 72 => ⟨S_, .f32⟩
  | 73 => ⟨S256, .f32⟩
  | 74 => ⟨S256, .f32⟩
  | 75 => ⟨S256, .f32⟩
  | 76 => ⟨S_, .f32⟩
  | 77 => ⟨S_, .i1⟩
  | 78 => ⟨S_, .f32⟩
  | 79 => ⟨S_, .f32⟩
  | 80 => ⟨S256, .f32⟩
  | 81 => ⟨S256, .f32⟩
  | 82 => ⟨S1x256, .f32⟩
  | 83 => ⟨S8192x256, .f32⟩
  | 84 => ⟨S8192x256, .f32⟩
  | 85 => ⟨S_, .f32⟩
  | 86 => ⟨S256, .f32⟩
  | 87 => ⟨S256, .f32⟩
  | 88 => ⟨S256, .f32⟩
  | 89 => ⟨S1x256, .f32⟩
  | 90 => ⟨S8192x256, .f32⟩
  | 91 => ⟨S8192x256, .f32⟩
  | 92 => ⟨S1x256, .f32⟩
  | 93 => ⟨S8192x256, .f32⟩
  | 94 => ⟨S8192x256, .f32⟩
  | 95 => ⟨S1x256, .f32⟩
  | 96 => ⟨S8192x256, .f32⟩
  | 97 => ⟨S8192x256, .f32⟩
  | 98 => ⟨S_, .f32⟩
  | 99 => ⟨S8192x256, .f32⟩
  | 100 => ⟨S8192x256, .i1⟩
  | 101 => ⟨S_, .f32⟩
  | 102 => ⟨S8192x256, .f32⟩
  | 103 => ⟨S8192x256, .f32⟩
  | 104 => ⟨S8192x256, .f32⟩
  | 105 => ⟨S256x128, .f32⟩
  | 106 => ⟨S8192x128, .f32⟩
  | 107 => ⟨S1x128, .f32⟩
  | 108 => ⟨S8192x128, .f32⟩
  | 109 => ⟨S8192x128, .f32⟩
  | 110 => ⟨S128x256, .f32⟩
  | 111 => ⟨S8192x256, .f32⟩
  | 112 => ⟨S_, .f32⟩
  | 113 => ⟨S256, .f32⟩
  | 114 => ⟨S_, .f32⟩
  | 115 => ⟨S256, .f32⟩
  | 116 => ⟨S256, .f32⟩
  | 117 => ⟨S_, .i32⟩
  | 118 => ⟨S_, .f32⟩
  | 119 => ⟨S256, .f32⟩
  | 120 => ⟨S1x256, .f32⟩
  | 121 => ⟨S_, .f32⟩
  | 122 => ⟨S1x256, .f32⟩
  | 123 => ⟨S1x256, .f32⟩
  | 124 => ⟨S8192x256, .f32⟩
  | 125 => ⟨S8192x256, .f32⟩
  | 126 => ⟨S8192x256, .f32⟩
  | 127 => ⟨S_, .f32⟩
  | _ => ⟨S16384x64, .f32⟩

abbrev hbmTy0_2 (i : Nat) : BufTy := match i % 128 with
  | 0 => ⟨S_, .f32⟩
  | 1 => ⟨S_, .f32⟩
  | 2 => ⟨S_, .f32⟩
  | 3 => ⟨S256, .f32⟩
  | 4 => ⟨S256, .f32⟩
  | 5 => ⟨S256, .f32⟩
  | 6 => ⟨S_, .f32⟩
  | 7 => ⟨S_, .i1⟩
  | 8 => ⟨S_, .f32⟩
  | 9 => ⟨S_, .f32⟩
  | 10 => ⟨S256, .f32⟩
  | 11 => ⟨S256, .f32⟩
  | 12 => ⟨S1x256, .f32⟩
  | 13 => ⟨S8192x256, .f32⟩
  | 14 => ⟨S8192x256, .f32⟩
  | 15 => ⟨S_, .f32⟩
  | 16 => ⟨S256, .f32⟩
  | 17 => ⟨S256, .f32⟩
  | 18 => ⟨S256, .f32⟩
  | 19 => ⟨S1x256, .f32⟩
  | 20 => ⟨S8192x256, .f32⟩
  | 21 => ⟨S8192x256, .f32⟩
  | 22 => ⟨S1x256, .f32⟩
  | 23 => ⟨S8192x256, .f32⟩
  | 24 => ⟨S8192x256, .f32⟩
  | 25 => ⟨S1x256, .f32⟩
  | 26 => ⟨S8192x256, .f32⟩
  | 27 => ⟨S8192x256, .f32⟩
  | 28 => ⟨S_, .f32⟩
  | 29 => ⟨S8192x256, .f32⟩
  | 30 => ⟨S8192x256, .i1⟩
  | 31 => ⟨S_, .f32⟩
  | 32 => ⟨S8192x256, .f32⟩
  | 33 => ⟨S8192x256, .f32⟩
  | 34 => ⟨S8192x256, .f32⟩
  | 35 => ⟨S256x64, .f32⟩
  | 36 => ⟨S8192x64, .f32⟩
  | 37 => ⟨S1x64, .f32⟩
  | 38 => ⟨S8192x64, .f32⟩
  | 39 => ⟨S8192x64, .f32⟩
  | 40 => ⟨S_, .f32⟩
  | 41 => ⟨S64, .f32⟩
  | 42 => ⟨S_, .f32⟩
  | 43 => ⟨S64, .f32⟩
  | 44 => ⟨S64, .f32⟩
  | 45 => ⟨S1x64, .f32⟩
  | 46 => ⟨S8192x64, .f32⟩
  | 47 => ⟨S8192x64, .f32⟩
  | 48 => ⟨S8192x64, .f32⟩
  | 49 => ⟨S_, .f32⟩
  | 50 => ⟨S64, .f32⟩
  | 51 => ⟨S64x8192, .f32⟩
  | 52 => ⟨S64x64, .f32⟩
  | 53 => ⟨S64x64, .f32⟩
  | 54 => ⟨S64x1, .f32⟩
  | 55 => ⟨S1x64, .f32⟩
  | 56 => ⟨S64x64, .f32⟩
  | 57 => ⟨S64x64, .f32⟩
  | 58 => ⟨S64x64, .f32⟩
  | 59 => ⟨S64x64, .f32⟩
  | 60 => ⟨S64x64, .i32⟩
  | 61 => ⟨S64x64, .i32⟩
  | 62 => ⟨S_, .i32⟩
  | 63 => ⟨S64x64, .i32⟩
  | 64 => ⟨S64x64, .i32⟩
  | 65 => ⟨S64x64, .i1⟩
  | 66 => ⟨S64x64, .f32⟩
  | 67 => ⟨S_, .f32⟩
  | 68 => ⟨S64x64, .f32⟩
  | 69 => ⟨S64x64, .f32⟩
  | 70 => ⟨S64x64, .f32⟩
  | 71 => ⟨S_, .f32⟩
  | 72 => ⟨S_, .f32⟩
  | 73 => ⟨S_, .f32⟩
  | 74 => ⟨S_, .f32⟩
  | 75 => ⟨S64x1, .f32⟩
  | 76 => ⟨S64x64, .f32⟩
  | 77 => ⟨S64x64, .f32⟩
  | 78 => ⟨S1x64, .f32⟩
  | 79 => ⟨S64x1, .f32⟩
  | 80 => ⟨S64x64, .f32⟩
  | 81 => ⟨S64x64, .f32⟩
  | 82 => ⟨S64x64, .f32⟩
  | 83 => ⟨S64x64, .f32⟩
  | 84 => ⟨S64x64, .f32⟩
  | 85 => ⟨S64x64, .f32⟩
  | 86 => ⟨S64x1x64, .f32⟩
  | 87 => ⟨S64x1x64, .f32⟩
  | 88 => ⟨S64x1x64, .f32⟩
  | 89 => ⟨S64x1x64, .f32⟩
  | 90 => ⟨S64x64, .i32⟩
  | 91 => ⟨S64x64, .i32⟩
  | 92 => ⟨S_, .i32⟩
  | 93 => ⟨S64x64, .i32⟩
  | 94 => ⟨S64x64, .i32⟩
  | 95 => ⟨S64x64, .i1⟩
  | 96 => ⟨S64x64, .f32⟩
  | 97 => ⟨S64x1x64, .f32⟩
  | 98 => ⟨S1x1, .f32⟩
  | 99 => ⟨S_, .f32⟩
  | 100 => ⟨S_, .f32⟩
  | 101 => ⟨S_, .f32⟩
  | 102 => ⟨S_, .f32⟩
  | 103 => ⟨S_, .f32⟩
  | _ => ⟨S16384x64, .f32⟩

abbrev hbmTy (i : Nat) : BufTy := match i / 128 with
  | 0 => hbmTy0_0 i
  | 1 => hbmTy0_1 i
  | 2 => hbmTy0_2 i
  | _ => ⟨S16384x64, .f32⟩

abbrev bufTy : (tb : Table) → Fin (tcTables nBuf tb) → BufTy
  | .hbm, ⟨i, _⟩ => hbmTy i
  | .local _ .vmem, ⟨0, _⟩ => ⟨S256x128, .f32⟩
  | .local _ .vmem, ⟨1, _⟩ => ⟨S256x128, .f32⟩
  | .local _ .vmem, ⟨2, _⟩ => ⟨S2048x128, .f32⟩
  | .local _ .vmem, ⟨3, _⟩ => ⟨S2048x128, .f32⟩
  | .local _ .vmem, ⟨4, _⟩ => ⟨S256x1, .f32⟩
  | .local _ .vmem, ⟨5, _⟩ => ⟨S256x1, .f32⟩
  | .local _ .vmem, ⟨6, _⟩ => ⟨S8192x64, .f32⟩
  | .local _ .vmem, ⟨7, _⟩ => ⟨S1x1x64, .f32⟩
  | .local _ .vmem, ⟨8, _⟩ => ⟨S1x1x64, .f32⟩
  | .local _ .vmem, ⟨9, _⟩ => ⟨S1x1x64, .f32⟩
  | .local _ .vmem, ⟨10, _⟩ => ⟨S1x1x64, .f32⟩
  | .local _ .vmem, ⟨11, _⟩ => ⟨S1x1x64, .f32⟩
  | .local _ .vmem, ⟨12, _⟩ => ⟨S1x1x64, .f32⟩
  | .local _ .vmem, ⟨13, _⟩ => ⟨S1x1x64, .f32⟩
  | .local _ .vmem, ⟨14, _⟩ => ⟨S1x1x64, .f32⟩
  | .local _ .vmem, ⟨15, _⟩ => ⟨S1x1x64, .f32⟩
  | .local _ .vmem, ⟨16, _⟩ => ⟨S1x1x64, .f32⟩
  | .local _ .vmem, ⟨17, _⟩ => ⟨S64x64, .f32⟩
  | .local _ .vmem, ⟨18, _⟩ => ⟨S1x1, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_cst_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_cst_1 : Ref sig .tc := ⟨.hbm, 60, rfl⟩
abbrev main_call0_v8 : Ref sig .tc := ⟨.hbm, 61, rfl⟩
abbrev main_call0_cst_2 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_cst_3 : Ref sig .tc := ⟨.hbm, 66, rfl⟩
abbrev main_call0_v12 : Ref sig .tc := ⟨.hbm, 67, rfl⟩
abbrev main_call0_cst_4 : Ref sig .tc := ⟨.hbm, 68, rfl⟩
abbrev main_call0_call0_v0 : Ref sig .tc := ⟨.hbm, 69, rfl⟩
abbrev main_call0_call0_v1 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_cst_6 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_cst_7 : Ref sig .tc := ⟨.hbm, 88, rfl⟩
abbrev main_v42 : Ref sig .tc := ⟨.hbm, 89, rfl⟩
abbrev main_v43 : Ref sig .tc := ⟨.hbm, 90, rfl⟩
abbrev main_cst_8 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_cst_9 : Ref sig .tc := ⟨.hbm, 102, rfl⟩
abbrev main_v54 : Ref sig .tc := ⟨.hbm, 103, rfl⟩
abbrev main_cst_10 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_cst_11 : Ref sig .tc := ⟨.hbm, 108, rfl⟩
abbrev main_v58 : Ref sig .tc := ⟨.hbm, 109, rfl⟩
abbrev main_cst_12 : Ref sig .tc := ⟨.hbm, 110, rfl⟩
abbrev main_v59 : Ref sig .tc := ⟨.hbm, 111, rfl⟩
abbrev main_v60 : Ref sig .tc := ⟨.hbm, 112, rfl⟩
abbrev main_c_13 : Ref sig .tc := ⟨.hbm, 113, rfl⟩
abbrev main_call2_cst : Ref sig .tc := ⟨.hbm, 114, rfl⟩
abbrev main_call2_v0 : Ref sig .tc := ⟨.hbm, 115, rfl⟩
abbrev main_call2_v1 : Ref sig .tc := ⟨.hbm, 116, rfl⟩
abbrev main_call2_cst_0 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_call2_v5 : Ref sig .tc := ⟨.hbm, 121, rfl⟩
abbrev main_call2_v6 : Ref sig .tc := ⟨.hbm, 122, rfl⟩
abbrev main_call2_v7 : Ref sig .tc := ⟨.hbm, 123, rfl⟩
abbrev main_call2_cst_1 : Ref sig .tc := ⟨.hbm, 124, rfl⟩
abbrev main_call2_v8 : Ref sig .tc := ⟨.hbm, 125, rfl⟩
abbrev main_call2_cst_2 : Ref sig .tc := ⟨.hbm, 126, rfl⟩
abbrev main_call2_v9 : Ref sig .tc := ⟨.hbm, 127, rfl⟩
abbrev main_call2_v10 : Ref sig .tc := ⟨.hbm, 128, rfl⟩
abbrev main_call2_v11 : Ref sig .tc := ⟨.hbm, 129, rfl⟩
abbrev main_call2_cst_3 : Ref sig .tc := ⟨.hbm, 130, rfl⟩
abbrev main_call2_v12 : Ref sig .tc := ⟨.hbm, 131, rfl⟩
abbrev main_call2_cst_4 : Ref sig .tc := ⟨.hbm, 132, rfl⟩
abbrev main_call2_call0_v0 : Ref sig .tc := ⟨.hbm, 133, rfl⟩
abbrev main_call2_call0_v1 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_cst_14 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_cst_15 : Ref sig .tc := ⟨.hbm, 152, rfl⟩
abbrev main_v77 : Ref sig .tc := ⟨.hbm, 153, rfl⟩
abbrev main_v78 : Ref sig .tc := ⟨.hbm, 154, rfl⟩
abbrev main_cst_16 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_c_17 : Ref sig .tc := ⟨.hbm, 164, rfl⟩
abbrev main_v87 : Ref sig .tc := ⟨.hbm, 165, rfl⟩
abbrev main_v88 : Ref sig .tc := ⟨.hbm, 166, rfl⟩
abbrev main_c_18 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_cst_19 : Ref sig .tc := ⟨.hbm, 174, rfl⟩
abbrev main_v95 : Ref sig .tc := ⟨.hbm, 175, rfl⟩
abbrev main_cst_20 : Ref sig .tc := ⟨.hbm, 176, rfl⟩
abbrev main_v96 : Ref sig .tc := ⟨.hbm, 177, rfl⟩
abbrev main_cst_21 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_cst_22 : Ref sig .tc := ⟨.hbm, 182, rfl⟩
abbrev main_v100 : Ref sig .tc := ⟨.hbm, 183, rfl⟩
abbrev main_cst_23 : Ref sig .tc := ⟨.hbm, 184, rfl⟩
abbrev main_v101 : Ref sig .tc := ⟨.hbm, 185, rfl⟩
abbrev main_v102 : Ref sig .tc := ⟨.hbm, 186, rfl⟩
abbrev main_c_24 : Ref sig .tc := ⟨.hbm, 187, rfl⟩
abbrev main_call4_cst : Ref sig .tc := ⟨.hbm, 188, rfl⟩
abbrev main_call4_v0 : Ref sig .tc := ⟨.hbm, 189, rfl⟩
abbrev main_call4_v1 : Ref sig .tc := ⟨.hbm, 190, rfl⟩
abbrev main_call4_cst_0 : Ref sig .tc := ⟨.hbm, 191, rfl⟩
abbrev main_call4_v2 : Ref sig .tc := ⟨.hbm, 192, rfl⟩
abbrev main_call4_v3 : Ref sig .tc := ⟨.hbm, 193, rfl⟩
abbrev main_call4_v4 : Ref sig .tc := ⟨.hbm, 194, rfl⟩
abbrev main_call4_v5 : Ref sig .tc := ⟨.hbm, 195, rfl⟩
abbrev main_call4_v6 : Ref sig .tc := ⟨.hbm, 196, rfl⟩
abbrev main_call4_v7 : Ref sig .tc := ⟨.hbm, 197, rfl⟩
abbrev main_call4_cst_1 : Ref sig .tc := ⟨.hbm, 198, rfl⟩
abbrev main_call4_v8 : Ref sig .tc := ⟨.hbm, 199, rfl⟩
abbrev main_call4_cst_2 : Ref sig .tc := ⟨.hbm, 200, rfl⟩
abbrev main_call4_v9 : Ref sig .tc := ⟨.hbm, 201, rfl⟩
abbrev main_call4_v10 : Ref sig .tc := ⟨.hbm, 202, rfl⟩
abbrev main_call4_v11 : Ref sig .tc := ⟨.hbm, 203, rfl⟩
abbrev main_call4_cst_3 : Ref sig .tc := ⟨.hbm, 204, rfl⟩
abbrev main_call4_v12 : Ref sig .tc := ⟨.hbm, 205, rfl⟩
abbrev main_call4_cst_4 : Ref sig .tc := ⟨.hbm, 206, rfl⟩
abbrev main_call4_call0_v0 : Ref sig .tc := ⟨.hbm, 207, rfl⟩
abbrev main_call4_call0_v1 : Ref sig .tc := ⟨.hbm, 208, rfl⟩
abbrev main_v103 : Ref sig .tc := ⟨.hbm, 209, rfl⟩
abbrev main_v104 : Ref sig .tc := ⟨.hbm, 210, rfl⟩
abbrev main_v105 : Ref sig .tc := ⟨.hbm, 211, rfl⟩
abbrev main_v106 : Ref sig .tc := ⟨.hbm, 212, rfl⟩
abbrev main_cst_25 : Ref sig .tc := ⟨.hbm, 213, rfl⟩
abbrev main_v107 : Ref sig .tc := ⟨.hbm, 214, rfl⟩
abbrev main_v108 : Ref sig .tc := ⟨.hbm, 215, rfl⟩
abbrev main_v109 : Ref sig .tc := ⟨.hbm, 216, rfl⟩
abbrev main_v110 : Ref sig .tc := ⟨.hbm, 217, rfl⟩
abbrev main_v111 : Ref sig .tc := ⟨.hbm, 218, rfl⟩
abbrev main_v112 : Ref sig .tc := ⟨.hbm, 219, rfl⟩
abbrev main_v113 : Ref sig .tc := ⟨.hbm, 220, rfl⟩
abbrev main_v114 : Ref sig .tc := ⟨.hbm, 221, rfl⟩
abbrev main_v115 : Ref sig .tc := ⟨.hbm, 222, rfl⟩
abbrev main_v116 : Ref sig .tc := ⟨.hbm, 223, rfl⟩
abbrev main_v117 : Ref sig .tc := ⟨.hbm, 224, rfl⟩
abbrev main_v118 : Ref sig .tc := ⟨.hbm, 225, rfl⟩
abbrev main_cst_26 : Ref sig .tc := ⟨.hbm, 226, rfl⟩
abbrev main_v119 : Ref sig .tc := ⟨.hbm, 227, rfl⟩
abbrev main_v120 : Ref sig .tc := ⟨.hbm, 228, rfl⟩
abbrev main_cst_27 : Ref sig .tc := ⟨.hbm, 229, rfl⟩
abbrev main_v121 : Ref sig .tc := ⟨.hbm, 230, rfl⟩
abbrev main_v122 : Ref sig .tc := ⟨.hbm, 231, rfl⟩
abbrev main_v123 : Ref sig .tc := ⟨.hbm, 232, rfl⟩
abbrev main_v124 : Ref sig .tc := ⟨.hbm, 233, rfl⟩
abbrev main_v125 : Ref sig .tc := ⟨.hbm, 234, rfl⟩
abbrev main_v126 : Ref sig .tc := ⟨.hbm, 235, rfl⟩
abbrev main_v127 : Ref sig .tc := ⟨.hbm, 236, rfl⟩
abbrev main_v128 : Ref sig .tc := ⟨.hbm, 237, rfl⟩
abbrev main_v129 : Ref sig .tc := ⟨.hbm, 238, rfl⟩
abbrev main_v130 : Ref sig .tc := ⟨.hbm, 239, rfl⟩
abbrev main_cst_28 : Ref sig .tc := ⟨.hbm, 240, rfl⟩
abbrev main_v131 : Ref sig .tc := ⟨.hbm, 241, rfl⟩
abbrev main_cst_29 : Ref sig .tc := ⟨.hbm, 242, rfl⟩
abbrev main_v132 : Ref sig .tc := ⟨.hbm, 243, rfl⟩
abbrev main_v133 : Ref sig .tc := ⟨.hbm, 244, rfl⟩
abbrev main_c_30 : Ref sig .tc := ⟨.hbm, 245, rfl⟩
abbrev main_call6_cst : Ref sig .tc := ⟨.hbm, 246, rfl⟩
abbrev main_call6_v0 : Ref sig .tc := ⟨.hbm, 247, rfl⟩
abbrev main_call6_v1 : Ref sig .tc := ⟨.hbm, 248, rfl⟩
abbrev main_call6_cst_0 : Ref sig .tc := ⟨.hbm, 249, rfl⟩
abbrev main_call6_v2 : Ref sig .tc := ⟨.hbm, 250, rfl⟩
abbrev main_call6_v3 : Ref sig .tc := ⟨.hbm, 251, rfl⟩
abbrev main_call6_v4 : Ref sig .tc := ⟨.hbm, 252, rfl⟩
abbrev main_call6_v5 : Ref sig .tc := ⟨.hbm, 253, rfl⟩
abbrev main_call6_v6 : Ref sig .tc := ⟨.hbm, 254, rfl⟩
abbrev main_call6_v7 : Ref sig .tc := ⟨.hbm, 255, rfl⟩
abbrev main_call6_cst_1 : Ref sig .tc := ⟨.hbm, 256, rfl⟩
abbrev main_call6_v8 : Ref sig .tc := ⟨.hbm, 257, rfl⟩
abbrev main_call6_cst_2 : Ref sig .tc := ⟨.hbm, 258, rfl⟩
abbrev main_call6_v9 : Ref sig .tc := ⟨.hbm, 259, rfl⟩
abbrev main_call6_v10 : Ref sig .tc := ⟨.hbm, 260, rfl⟩
abbrev main_call6_v11 : Ref sig .tc := ⟨.hbm, 261, rfl⟩
abbrev main_call6_cst_3 : Ref sig .tc := ⟨.hbm, 262, rfl⟩
abbrev main_call6_v12 : Ref sig .tc := ⟨.hbm, 263, rfl⟩
abbrev main_call6_cst_4 : Ref sig .tc := ⟨.hbm, 264, rfl⟩
abbrev main_call6_call0_v0 : Ref sig .tc := ⟨.hbm, 265, rfl⟩
abbrev main_call6_call0_v1 : Ref sig .tc := ⟨.hbm, 266, rfl⟩
abbrev main_v134 : Ref sig .tc := ⟨.hbm, 267, rfl⟩
abbrev main_v135 : Ref sig .tc := ⟨.hbm, 268, rfl⟩
abbrev main_v136 : Ref sig .tc := ⟨.hbm, 269, rfl⟩
abbrev main_v137 : Ref sig .tc := ⟨.hbm, 270, rfl⟩
abbrev main_cst_31 : Ref sig .tc := ⟨.hbm, 271, rfl⟩
abbrev main_v138 : Ref sig .tc := ⟨.hbm, 272, rfl⟩
abbrev main_v139 : Ref sig .tc := ⟨.hbm, 273, rfl⟩
abbrev main_v140 : Ref sig .tc := ⟨.hbm, 274, rfl⟩
abbrev main_v141 : Ref sig .tc := ⟨.hbm, 275, rfl⟩
abbrev main_v142 : Ref sig .tc := ⟨.hbm, 276, rfl⟩
abbrev main_v143 : Ref sig .tc := ⟨.hbm, 277, rfl⟩
abbrev main_v144 : Ref sig .tc := ⟨.hbm, 278, rfl⟩
abbrev main_v145 : Ref sig .tc := ⟨.hbm, 279, rfl⟩
abbrev main_v146 : Ref sig .tc := ⟨.hbm, 280, rfl⟩
abbrev main_v147 : Ref sig .tc := ⟨.hbm, 281, rfl⟩
abbrev main_v148 : Ref sig .tc := ⟨.hbm, 282, rfl⟩
abbrev main_v149 : Ref sig .tc := ⟨.hbm, 283, rfl⟩
abbrev main_cst_32 : Ref sig .tc := ⟨.hbm, 284, rfl⟩
abbrev main_v150 : Ref sig .tc := ⟨.hbm, 285, rfl⟩
abbrev main_v151 : Ref sig .tc := ⟨.hbm, 286, rfl⟩
abbrev main_cst_33 : Ref sig .tc := ⟨.hbm, 287, rfl⟩
abbrev main_v152 : Ref sig .tc := ⟨.hbm, 288, rfl⟩
abbrev main_v153 : Ref sig .tc := ⟨.hbm, 289, rfl⟩
abbrev main_v154 : Ref sig .tc := ⟨.hbm, 290, rfl⟩
abbrev main_v155 : Ref sig .tc := ⟨.hbm, 291, rfl⟩
abbrev main_v156 : Ref sig .tc := ⟨.hbm, 292, rfl⟩
abbrev main_v157 : Ref sig .tc := ⟨.hbm, 293, rfl⟩
abbrev main_v158 : Ref sig .tc := ⟨.hbm, 294, rfl⟩
abbrev main_v159 : Ref sig .tc := ⟨.hbm, 295, rfl⟩
abbrev main_cst_34 : Ref sig .tc := ⟨.hbm, 296, rfl⟩
abbrev main_v160 : Ref sig .tc := ⟨.hbm, 297, rfl⟩
abbrev main_cst_35 : Ref sig .tc := ⟨.hbm, 298, rfl⟩
abbrev main_v161 : Ref sig .tc := ⟨.hbm, 299, rfl⟩
abbrev main_v162 : Ref sig .tc := ⟨.hbm, 300, rfl⟩
abbrev main_v163 : Ref sig .tc := ⟨.hbm, 301, rfl⟩
abbrev main_v164 : Ref sig .tc := ⟨.hbm, 302, rfl⟩
abbrev main_v165 : Ref sig .tc := ⟨.hbm, 303, rfl⟩
abbrev main_v166 : Ref sig .tc := ⟨.hbm, 304, rfl⟩
abbrev main_cst_36 : Ref sig .tc := ⟨.hbm, 305, rfl⟩
abbrev main_v167 : Ref sig .tc := ⟨.hbm, 306, rfl⟩
abbrev main_v168 : Ref sig .tc := ⟨.hbm, 307, rfl⟩
abbrev main_v169 : Ref sig .tc := ⟨.hbm, 308, rfl⟩
abbrev main_v170 : Ref sig .tc := ⟨.hbm, 309, rfl⟩
abbrev main_v171 : Ref sig .tc := ⟨.hbm, 310, rfl⟩
abbrev main_v172 : Ref sig .tc := ⟨.hbm, 311, rfl⟩
abbrev main_v173 : Ref sig .tc := ⟨.hbm, 312, rfl⟩
abbrev main_v174 : Ref sig .tc := ⟨.hbm, 313, rfl⟩
abbrev main_v175 : Ref sig .tc := ⟨.hbm, 314, rfl⟩
abbrev main_v176 : Ref sig .tc := ⟨.hbm, 315, rfl⟩
abbrev main_v177 : Ref sig .tc := ⟨.hbm, 316, rfl⟩
abbrev main_v178 : Ref sig .tc := ⟨.hbm, 317, rfl⟩
abbrev main_c_37 : Ref sig .tc := ⟨.hbm, 318, rfl⟩
abbrev main_v179 : Ref sig .tc := ⟨.hbm, 319, rfl⟩
abbrev main_v180 : Ref sig .tc := ⟨.hbm, 320, rfl⟩
abbrev main_v181 : Ref sig .tc := ⟨.hbm, 321, rfl⟩
abbrev main_v182 : Ref sig .tc := ⟨.hbm, 322, rfl⟩
abbrev main_cst_38 : Ref sig .tc := ⟨.hbm, 323, rfl⟩
abbrev main_v183 : Ref sig .tc := ⟨.hbm, 324, rfl⟩
abbrev main_v184 : Ref sig .tc := ⟨.hbm, 325, rfl⟩
abbrev main_v185 : Ref sig .tc := ⟨.hbm, 326, rfl⟩
abbrev main_cst_39 : Ref sig .tc := ⟨.hbm, 327, rfl⟩
abbrev main_v186 : Ref sig .tc := ⟨.hbm, 328, rfl⟩
abbrev main_cst_40 : Ref sig .tc := ⟨.hbm, 329, rfl⟩
abbrev main_v187 : Ref sig .tc := ⟨.hbm, 330, rfl⟩
abbrev main_v188 : Ref sig .tc := ⟨.hbm, 331, rfl⟩
abbrev main_v189 : Ref sig .tc := ⟨.hbm, 332, rfl⟩
abbrev main_v190 : Ref sig .tc := ⟨.hbm, 333, rfl⟩
abbrev main_v191 : Ref sig .tc := ⟨.hbm, 334, rfl⟩
abbrev main_v192 : Ref sig .tc := ⟨.hbm, 335, rfl⟩
abbrev main_v193 : Ref sig .tc := ⟨.hbm, 336, rfl⟩
abbrev main_v194 : Ref sig .tc := ⟨.hbm, 337, rfl⟩
abbrev main_v195 : Ref sig .tc := ⟨.hbm, 338, rfl⟩
abbrev main_v196 : Ref sig .tc := ⟨.hbm, 339, rfl⟩
abbrev main_v197 : Ref sig .tc := ⟨.hbm, 340, rfl⟩
abbrev main_v198 : Ref sig .tc := ⟨.hbm, 341, rfl⟩
abbrev main_v199 : Ref sig .tc := ⟨.hbm, 342, rfl⟩
abbrev main_v200 : Ref sig .tc := ⟨.hbm, 343, rfl⟩
abbrev main_v201 : Ref sig .tc := ⟨.hbm, 344, rfl⟩
abbrev main_v202 : Ref sig .tc := ⟨.hbm, 345, rfl⟩
abbrev main_v203 : Ref sig .tc := ⟨.hbm, 346, rfl⟩
abbrev main_v204 : Ref sig .tc := ⟨.hbm, 347, rfl⟩
abbrev main_c_41 : Ref sig .tc := ⟨.hbm, 348, rfl⟩
abbrev main_v205 : Ref sig .tc := ⟨.hbm, 349, rfl⟩
abbrev main_v206 : Ref sig .tc := ⟨.hbm, 350, rfl⟩
abbrev main_v207 : Ref sig .tc := ⟨.hbm, 351, rfl⟩
abbrev main_v208 : Ref sig .tc := ⟨.hbm, 352, rfl⟩
abbrev main_v209 : Ref sig .tc := ⟨.hbm, 353, rfl⟩
abbrev main_v210 : Ref sig .tc := ⟨.hbm, 354, rfl⟩
abbrev main_v211 : Ref sig .tc := ⟨.hbm, 355, rfl⟩
abbrev main_v212 : Ref sig .tc := ⟨.hbm, 356, rfl⟩
abbrev main_v213 : Ref sig .tc := ⟨.hbm, 357, rfl⟩
abbrev main_v214 : Ref sig .tc := ⟨.hbm, 358, rfl⟩
abbrev main_v215 : Ref sig .tc := ⟨.hbm, 359, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg7_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem7_0 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8192x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x1x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

class Facts₀ : Prop where
  transposes_S64x64_S64x64_1_0 : S64x64.Transposes [1, 0] S64x64
  bcast_S_S64x64 : S_.BroadcastsInDim S64x64 (![] : Fin 0 → Fin S64x64.rank)
  reducesTo_S64x64_S_d0_1 : S64x64.ReducesTo [0, 1] S_
  h_S_ : 0 < S_.numel
  transposes_S256x128_S128x256_1_0 : S256x128.Transposes [1, 0] S128x256
  reducesTo_S16384x256_S256_d0 : S16384x256.ReducesTo [0] S256
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  transposes_S64x256_S256x64_1_0 : S64x256.Transposes [1, 0] S256x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x64_S_d0_1 : S16384x64.ReducesTo [0, 1] S_
  transposes_S256x64_S64x256_1_0 : S256x64.Transposes [1, 0] S64x256
  reducesTo_S2048x256_S256_d0 : S2048x256.ReducesTo [0] S256
  bcast_S1x256_S2048x256_0_1 : S1x256.BroadcastsInDim S2048x256 (![0, 1] : Fin 2 → Fin S2048x256.rank)
  bcast_S_S2048x256 : S_.BroadcastsInDim S2048x256 (![] : Fin 0 → Fin S2048x256.rank)
  transposes_S128x256_S256x128_1_0 : S128x256.Transposes [1, 0] S256x128
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  bcast_S_S16384 : S_.BroadcastsInDim S16384 (![] : Fin 0 → Fin S16384.rank)
  bcast_S16384_S16384x1_0 : S16384.BroadcastsInDim S16384x1 (![0] : Fin 1 → Fin S16384x1.rank)
  inb_S256x1_S256x1_0_0 : ∀ a, (![0, 0] : Fin 2 → Nat) a + S256x1.size a ≤ S256x1.size a
  h_S256x1 : 0 < S256x1.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  reduces_S256x128_S256 : S256x128.Reduces [1] S256
  shapeCasts_S256_S256x1 : S256.ShapeCasts S256x1
  broadcasts_S256x1_S256x2048 : S256x1.Broadcasts S256x2048
  broadcasts_S1x2048_S256x2048 : S1x2048.Broadcasts S256x2048
  reduces_S256x2048_S256 : S256x2048.Reduces [1] S256
  shapeCasts_S256x1_S256x1 : S256x1.ShapeCasts S256x1
  reducesTo_S2048x1_S_d0_1 : S2048x1.ReducesTo [0, 1] S_
  reducesTo_S8192x256_S256_d0 : S8192x256.ReducesTo [0] S256
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S1x128_S8192x128_0_1 : S1x128.BroadcastsInDim S8192x128 (![0, 1] : Fin 2 → Fin S8192x128.rank)
  bcast_S1x64_S8192x64_0_1 : S1x64.BroadcastsInDim S8192x64 (![0, 1] : Fin 2 → Fin S8192x64.rank)
  reducesTo_S8192x64_S64_d0 : S8192x64.ReducesTo [0] S64
  bcast_S_S64 : S_.BroadcastsInDim S64 (![] : Fin 0 → Fin S64.rank)
  transposes_S8192x64_S64x8192_1_0 : S8192x64.Transposes [1, 0] S64x8192
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  shapeCasts_S64x64_S64x1x64 : S64x64.ShapeCasts S64x1x64
  inb_S1x1_S1x1_0_0 : ∀ a, (![0, 0] : Fin 2 → Nat) a + S1x1.size a ≤ S1x1.size a
  h_S1x1 : 0 < S1x1.numel
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S1x1x64_S1x1x64_0_0_0 : ∀ a, (![0, 0, 0] : Fin 3 → Nat) a + S1x1x64.size a ≤ S1x1x64.size a
  h_S1x1x64 : 0 < S1x1x64.numel
  shapeCasts_S1x1x64_S64 : S1x1x64.ShapeCasts S64
  shapeCasts_S64_S1x64 : S64.ShapeCasts S1x64
  shapeCasts_S64_S64x1 : S64.ShapeCasts S64x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S8192x1_S8192x64 : S8192x1.Broadcasts S8192x64
  broadcasts_S1x64_S8192x64 : S1x64.Broadcasts S8192x64
  reduces_S8192x64_S64 : S8192x64.Reduces [0] S64
  reduces_S64x64_S64 : S64x64.Reduces [1] S64
  reduces_S64x64_S64_2 : S64x64.Reduces [0] S64
  broadcasts_S64x1_S64x64 : S64x1.Broadcasts S64x64
  broadcasts_S1x64_S64x64 : S1x64.Broadcasts S64x64
  iota_S64x64_d0_w32 : S64x64.Iotas .tc 32 [0]
  iota_S64x64_d1_w32 : S64x64.Iotas .tc 32 [1]
  reduces_S64x1_S1 : S64x1.Reduces [0] S1
  shapeCasts_S1_S1x1 : S1.ShapeCasts S1x1
  shapeCasts_S1x1_S1x1 : S1x1.ShapeCasts S1x1
  shapeCasts_S1x1_S_ : S1x1.ShapeCasts S_
  dot_S64x64_S64x64_S64x64_1_0_0_1_n_n_wf : DotDims.WF S64x64 S64x64 S64x64 [1] [0] [0] [1] [] []
  dot_S16384x128_S128x256_S16384x256_1_0_0_1_n_n_wf : DotDims.WF S16384x128 S128x256 S16384x256 [1] [0] [0] [1] [] []
  dot_S16384x256_S256x64_S16384x64_1_0_0_1_n_n_wf : DotDims.WF S16384x256 S256x64 S16384x64 [1] [0] [0] [1] [] []
  dot_S2048x64_S64x256_S2048x256_1_0_0_1_n_n_wf : DotDims.WF S2048x64 S64x256 S2048x256 [1] [0] [0] [1] [] []
  dot_S2048x256_S256x128_S2048x128_1_0_0_1_n_n_wf : DotDims.WF S2048x256 S256x128 S2048x128 [1] [0] [0] [1] [] []
  gather_S16384x128_S16384x1_S16384x128_1_0_n_n_0_1_1128_wf : GatherDims.WF S16384x128 S16384x1 S16384x128 [1] [0] [] [0] [] 1 ![1, 128]
  dot_S256x128_S2048x128_S256x2048_1_1_0_0_n_n_wf : DotDims.WF S256x128 S2048x128 S256x2048 [1] [1] [0] [0] [] []
  dot_S1x128_S2048x128_S1x2048_1_1_0_0_n_n_wf : DotDims.WF S1x128 S2048x128 S1x2048 [1] [1] [0] [0] [] []
  dot_S8192x64_S64x256_S8192x256_1_0_0_1_n_n_wf : DotDims.WF S8192x64 S64x256 S8192x256 [1] [0] [0] [1] [] []
  dot_S8192x256_S256x128_S8192x128_1_0_0_1_n_n_wf : DotDims.WF S8192x256 S256x128 S8192x128 [1] [0] [0] [1] [] []
  dot_S8192x128_S128x256_S8192x256_1_0_0_1_n_n_wf : DotDims.WF S8192x128 S128x256 S8192x256 [1] [0] [0] [1] [] []
  dot_S8192x256_S256x64_S8192x64_1_0_0_1_n_n_wf : DotDims.WF S8192x256 S256x64 S8192x64 [1] [0] [0] [1] [] []
  dot_S64x8192_S8192x64_S64x64_1_0_0_1_n_n_wf : DotDims.WF S64x8192 S8192x64 S64x64 [1] [0] [0] [1] [] []
  dot_S8192x64_S64x1_S8192x1_1_0_0_1_n_n_wf : DotDims.WF S8192x64 S64x1 S8192x1 [1] [0] [0] [1] [] []
  dot_S8192x64_S8192x64_S64x64_0_0_1_1_n_n_wf : DotDims.WF S8192x64 S8192x64 S64x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S2048x128.size a
  hwx0_0 : ∀ i : grid0.Coords, EltTy.bits .f32 = 32 ∨ (Rect.block (s := S2048x128) S256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S16384x128.size a
  hwx0_1 : ∀ i : grid0.Coords, EltTy.bits .f32 = 32 ∨ (Rect.block (s := S16384x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S2048x1.size a
  hwx0_2 : ∀ i : grid0.Coords, EltTy.bits .f32 = 32 ∨ (Rect.block (s := S2048x1) S256x1.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S8192x64.size a
  hwx1_0 : ∀ i : grid1.Coords, EltTy.bits .f32 = 32 ∨ (Rect.block (s := S8192x64) S8192x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x64.size a ≤ S64x1x64.size a
  hwx1_1 : ∀ i : grid1.Coords, EltTy.bits .f32 = 32 ∨ (Rect.block (s := S64x1x64) S1x1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x64.size a ≤ S64x1x64.size a
  hwx1_2 : ∀ i : grid1.Coords, EltTy.bits .f32 = 32 ∨ (Rect.block (s := S64x1x64) S1x1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x64.size a ≤ S64x1x64.size a
  hwx1_3 : ∀ i : grid1.Coords, EltTy.bits .f32 = 32 ∨ (Rect.block (s := S64x1x64) S1x1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x64.size a ≤ S64x1x64.size a
  hwx1_4 : ∀ i : grid1.Coords, EltTy.bits .f32 = 32 ∨ (Rect.block (s := S64x1x64) S1x1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x64.size a ≤ S64x1x64.size a
  hwx1_5 : ∀ i : grid1.Coords, EltTy.bits .f32 = 32 ∨ (Rect.block (s := S64x1x64) S1x1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)

variable [Facts₀]

def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S16384x128_S128x256_S16384x256_1_0_0_1_n_n : DotDims S16384x128 S128x256 S16384x256 where
  lhsContracting := [1]
  rhsContracting := [0]
  lhsNonContracting := [0]
  rhsNonContracting := [1]
  lhsBatch := []
  rhsBatch := []
  wf := dot_S16384x128_S128x256_S16384x256_1_0_0_1_n_n_wf
def dot_S16384x256_S256x64_S16384x64_1_0_0_1_n_n : DotDims S16384x256 S256x64 S16384x64 where
  lhsContracting := [1]
  rhsContracting := [0]
  lhsNonContracting := [0]
  rhsNonContracting := [1]
  lhsBatch := []
  rhsBatch := []
  wf := dot_S16384x256_S256x64_S16384x64_1_0_0_1_n_n_wf
def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def gather_S16384x128_S16384x1_S16384x128_1_0_n_n_0_1_1128 : GatherDims S16384x128 S16384x1 S16384x128 where
  offsetDims := [1]
  collapsedSliceDims := [0]
  operandBatchingDims := []
  startIndicesBatchingDims := []
  startIndexMap := [0]
  indexVectorDim := 1
  sliceSizes := ![1, 128]
  wf := gather_S16384x128_S16384x1_S16384x128_1_0_n_n_0_1_1128_wf
def dot_S256x128_S2048x128_S256x2048_1_1_0_0_n_n : DotDims S256x128 S2048x128 S256x2048 where
  lhsContracting := [1]
  rhsContracting := [1]
  lhsNonContracting := [0]
  rhsNonContracting := [0]
  lhsBatch := []
  rhsBatch := []
  wf := dot_S256x128_S2048x128_S256x2048_1_1_0_0_n_n_wf
def dot_S1x128_S2048x128_S1x2048_1_1_0_0_n_n : DotDims S1x128 S2048x128 S1x2048 where
  lhsContracting := [1]
  rhsContracting := [1]
  lhsNonContracting := [0]
  rhsNonContracting := [0]
  lhsBatch := []
  rhsBatch := []
  wf := dot_S1x128_S2048x128_S1x2048_1_1_0_0_n_n_wf
def dot_S8192x64_S64x256_S8192x256_1_0_0_1_n_n : DotDims S8192x64 S64x256 S8192x256 where
  lhsContracting := [1]
  rhsContracting := [0]
  lhsNonContracting := [0]
  rhsNonContracting := [1]
  lhsBatch := []
  rhsBatch := []
  wf := dot_S8192x64_S64x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S64x8192_S8192x64_S64x64_1_0_0_1_n_n : DotDims S64x8192 S8192x64 S64x64 where
  lhsContracting := [1]
  rhsContracting := [0]
  lhsNonContracting := [0]
  rhsNonContracting := [1]
  lhsBatch := []
  rhsBatch := []
  wf := dot_S64x8192_S8192x64_S64x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def dot_S8192x64_S8192x64_S64x64_0_0_1_1_n_n : DotDims S8192x64 S8192x64 S64x64 where
  lhsContracting := [0]
  rhsContracting := [0]
  lhsNonContracting := [1]
  rhsNonContracting := [1]
  lhsBatch := []
  rhsBatch := []
  wf := dot_S8192x64_S8192x64_S64x64_0_0_1_1_n_n_wf

abbrev win0_0 : Pipeline.Window sig grid0 :=
  Pipeline.Window.ofSpec (Memref.whole main_v86) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v93) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v94) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v159) S8192x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v199) S1x1x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v200) S1x1x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v201) S1x1x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v202) S1x1x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v209) S1x1x64.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v208) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v210) S1x1.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S16384x64 : Shape := ⟨2, ![16384, 64]⟩
abbrev S2048x64 : Shape := ⟨2, ![2048, 64]⟩
abbrev S8192x64 : Shape := ⟨2, ![8192, 64]⟩
abbrev S64x64 : Shape := ⟨2, ![64, 64]⟩
abbrev S16384x128 : Shape := ⟨2, ![16384, 128]⟩
abbrev S256x128 : Shape := ⟨2, ![256, 128]⟩
abbrev S256 : Shape := ⟨1, ![256]⟩
abbrev S64x256 : Shape := ⟨2, ![64, 256]⟩
abbrev S64 : Shape := ⟨1, ![64]⟩
abbrev S256x64 : Shape := ⟨2, ![256, 64]⟩
abbrev S128x256 : Shape := ⟨2, ![128, 256]⟩
abbrev S128 : Shape := ⟨1, ![128]⟩
abbrev S16384 : Shape := ⟨1, ![16384]⟩
abbrev S_ : Shape := ⟨0, ![]⟩
abbrev S16384x256 : Shape := ⟨2, ![16384, 256]⟩
abbrev S1x256 : Shape := ⟨2, ![1, 256]⟩
abbrev S1x64 : Shape := ⟨2, ![1, 64]⟩
abbrev S2048x256 : Shape := ⟨2, ![2048, 256]⟩
abbrev S2048x128 : Shape := ⟨2, ![2048, 128]⟩
abbrev S1x128 : Shape := ⟨2, ![1, 128]⟩
abbrev S16384x1 : Shape := ⟨2, ![16384, 1]⟩
abbrev S2048 : Shape := ⟨1, ![2048]⟩
abbrev S2048x1 : Shape := ⟨2, ![2048, 1]⟩
abbrev S1x16384 : Shape := ⟨2, ![1, 16384]⟩
abbrev S2048x16384 : Shape := ⟨2, ![2048, 16384]⟩
abbrev S128x16384 : Shape := ⟨2, ![128, 16384]⟩
abbrev S8192x256 : Shape := ⟨2, ![8192, 256]⟩
abbrev S8192x128 : Shape := ⟨2, ![8192, 128]⟩
abbrev S64x8192 : Shape := ⟨2, ![64, 8192]⟩
abbrev S64x1 : Shape := ⟨2, ![64, 1]⟩
abbrev S1x8192x64 : Shape := ⟨3, ![1, 8192, 64]⟩
abbrev S64x8192x1 : Shape := ⟨3, ![64, 8192, 1]⟩
abbrev S64x1x64 : Shape := ⟨3, ![64, 1, 64]⟩
abbrev S64x8192x64 : Shape := ⟨3, ![64, 8192, 64]⟩
abbrev S64x64x64 : Shape := ⟨3, ![64, 64, 64]⟩
abbrev S64x64x1 : Shape := ⟨3, ![64, 64, 1]⟩
abbrev S1x64x1 : Shape := ⟨3, ![1, 64, 1]⟩
abbrev S64x1x1 : Shape := ⟨3, ![64, 1, 1]⟩
abbrev S1x1x64 : Shape := ⟨3, ![1, 1, 64]⟩
abbrev S1x64x64 : Shape := ⟨3, ![1, 64, 64]⟩

abbrev nBuf : Space → Nat
  | .hbm => 439
  | .vmem => 0
  | .smem => 0
  | _ => 0

abbrev hbmTy0_0 (i : Nat) : BufTy := match i % 128 with
  | 0 => ⟨S16384x64, .f32⟩
  | 1 => ⟨S2048x64, .f32⟩
  | 2 => ⟨S8192x64, .f32⟩
  | 3 => ⟨S64x64, .f32⟩
  | 4 => ⟨S16384x128, .f32⟩
  | 5 => ⟨S256x128, .f32⟩
  | 6 => ⟨S256, .f32⟩
  | 7 => ⟨S256, .f32⟩
  | 8 => ⟨S64x256, .f32⟩
  | 9 => ⟨S64, .f32⟩
  | 10 => ⟨S256x64, .f32⟩
  | 11 => ⟨S256, .f32⟩
  | 12 => ⟨S256, .f32⟩
  | 13 => ⟨S128x256, .f32⟩
  | 14 => ⟨S128, .f32⟩
  | 15 => ⟨S16384, .i32⟩
  | 16 => ⟨S64x64, .f32⟩
  | 17 => ⟨S64x64, .f32⟩
  | 18 => ⟨S64x64, .f32⟩
  | 19 => ⟨S64x64, .f32⟩
  | 20 => ⟨S_, .f32⟩
  | 21 => ⟨S64x64, .f32⟩
  | 22 => ⟨S64x64, .f32⟩
  | 23 => ⟨S_, .f32⟩
  | 24 => ⟨S64x64, .f32⟩
  | 25 => ⟨S64x64, .f32⟩
  | 26 => ⟨S64x64, .i32⟩
  | 27 => ⟨S64x64, .i32⟩
  | 28 => ⟨S_, .i32⟩
  | 29 => ⟨S64x64, .i32⟩
  | 30 => ⟨S64x64, .i32⟩
  | 31 => ⟨S64x64, .i1⟩
  | 32 => ⟨S64x64, .f32⟩
  | 33 => ⟨S_, .f32⟩
  | 34 => ⟨S64x64, .f32⟩
  | 35 => ⟨S64x64, .f32⟩
  | 36 => ⟨S64x64, .f32⟩
  | 37 => ⟨S64x64, .f32⟩
  | 38 => ⟨S64x64, .f32⟩
  | 39 => ⟨S64x64, .f32⟩
  | 40 => ⟨S_, .f32⟩
  | 41 => ⟨S_, .f32⟩
  | 42 => ⟨S128x256, .f32⟩
  | 43 => ⟨S16384x256, .f32⟩
  | 44 => ⟨S_, .f32⟩
  | 45 => ⟨S256, .f32⟩
  | 46 => ⟨S_, .f32⟩
  | 47 => ⟨S256, .f32⟩
  | 48 => ⟨S256, .f32⟩
  | 49 => ⟨S_, .i32⟩
  | 50 => ⟨S_, .f32⟩
  | 51 => ⟨S256, .f32⟩
  | 52 => ⟨S1x256, .f32⟩
  | 53 => ⟨S_, .f32⟩
  | 54 => ⟨S1x256, .f32⟩
  | 55 => ⟨S1x256, .f32⟩
  | 56 => ⟨S16384x256, .f32⟩
  | 57 => ⟨S16384x256, .f32⟩
  | 58 => ⟨S16384x256, .f32⟩
  | 59 => ⟨S_, .f32⟩
  | 60 => ⟨S_, .f32⟩
  | 61 => ⟨S_, .f32⟩
  | 62 => ⟨S_, .f32⟩
  | 63 => ⟨S256, .f32⟩
  | 64 => ⟨S256, .f32⟩
  | 65 => ⟨S256, .f32⟩
  | 66 => ⟨S_, .f32⟩
  | 67 => ⟨S_, .i1⟩
  | 68 => ⟨S_, .f32⟩
  | 69 => ⟨S_, .f32⟩
  | 70 => ⟨S256, .f32⟩
  | 71 => ⟨S256, .f32⟩
  | 72 => ⟨S1x256, .f32⟩
  | 73 => ⟨S16384x256, .f32⟩
  | 74 => ⟨S16384x256, .f32⟩
  | 75 => ⟨S_, .f32⟩
  | 76 => ⟨S256, .f32⟩
  | 77 => ⟨S256, .f32⟩
  | 78 => ⟨S256, .f32⟩
  | 79 => ⟨S1x256, .f32⟩
  | 80 => ⟨S16384x256, .f32⟩
  | 81 => ⟨S16384x256, .f32⟩
  | 82 => ⟨S1x256, .f32⟩
  | 83 => ⟨S16384x256, .f32⟩
  | 84 => ⟨S16384x256, .f32⟩
  | 85 => ⟨S1x256, .f32⟩
  | 86 => ⟨S16384x256, .f32⟩
  | 87 => ⟨S16384x256, .f32⟩
  | 88 => ⟨S_, .f32⟩
  | 89 => ⟨S16384x256, .f32⟩
  | 90 => ⟨S16384x256, .i1⟩
  | 91 => ⟨S_, .f32⟩
  | 92 => ⟨S16384x256, .f32⟩
  | 93 => ⟨S16384x256, .f32⟩
  | 94 => ⟨S16384x256, .f32⟩
  | 95 => ⟨S256x64, .f32⟩
  | 96 => ⟨S16384x64, .f32⟩
  | 97 => ⟨S1x64, .f32⟩
  | 98 => ⟨S16384x64, .f32⟩
  | 99 => ⟨S16384x64, .f32⟩
  | 100 => ⟨S16384x64, .f32⟩
  | 101 => ⟨S16384x64, .f32⟩
  | 102 => ⟨S_, .f32⟩
  | 103 => ⟨S_, .f32⟩
  | 104 => ⟨S_, .f32⟩
  | 105 => ⟨S_, .f32⟩
  | 106 => ⟨S64x256, .f32⟩
  | 107 => ⟨S2048x256, .f32⟩
  | 108 => ⟨S_, .f32⟩
  | 109 => ⟨S256, .f32⟩
  | 110 => ⟨S_, .f32⟩
  | 111 => ⟨S256, .f32⟩
  | 112 => ⟨S256, .f32⟩
  | 113 => ⟨S_, .i32⟩
  | 114 => ⟨S_, .f32⟩
  | 115 => ⟨S256, .f32⟩
  | 116 => ⟨S1x256, .f32⟩
  | 117 => ⟨S_, .f32⟩
  | 118 => ⟨S1x256, .f32⟩
  | 119 => ⟨S1x256, .f32⟩
  | 120 => ⟨S2048x256, .f32⟩
  | 121 => ⟨S2048x256, .f32⟩
  | 122 => ⟨S2048x256, .f32⟩
  | 123 => ⟨S_, .f32⟩
  | 124 => ⟨S_, .f32⟩
  | 125 => ⟨S_, .f32⟩
  | 126 => ⟨S_, .f32⟩
  | 127 => ⟨S256, .f32⟩
  | _ => ⟨S16384x64, .f32⟩

abbrev hbmTy0_1 (i : Nat) : BufTy := match i % 128 with
  | 0 => ⟨S256, .f32⟩
  | 1 => ⟨S256, .f32⟩
  | 2 => ⟨S_, .f32⟩
  | 3 => ⟨S_, .i1⟩
  | 4 => ⟨S_, .f32⟩
  | 5 => ⟨S_, .f32⟩
  | 6 => ⟨S256, .f32⟩
  | 7 => ⟨S256, .f32⟩
  | 8 => ⟨S1x256, .f32⟩
  | 9 => ⟨S2048x256, .f32⟩
  | 10 => ⟨S2048x256, .f32⟩
  | 11 => ⟨S_, .f32⟩
  | 12 => ⟨S256, .f32⟩
  | 13 => ⟨S256, .f32⟩
  | 14 => ⟨S256, .f32⟩
  | 15 => ⟨S1x256, .f32⟩
  | 16 => ⟨S2048x256, .f32⟩
  | 17 => ⟨S2048x256, .f32⟩
  | 18 => ⟨S1x256, .f32⟩
  | 19 => ⟨S2048x256, .f32⟩
  | 20 => ⟨S2048x256, .f32⟩
  | 21 => ⟨S1x256, .f32⟩
  | 22 => ⟨S2048x256, .f32⟩
  | 23 => ⟨S2048x256, .f32⟩
  | 24 => ⟨S_, .f32⟩
  | 25 => ⟨S2048x256, .f32⟩
  | 26 => ⟨S2048x256, .i1⟩
  | 27 => ⟨S_, .f32⟩
  | 28 => ⟨S2048x256, .f32⟩
  | 29 => ⟨S2048x256, .f32⟩
  | 30 => ⟨S2048x256, .f32⟩
  | 31 => ⟨S256x128, .f32⟩
  | 32 => ⟨S2048x128, .f32⟩
  | 33 => ⟨S1x128, .f32⟩
  | 34 => ⟨S2048x128, .f32⟩
  | 35 => ⟨S2048x128, .f32⟩
  | 36 => ⟨S_, .i32⟩
  | 37 => ⟨S16384, .i32⟩
  | 38 => ⟨S16384, .i1⟩
  | 39 => ⟨S_, .i32⟩
  | 40 => ⟨S16384, .i32⟩
  | 41 => ⟨S16384, .i32⟩
  | 42 => ⟨S16384, .i32⟩
  | 43 => ⟨S16384x1, .i32⟩
  | 44 => ⟨S16384x128, .f32⟩
  | 45 => ⟨S2048x128, .f32⟩
  | 46 => ⟨S_, .f32⟩
  | 47 => ⟨S2048, .f32⟩
  | 48 => ⟨S2048x1, .f32⟩
  | 49 => ⟨S16384x128, .f32⟩
  | 50 => ⟨S_, .f32⟩
  | 51 => ⟨S16384, .f32⟩
  | 52 => ⟨S1x16384, .f32⟩
  | 53 => ⟨S2048x16384, .f32⟩
  | 54 => ⟨S2048x16384, .f32⟩
  | 55 => ⟨S2048x16384, .f32⟩
  | 56 => ⟨S128x16384, .f32⟩
  | 57 => ⟨S2048x16384, .f32⟩
  | 58 => ⟨S_, .f32⟩
  | 59 => ⟨S2048x16384, .f32⟩
  | 60 => ⟨S2048x16384, .f32⟩
  | 61 => ⟨S2048x16384, .f32⟩
  | 62 => ⟨S_, .f32⟩
  | 63 => ⟨S2048x16384, .f32⟩
  | 64 => ⟨S2048x16384, .f32⟩
  | 65 => ⟨S_, .f32⟩
  | 66 => ⟨S2048, .f32⟩
  | 67 => ⟨S_, .f32⟩
  | 68 => ⟨S_, .f32⟩
  | 69 => ⟨S_, .f32⟩
  | 70 => ⟨S_, .f32⟩
  | 71 => ⟨S64x256, .f32⟩
  | 72 => ⟨S8192x256, .f32⟩
  | 73 => ⟨S_, .f32⟩
  | 74 => ⟨S256, .f32⟩
  | 75 => ⟨S_, .f32⟩
  | 76 => ⟨S256, .f32⟩
  | 77 => ⟨S256, .f32⟩
  | 78 => ⟨S_, .i32⟩
  | 79 => ⟨S_, .f32⟩
  | 80 => ⟨S256, .f32⟩
  | 81 => ⟨S1x256, .f32⟩
  | 82 => ⟨S_, .f32⟩
  | 83 => ⟨S1x256, .f32⟩
  | 84 => ⟨S1x256, .f32⟩
  | 85 => ⟨S8192x256, .f32⟩
  | 86 => ⟨S8192x256, .f32⟩
  | 87 => ⟨S8192x256, .f32⟩
  | 88 => ⟨S_, .f32⟩
  | 89 => ⟨S_, .f32⟩
  | 90 => ⟨S_, .f32⟩
  | 91 => ⟨S_, .f32⟩
  | 92 => ⟨S256, .f32⟩
  | 93 => ⟨S256, .f32⟩
  | 94 => ⟨S256, .f32⟩
  | 95 => ⟨S_, .f32⟩
  | 96 => ⟨S_, .i1⟩
  | 97 => ⟨S_, .f32⟩
  | 98 => ⟨S_, .f32⟩
  | 99 => ⟨S256, .f32⟩
  | 100 => ⟨S256, .f32⟩
  | 101 => ⟨S1x256, .f32⟩
  | 102 => ⟨S8192x256, .f32⟩
  | 103 => ⟨S8192x256, .f32⟩
  | 104 => ⟨S_, .f32⟩
  | 105 => ⟨S256, .f32⟩
  | 106 => ⟨S256, .f32⟩
  | 107 => ⟨S256, .f32⟩
  | 108 => ⟨S1x256, .f32⟩
  | 109 => ⟨S8192x256, .f32⟩
  | 110 => ⟨S8192x256, .f32⟩
  | 111 => ⟨S1x256, .f32⟩
  | 112 => ⟨S8192x256, .f32⟩
  | 113 => ⟨S8192x256, .f32⟩
  | 114 => ⟨S1x256, .f32⟩
  | 115 => ⟨S8192x256, .f32⟩
  | 116 => ⟨S8192x256, .f32⟩
  | 117 => ⟨S_, .f32⟩
  | 118 => ⟨S8192x256, .f32⟩
  | 119 => ⟨S8192x256, .i1⟩
  | 120 => ⟨S_, .f32⟩
  | 121 => ⟨S8192x256, .f32⟩
  | 122 => ⟨S8192x256, .f32⟩
  | 123 => ⟨S8192x256, .f32⟩
  | 124 => ⟨S256x128, .f32⟩
  | 125 => ⟨S8192x128, .f32⟩
  | 126 => ⟨S1x128, .f32⟩
  | 127 => ⟨S8192x128, .f32⟩
  | _ => ⟨S16384x64, .f32⟩

abbrev hbmTy0_2 (i : Nat) : BufTy := match i % 128 with
  | 0 => ⟨S8192x128, .f32⟩
  | 1 => ⟨S128x256, .f32⟩
  | 2 => ⟨S8192x256, .f32⟩
  | 3 => ⟨S_, .f32⟩
  | 4 => ⟨S256, .f32⟩
  | 5 => ⟨S_, .f32⟩
  | 6 => ⟨S256, .f32⟩
  | 7 => ⟨S256, .f32⟩
  | 8 => ⟨S_, .i32⟩
  | 9 => ⟨S_, .f32⟩
  | 10 => ⟨S256, .f32⟩
  | 11 => ⟨S1x256, .f32⟩
  | 12 => ⟨S_, .f32⟩
  | 13 => ⟨S1x256, .f32⟩
  | 14 => ⟨S1x256, .f32⟩
  | 15 => ⟨S8192x256, .f32⟩
  | 16 => ⟨S8192x256, .f32⟩
  | 17 => ⟨S8192x256, .f32⟩
  | 18 => ⟨S_, .f32⟩
  | 19 => ⟨S_, .f32⟩
  | 20 => ⟨S_, .f32⟩
  | 21 => ⟨S_, .f32⟩
  | 22 => ⟨S256, .f32⟩
  | 23 => ⟨S256, .f32⟩
  | 24 => ⟨S256, .f32⟩
  | 25 => ⟨S_, .f32⟩
  | 26 => ⟨S_, .i1⟩
  | 27 => ⟨S_, .f32⟩
  | 28 => ⟨S_, .f32⟩
  | 29 => ⟨S256, .f32⟩
  | 30 => ⟨S256, .f32⟩
  | 31 => ⟨S1x256, .f32⟩
  | 32 => ⟨S8192x256, .f32⟩
  | 33 => ⟨S8192x256, .f32⟩
  | 34 => ⟨S_, .f32⟩
  | 35 => ⟨S256, .f32⟩
  | 36 => ⟨S256, .f32⟩
  | 37 => ⟨S256, .f32⟩
  | 38 => ⟨S1x256, .f32⟩
  | 39 => ⟨S8192x256, .f32⟩
  | 40 => ⟨S8192x256, .f32⟩
  | 41 => ⟨S1x256, .f32⟩
  | 42 => ⟨S8192x256, .f32⟩
  | 43 => ⟨S8192x256, .f32⟩
  | 44 => ⟨S1x256, .f32⟩
  | 45 => ⟨S8192x256, .f32⟩
  | 46 => ⟨S8192x256, .f32⟩
  | 47 => ⟨S_, .f32⟩
  | 48 => ⟨S8192x256, .f32⟩
  | 49 => ⟨S8192x256, .i1⟩
  | 50 => ⟨S_, .f32⟩
  | 51 => ⟨S8192x256, .f32⟩
  | 52 => ⟨S8192x256, .f32⟩
  | 53 => ⟨S8192x256, .f32⟩
  | 54 => ⟨S256x64, .f32⟩
  | 55 => ⟨S8192x64, .f32⟩
  | 56 => ⟨S1x64, .f32⟩
  | 57 => ⟨S8192x64, .f32⟩
  | 58 => ⟨S8192x64, .f32⟩
  | 59 => ⟨S_, .f32⟩
  | 60 => ⟨S64, .f32⟩
  | 61 => ⟨S_, .f32⟩
  | 62 => ⟨S64, .f32⟩
  | 63 => ⟨S64, .f32⟩
  | 64 => ⟨S1x64, .f32⟩
  | 65 => ⟨S8192x64, .f32⟩
  | 66 => ⟨S8192x64, .f32⟩
  | 67 => ⟨S8192x64, .f32⟩
  | 68 => ⟨S_, .f32⟩
  | 69 => ⟨S64, .f32⟩
  | 70 => ⟨S64x8192, .f32⟩
  | 71 => ⟨S64x64, .f32⟩
  | 72 => ⟨S64x64, .f32⟩
  | 73 => ⟨S64x1, .f32⟩
  | 74 => ⟨S1x64, .f32⟩
  | 75 => ⟨S64x64, .f32⟩
  | 76 => ⟨S64x64, .f32⟩
  | 77 => ⟨S64x64, .f32⟩
  | 78 => ⟨S64x64, .f32⟩
  | 79 => ⟨S64x64, .i32⟩
  | 80 => ⟨S64x64, .i32⟩
  | 81 => ⟨S_, .i32⟩
  | 82 => ⟨S64x64, .i32⟩
  | 83 => ⟨S64x64, .i32⟩
  | 84 => ⟨S64x64, .i1⟩
  | 85 => ⟨S64x64, .f32⟩
  | 86 => ⟨S_, .f32⟩
  | 87 => ⟨S64x64, .f32⟩
  | 88 => ⟨S64x64, .f32⟩
  | 89 => ⟨S64x64, .f32⟩
  | 90 => ⟨S_, .f32⟩
  | 91 => ⟨S_, .f32⟩
  | 92 => ⟨S_, .f32⟩
  | 93 => ⟨S_, .f32⟩
  | 94 => ⟨S64x1, .f32⟩
  | 95 => ⟨S64x64, .f32⟩
  | 96 => ⟨S64x64, .f32⟩
  | 97 => ⟨S1x64, .f32⟩
  | 98 => ⟨S64x1, .f32⟩
  | 99 => ⟨S64x64, .f32⟩
  | 100 => ⟨S64x64, .f32⟩
  | 101 => ⟨S64x64, .f32⟩
  | 102 => ⟨S64x64, .f32⟩
  | 103 => ⟨S1x8192x64, .f32⟩
  | 104 => ⟨S64x8192, .f32⟩
  | 105 => ⟨S64x8192x1, .f32⟩
  | 106 => ⟨S64x1x64, .f32⟩
  | 107 => ⟨S64x8192x64, .f32⟩
  | 108 => ⟨S64x8192x64, .f32⟩
  | 109 => ⟨S64x8192x64, .f32⟩
  | 110 => ⟨S64x1x64, .f32⟩
  | 111 => ⟨S64x8192x64, .f32⟩
  | 112 => ⟨S64x8192x64, .f32⟩
  | 113 => ⟨S64x8192x64, .f32⟩
  | 114 => ⟨S64x8192x64, .f32⟩
  | 115 => ⟨S_, .f32⟩
  | 116 => ⟨S64x64, .f32⟩
  | 117 => ⟨S64x1x64, .f32⟩
  | 118 => ⟨S_, .f32⟩
  | 119 => ⟨S64x1x64, .f32⟩
  | 120 => ⟨S64x1x64, .f32⟩
  | 121 => ⟨S64x8192x64, .f32⟩
  | 122 => ⟨S64x8192x64, .f32⟩
  | 123 => ⟨S64x64x64, .f32⟩
  | 124 => ⟨S64x64, .i32⟩
  | 125 => ⟨S64x64, .i32⟩
  | 126 => ⟨S64x64, .i1⟩
  | 127 => ⟨S64x64x64, .i1⟩
  | _ => ⟨S16384x64, .f32⟩

abbrev hbmTy0_3 (i : Nat) : BufTy := match i % 128 with
  | 0 => ⟨S_, .f32⟩
  | 1 => ⟨S64x64x64, .f32⟩
  | 2 => ⟨S64x64x64, .f32⟩
  | 3 => ⟨S_, .f32⟩
  | 4 => ⟨S64x64, .f32⟩
  | 5 => ⟨S64x64x1, .f32⟩
  | 6 => ⟨S64x1x64, .f32⟩
  | 7 => ⟨S64x64x64, .f32⟩
  | 8 => ⟨S64x64x64, .f32⟩
  | 9 => ⟨S64x64x64, .f32⟩
  | 10 => ⟨S64, .i32⟩
  | 11 => ⟨S1x64x1, .i32⟩
  | 12 => ⟨S64x1x1, .i32⟩
  | 13 => ⟨S64x64x1, .i32⟩
  | 14 => ⟨S64x64x1, .i32⟩
  | 15 => ⟨S64x64x1, .i1⟩
  | 16 => ⟨S1x1x64, .i32⟩
  | 17 => ⟨S64x1x1, .i32⟩
  | 18 => ⟨S64x1x64, .i32⟩
  | 19 => ⟨S64x1x64, .i32⟩
  | 20 => ⟨S64x1x64, .i1⟩
  | 21 => ⟨S64x64x64, .i1⟩
  | 22 => ⟨S64x64x64, .i1⟩
  | 23 => ⟨S64x64x64, .i1⟩
  | 24 => ⟨S1x64x1, .i32⟩
  | 25 => ⟨S1x1x64, .i32⟩
  | 26 => ⟨S1x64x64, .i32⟩
  | 27 => ⟨S1x64x64, .i32⟩
  | 28 => ⟨S1x64x64, .i1⟩
  | 29 => ⟨S64x64x64, .i1⟩
  | 30 => ⟨S64x64x64, .i1⟩
  | 31 => ⟨S64x64x64, .f32⟩
  | 32 => ⟨S_, .f32⟩
  | 33 => ⟨S_, .f32⟩
  | 34 => ⟨S64x64x64, .f32⟩
  | 35 => ⟨S64x64x64, .f32⟩
  | 36 => ⟨S64x64x64, .f32⟩
  | 37 => ⟨S_, .f32⟩
  | 38 => ⟨S_, .f32⟩
  | 39 => ⟨S64x64x64, .f32⟩
  | 40 => ⟨S64x64x64, .f32⟩
  | 41 => ⟨S64x64, .f32⟩
  | 42 => ⟨S64x64, .f32⟩
  | 43 => ⟨S64x64x1, .f32⟩
  | 44 => ⟨S64x1x64, .f32⟩
  | 45 => ⟨S64x64x64, .f32⟩
  | 46 => ⟨S64x64x64, .f32⟩
  | 47 => ⟨S64x64x64, .f32⟩
  | 48 => ⟨S64x64x64, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | _ => ⟨S16384x64, .f32⟩

abbrev hbmTy (i : Nat) : BufTy := match i / 128 with
  | 0 => hbmTy0_0 i
  | 1 => hbmTy0_1 i
  | 2 => hbmTy0_2 i
  | 3 => hbmTy0_3 i
  | _ => ⟨S16384x64, .f32⟩

abbrev bufTy : (tb : Table) → Fin (tcTables nBuf tb) → BufTy
  | .hbm, ⟨i, _⟩ => hbmTy i
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_cst_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_cst_1 : Ref sig .tc := ⟨.hbm, 60, rfl⟩
abbrev main_call0_v8 : Ref sig .tc := ⟨.hbm, 61, rfl⟩
abbrev main_call0_cst_2 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_cst_3 : Ref sig .tc := ⟨.hbm, 66, rfl⟩
abbrev main_call0_v12 : Ref sig .tc := ⟨.hbm, 67, rfl⟩
abbrev main_call0_cst_4 : Ref sig .tc := ⟨.hbm, 68, rfl⟩
abbrev main_call0_call0_v0 : Ref sig .tc := ⟨.hbm, 69, rfl⟩
abbrev main_call0_call0_v1 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_cst_6 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_cst_7 : Ref sig .tc := ⟨.hbm, 88, rfl⟩
abbrev main_v42 : Ref sig .tc := ⟨.hbm, 89, rfl⟩
abbrev main_v43 : Ref sig .tc := ⟨.hbm, 90, rfl⟩
abbrev main_cst_8 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_cst_9 : Ref sig .tc := ⟨.hbm, 102, rfl⟩
abbrev main_v54 : Ref sig .tc := ⟨.hbm, 103, rfl⟩
abbrev main_cst_10 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_cst_11 : Ref sig .tc := ⟨.hbm, 108, rfl⟩
abbrev main_v58 : Ref sig .tc := ⟨.hbm, 109, rfl⟩
abbrev main_cst_12 : Ref sig .tc := ⟨.hbm, 110, rfl⟩
abbrev main_v59 : Ref sig .tc := ⟨.hbm, 111, rfl⟩
abbrev main_v60 : Ref sig .tc := ⟨.hbm, 112, rfl⟩
abbrev main_c_13 : Ref sig .tc := ⟨.hbm, 113, rfl⟩
abbrev main_call2_cst : Ref sig .tc := ⟨.hbm, 114, rfl⟩
abbrev main_call2_v0 : Ref sig .tc := ⟨.hbm, 115, rfl⟩
abbrev main_call2_v1 : Ref sig .tc := ⟨.hbm, 116, rfl⟩
abbrev main_call2_cst_0 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_call2_v5 : Ref sig .tc := ⟨.hbm, 121, rfl⟩
abbrev main_call2_v6 : Ref sig .tc := ⟨.hbm, 122, rfl⟩
abbrev main_call2_v7 : Ref sig .tc := ⟨.hbm, 123, rfl⟩
abbrev main_call2_cst_1 : Ref sig .tc := ⟨.hbm, 124, rfl⟩
abbrev main_call2_v8 : Ref sig .tc := ⟨.hbm, 125, rfl⟩
abbrev main_call2_cst_2 : Ref sig .tc := ⟨.hbm, 126, rfl⟩
abbrev main_call2_v9 : Ref sig .tc := ⟨.hbm, 127, rfl⟩
abbrev main_call2_v10 : Ref sig .tc := ⟨.hbm, 128, rfl⟩
abbrev main_call2_v11 : Ref sig .tc := ⟨.hbm, 129, rfl⟩
abbrev main_call2_cst_3 : Ref sig .tc := ⟨.hbm, 130, rfl⟩
abbrev main_call2_v12 : Ref sig .tc := ⟨.hbm, 131, rfl⟩
abbrev main_call2_cst_4 : Ref sig .tc := ⟨.hbm, 132, rfl⟩
abbrev main_call2_call0_v0 : Ref sig .tc := ⟨.hbm, 133, rfl⟩
abbrev main_call2_call0_v1 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_cst_14 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_cst_15 : Ref sig .tc := ⟨.hbm, 152, rfl⟩
abbrev main_v77 : Ref sig .tc := ⟨.hbm, 153, rfl⟩
abbrev main_v78 : Ref sig .tc := ⟨.hbm, 154, rfl⟩
abbrev main_cst_16 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_c_17 : Ref sig .tc := ⟨.hbm, 164, rfl⟩
abbrev main_v87 : Ref sig .tc := ⟨.hbm, 165, rfl⟩
abbrev main_v88 : Ref sig .tc := ⟨.hbm, 166, rfl⟩
abbrev main_c_18 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_cst_19 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_cst_20 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_cst_21 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_cst_22 : Ref sig .tc := ⟨.hbm, 190, rfl⟩
abbrev main_v108 : Ref sig .tc := ⟨.hbm, 191, rfl⟩
abbrev main_v109 : Ref sig .tc := ⟨.hbm, 192, rfl⟩
abbrev main_cst_23 : Ref sig .tc := ⟨.hbm, 193, rfl⟩
abbrev main_v110 : Ref sig .tc := ⟨.hbm, 194, rfl⟩
abbrev main_cst_24 : Ref sig .tc := ⟨.hbm, 195, rfl⟩
abbrev main_v111 : Ref sig .tc := ⟨.hbm, 196, rfl⟩
abbrev main_cst_25 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_cst_26 : Ref sig .tc := ⟨.hbm, 201, rfl⟩
abbrev main_v115 : Ref sig .tc := ⟨.hbm, 202, rfl⟩
abbrev main_cst_27 : Ref sig .tc := ⟨.hbm, 203, rfl⟩
abbrev main_v116 : Ref sig .tc := ⟨.hbm, 204, rfl⟩
abbrev main_v117 : Ref sig .tc := ⟨.hbm, 205, rfl⟩
abbrev main_c_28 : Ref sig .tc := ⟨.hbm, 206, rfl⟩
abbrev main_call4_cst : Ref sig .tc := ⟨.hbm, 207, rfl⟩
abbrev main_call4_v0 : Ref sig .tc := ⟨.hbm, 208, rfl⟩
abbrev main_call4_v1 : Ref sig .tc := ⟨.hbm, 209, rfl⟩
abbrev main_call4_cst_0 : Ref sig .tc := ⟨.hbm, 210, rfl⟩
abbrev main_call4_v2 : Ref sig .tc := ⟨.hbm, 211, rfl⟩
abbrev main_call4_v3 : Ref sig .tc := ⟨.hbm, 212, rfl⟩
abbrev main_call4_v4 : Ref sig .tc := ⟨.hbm, 213, rfl⟩
abbrev main_call4_v5 : Ref sig .tc := ⟨.hbm, 214, rfl⟩
abbrev main_call4_v6 : Ref sig .tc := ⟨.hbm, 215, rfl⟩
abbrev main_call4_v7 : Ref sig .tc := ⟨.hbm, 216, rfl⟩
abbrev main_call4_cst_1 : Ref sig .tc := ⟨.hbm, 217, rfl⟩
abbrev main_call4_v8 : Ref sig .tc := ⟨.hbm, 218, rfl⟩
abbrev main_call4_cst_2 : Ref sig .tc := ⟨.hbm, 219, rfl⟩
abbrev main_call4_v9 : Ref sig .tc := ⟨.hbm, 220, rfl⟩
abbrev main_call4_v10 : Ref sig .tc := ⟨.hbm, 221, rfl⟩
abbrev main_call4_v11 : Ref sig .tc := ⟨.hbm, 222, rfl⟩
abbrev main_call4_cst_3 : Ref sig .tc := ⟨.hbm, 223, rfl⟩
abbrev main_call4_v12 : Ref sig .tc := ⟨.hbm, 224, rfl⟩
abbrev main_call4_cst_4 : Ref sig .tc := ⟨.hbm, 225, rfl⟩
abbrev main_call4_call0_v0 : Ref sig .tc := ⟨.hbm, 226, rfl⟩
abbrev main_call4_call0_v1 : Ref sig .tc := ⟨.hbm, 227, rfl⟩
abbrev main_v118 : Ref sig .tc := ⟨.hbm, 228, rfl⟩
abbrev main_v119 : Ref sig .tc := ⟨.hbm, 229, rfl⟩
abbrev main_v120 : Ref sig .tc := ⟨.hbm, 230, rfl⟩
abbrev main_v121 : Ref sig .tc := ⟨.hbm, 231, rfl⟩
abbrev main_cst_29 : Ref sig .tc := ⟨.hbm, 232, rfl⟩
abbrev main_v122 : Ref sig .tc := ⟨.hbm, 233, rfl⟩
abbrev main_v123 : Ref sig .tc := ⟨.hbm, 234, rfl⟩
abbrev main_v124 : Ref sig .tc := ⟨.hbm, 235, rfl⟩
abbrev main_v125 : Ref sig .tc := ⟨.hbm, 236, rfl⟩
abbrev main_v126 : Ref sig .tc := ⟨.hbm, 237, rfl⟩
abbrev main_v127 : Ref sig .tc := ⟨.hbm, 238, rfl⟩
abbrev main_v128 : Ref sig .tc := ⟨.hbm, 239, rfl⟩
abbrev main_v129 : Ref sig .tc := ⟨.hbm, 240, rfl⟩
abbrev main_v130 : Ref sig .tc := ⟨.hbm, 241, rfl⟩
abbrev main_v131 : Ref sig .tc := ⟨.hbm, 242, rfl⟩
abbrev main_v132 : Ref sig .tc := ⟨.hbm, 243, rfl⟩
abbrev main_v133 : Ref sig .tc := ⟨.hbm, 244, rfl⟩
abbrev main_cst_30 : Ref sig .tc := ⟨.hbm, 245, rfl⟩
abbrev main_v134 : Ref sig .tc := ⟨.hbm, 246, rfl⟩
abbrev main_v135 : Ref sig .tc := ⟨.hbm, 247, rfl⟩
abbrev main_cst_31 : Ref sig .tc := ⟨.hbm, 248, rfl⟩
abbrev main_v136 : Ref sig .tc := ⟨.hbm, 249, rfl⟩
abbrev main_v137 : Ref sig .tc := ⟨.hbm, 250, rfl⟩
abbrev main_v138 : Ref sig .tc := ⟨.hbm, 251, rfl⟩
abbrev main_v139 : Ref sig .tc := ⟨.hbm, 252, rfl⟩
abbrev main_v140 : Ref sig .tc := ⟨.hbm, 253, rfl⟩
abbrev main_v141 : Ref sig .tc := ⟨.hbm, 254, rfl⟩
abbrev main_v142 : Ref sig .tc := ⟨.hbm, 255, rfl⟩
abbrev main_v143 : Ref sig .tc := ⟨.hbm, 256, rfl⟩
abbrev main_v144 : Ref sig .tc := ⟨.hbm, 257, rfl⟩
abbrev main_v145 : Ref sig .tc := ⟨.hbm, 258, rfl⟩
abbrev main_cst_32 : Ref sig .tc := ⟨.hbm, 259, rfl⟩
abbrev main_v146 : Ref sig .tc := ⟨.hbm, 260, rfl⟩
abbrev main_cst_33 : Ref sig .tc := ⟨.hbm, 261, rfl⟩
abbrev main_v147 : Ref sig .tc := ⟨.hbm, 262, rfl⟩
abbrev main_v148 : Ref sig .tc := ⟨.hbm, 263, rfl⟩
abbrev main_c_34 : Ref sig .tc := ⟨.hbm, 264, rfl⟩
abbrev main_call6_cst : Ref sig .tc := ⟨.hbm, 265, rfl⟩
abbrev main_call6_v0 : Ref sig .tc := ⟨.hbm, 266, rfl⟩
abbrev main_call6_v1 : Ref sig .tc := ⟨.hbm, 267, rfl⟩
abbrev main_call6_cst_0 : Ref sig .tc := ⟨.hbm, 268, rfl⟩
abbrev main_call6_v2 : Ref sig .tc := ⟨.hbm, 269, rfl⟩
abbrev main_call6_v3 : Ref sig .tc := ⟨.hbm, 270, rfl⟩
abbrev main_call6_v4 : Ref sig .tc := ⟨.hbm, 271, rfl⟩
abbrev main_call6_v5 : Ref sig .tc := ⟨.hbm, 272, rfl⟩
abbrev main_call6_v6 : Ref sig .tc := ⟨.hbm, 273, rfl⟩
abbrev main_call6_v7 : Ref sig .tc := ⟨.hbm, 274, rfl⟩
abbrev main_call6_cst_1 : Ref sig .tc := ⟨.hbm, 275, rfl⟩
abbrev main_call6_v8 : Ref sig .tc := ⟨.hbm, 276, rfl⟩
abbrev main_call6_cst_2 : Ref sig .tc := ⟨.hbm, 277, rfl⟩
abbrev main_call6_v9 : Ref sig .tc := ⟨.hbm, 278, rfl⟩
abbrev main_call6_v10 : Ref sig .tc := ⟨.hbm, 279, rfl⟩
abbrev main_call6_v11 : Ref sig .tc := ⟨.hbm, 280, rfl⟩
abbrev main_call6_cst_3 : Ref sig .tc := ⟨.hbm, 281, rfl⟩
abbrev main_call6_v12 : Ref sig .tc := ⟨.hbm, 282, rfl⟩
abbrev main_call6_cst_4 : Ref sig .tc := ⟨.hbm, 283, rfl⟩
abbrev main_call6_call0_v0 : Ref sig .tc := ⟨.hbm, 284, rfl⟩
abbrev main_call6_call0_v1 : Ref sig .tc := ⟨.hbm, 285, rfl⟩
abbrev main_v149 : Ref sig .tc := ⟨.hbm, 286, rfl⟩
abbrev main_v150 : Ref sig .tc := ⟨.hbm, 287, rfl⟩
abbrev main_v151 : Ref sig .tc := ⟨.hbm, 288, rfl⟩
abbrev main_v152 : Ref sig .tc := ⟨.hbm, 289, rfl⟩
abbrev main_cst_35 : Ref sig .tc := ⟨.hbm, 290, rfl⟩
abbrev main_v153 : Ref sig .tc := ⟨.hbm, 291, rfl⟩
abbrev main_v154 : Ref sig .tc := ⟨.hbm, 292, rfl⟩
abbrev main_v155 : Ref sig .tc := ⟨.hbm, 293, rfl⟩
abbrev main_v156 : Ref sig .tc := ⟨.hbm, 294, rfl⟩
abbrev main_v157 : Ref sig .tc := ⟨.hbm, 295, rfl⟩
abbrev main_v158 : Ref sig .tc := ⟨.hbm, 296, rfl⟩
abbrev main_v159 : Ref sig .tc := ⟨.hbm, 297, rfl⟩
abbrev main_v160 : Ref sig .tc := ⟨.hbm, 298, rfl⟩
abbrev main_v161 : Ref sig .tc := ⟨.hbm, 299, rfl⟩
abbrev main_v162 : Ref sig .tc := ⟨.hbm, 300, rfl⟩
abbrev main_v163 : Ref sig .tc := ⟨.hbm, 301, rfl⟩
abbrev main_v164 : Ref sig .tc := ⟨.hbm, 302, rfl⟩
abbrev main_cst_36 : Ref sig .tc := ⟨.hbm, 303, rfl⟩
abbrev main_v165 : Ref sig .tc := ⟨.hbm, 304, rfl⟩
abbrev main_v166 : Ref sig .tc := ⟨.hbm, 305, rfl⟩
abbrev main_cst_37 : Ref sig .tc := ⟨.hbm, 306, rfl⟩
abbrev main_v167 : Ref sig .tc := ⟨.hbm, 307, rfl⟩
abbrev main_v168 : Ref sig .tc := ⟨.hbm, 308, rfl⟩
abbrev main_v169 : Ref sig .tc := ⟨.hbm, 309, rfl⟩
abbrev main_v170 : Ref sig .tc := ⟨.hbm, 310, rfl⟩
abbrev main_v171 : Ref sig .tc := ⟨.hbm, 311, rfl⟩
abbrev main_v172 : Ref sig .tc := ⟨.hbm, 312, rfl⟩
abbrev main_v173 : Ref sig .tc := ⟨.hbm, 313, rfl⟩
abbrev main_v174 : Ref sig .tc := ⟨.hbm, 314, rfl⟩
abbrev main_cst_38 : Ref sig .tc := ⟨.hbm, 315, rfl⟩
abbrev main_v175 : Ref sig .tc := ⟨.hbm, 316, rfl⟩
abbrev main_cst_39 : Ref sig .tc := ⟨.hbm, 317, rfl⟩
abbrev main_v176 : Ref sig .tc := ⟨.hbm, 318, rfl⟩
abbrev main_v177 : Ref sig .tc := ⟨.hbm, 319, rfl⟩
abbrev main_v178 : Ref sig .tc := ⟨.hbm, 320, rfl⟩
abbrev main_v179 : Ref sig .tc := ⟨.hbm, 321, rfl⟩
abbrev main_v180 : Ref sig .tc := ⟨.hbm, 322, rfl⟩
abbrev main_v181 : Ref sig .tc := ⟨.hbm, 323, rfl⟩
abbrev main_cst_40 : Ref sig .tc := ⟨.hbm, 324, rfl⟩
abbrev main_v182 : Ref sig .tc := ⟨.hbm, 325, rfl⟩
abbrev main_v183 : Ref sig .tc := ⟨.hbm, 326, rfl⟩
abbrev main_v184 : Ref sig .tc := ⟨.hbm, 327, rfl⟩
abbrev main_v185 : Ref sig .tc := ⟨.hbm, 328, rfl⟩
abbrev main_v186 : Ref sig .tc := ⟨.hbm, 329, rfl⟩
abbrev main_v187 : Ref sig .tc := ⟨.hbm, 330, rfl⟩
abbrev main_v188 : Ref sig .tc := ⟨.hbm, 331, rfl⟩
abbrev main_v189 : Ref sig .tc := ⟨.hbm, 332, rfl⟩
abbrev main_v190 : Ref sig .tc := ⟨.hbm, 333, rfl⟩
abbrev main_v191 : Ref sig .tc := ⟨.hbm, 334, rfl⟩
abbrev main_v192 : Ref sig .tc := ⟨.hbm, 335, rfl⟩
abbrev main_v193 : Ref sig .tc := ⟨.hbm, 336, rfl⟩
abbrev main_c_41 : Ref sig .tc := ⟨.hbm, 337, rfl⟩
abbrev main_v194 : Ref sig .tc := ⟨.hbm, 338, rfl⟩
abbrev main_v195 : Ref sig .tc := ⟨.hbm, 339, rfl⟩
abbrev main_v196 : Ref sig .tc := ⟨.hbm, 340, rfl⟩
abbrev main_v197 : Ref sig .tc := ⟨.hbm, 341, rfl⟩
abbrev main_cst_42 : Ref sig .tc := ⟨.hbm, 342, rfl⟩
abbrev main_v198 : Ref sig .tc := ⟨.hbm, 343, rfl⟩
abbrev main_v199 : Ref sig .tc := ⟨.hbm, 344, rfl⟩
abbrev main_v200 : Ref sig .tc := ⟨.hbm, 345, rfl⟩
abbrev main_cst_43 : Ref sig .tc := ⟨.hbm, 346, rfl⟩
abbrev main_v201 : Ref sig .tc := ⟨.hbm, 347, rfl⟩
abbrev main_cst_44 : Ref sig .tc := ⟨.hbm, 348, rfl⟩
abbrev main_v202 : Ref sig .tc := ⟨.hbm, 349, rfl⟩
abbrev main_v203 : Ref sig .tc := ⟨.hbm, 350, rfl⟩
abbrev main_v204 : Ref sig .tc := ⟨.hbm, 351, rfl⟩
abbrev main_v205 : Ref sig .tc := ⟨.hbm, 352, rfl⟩
abbrev main_v206 : Ref sig .tc := ⟨.hbm, 353, rfl⟩
abbrev main_v207 : Ref sig .tc := ⟨.hbm, 354, rfl⟩
abbrev main_v208 : Ref sig .tc := ⟨.hbm, 355, rfl⟩
abbrev main_v209 : Ref sig .tc := ⟨.hbm, 356, rfl⟩
abbrev main_v210 : Ref sig .tc := ⟨.hbm, 357, rfl⟩
abbrev main_v211 : Ref sig .tc := ⟨.hbm, 358, rfl⟩
abbrev main_v212 : Ref sig .tc := ⟨.hbm, 359, rfl⟩
abbrev main_v213 : Ref sig .tc := ⟨.hbm, 360, rfl⟩
abbrev main_v214 : Ref sig .tc := ⟨.hbm, 361, rfl⟩
abbrev main_v215 : Ref sig .tc := ⟨.hbm, 362, rfl⟩
abbrev main_v216 : Ref sig .tc := ⟨.hbm, 363, rfl⟩
abbrev main_v217 : Ref sig .tc := ⟨.hbm, 364, rfl⟩
abbrev main_v218 : Ref sig .tc := ⟨.hbm, 365, rfl⟩
abbrev main_v219 : Ref sig .tc := ⟨.hbm, 366, rfl⟩
abbrev main_v220 : Ref sig .tc := ⟨.hbm, 367, rfl⟩
abbrev main_v221 : Ref sig .tc := ⟨.hbm, 368, rfl⟩
abbrev main_v222 : Ref sig .tc := ⟨.hbm, 369, rfl⟩
abbrev main_v223 : Ref sig .tc := ⟨.hbm, 370, rfl⟩
abbrev main_cst_45 : Ref sig .tc := ⟨.hbm, 371, rfl⟩
abbrev main_v224 : Ref sig .tc := ⟨.hbm, 372, rfl⟩
abbrev main_v225 : Ref sig .tc := ⟨.hbm, 373, rfl⟩
abbrev main_cst_46 : Ref sig .tc := ⟨.hbm, 374, rfl⟩
abbrev main_v226 : Ref sig .tc := ⟨.hbm, 375, rfl⟩
abbrev main_v227 : Ref sig .tc := ⟨.hbm, 376, rfl⟩
abbrev main_v228 : Ref sig .tc := ⟨.hbm, 377, rfl⟩
abbrev main_v229 : Ref sig .tc := ⟨.hbm, 378, rfl⟩
abbrev main_v230 : Ref sig .tc := ⟨.hbm, 379, rfl⟩
abbrev main_v231 : Ref sig .tc := ⟨.hbm, 380, rfl⟩
abbrev main_v232 : Ref sig .tc := ⟨.hbm, 381, rfl⟩
abbrev main_v233 : Ref sig .tc := ⟨.hbm, 382, rfl⟩
abbrev main_v234 : Ref sig .tc := ⟨.hbm, 383, rfl⟩
abbrev main_cst_47 : Ref sig .tc := ⟨.hbm, 384, rfl⟩
abbrev main_v235 : Ref sig .tc := ⟨.hbm, 385, rfl⟩
abbrev main_v236 : Ref sig .tc := ⟨.hbm, 386, rfl⟩
abbrev main_cst_48 : Ref sig .tc := ⟨.hbm, 387, rfl⟩
abbrev main_v237 : Ref sig .tc := ⟨.hbm, 388, rfl⟩
abbrev main_v238 : Ref sig .tc := ⟨.hbm, 389, rfl⟩
abbrev main_v239 : Ref sig .tc := ⟨.hbm, 390, rfl⟩
abbrev main_v240 : Ref sig .tc := ⟨.hbm, 391, rfl⟩
abbrev main_v241 : Ref sig .tc := ⟨.hbm, 392, rfl⟩
abbrev main_v242 : Ref sig .tc := ⟨.hbm, 393, rfl⟩
abbrev main_v243 : Ref sig .tc := ⟨.hbm, 394, rfl⟩
abbrev main_v244 : Ref sig .tc := ⟨.hbm, 395, rfl⟩
abbrev main_v245 : Ref sig .tc := ⟨.hbm, 396, rfl⟩
abbrev main_v246 : Ref sig .tc := ⟨.hbm, 397, rfl⟩
abbrev main_v247 : Ref sig .tc := ⟨.hbm, 398, rfl⟩
abbrev main_v248 : Ref sig .tc := ⟨.hbm, 399, rfl⟩
abbrev main_v249 : Ref sig .tc := ⟨.hbm, 400, rfl⟩
abbrev main_v250 : Ref sig .tc := ⟨.hbm, 401, rfl⟩
abbrev main_v251 : Ref sig .tc := ⟨.hbm, 402, rfl⟩
abbrev main_v252 : Ref sig .tc := ⟨.hbm, 403, rfl⟩
abbrev main_v253 : Ref sig .tc := ⟨.hbm, 404, rfl⟩
abbrev main_v254 : Ref sig .tc := ⟨.hbm, 405, rfl⟩
abbrev main_v255 : Ref sig .tc := ⟨.hbm, 406, rfl⟩
abbrev main_v256 : Ref sig .tc := ⟨.hbm, 407, rfl⟩
abbrev main_v257 : Ref sig .tc := ⟨.hbm, 408, rfl⟩
abbrev main_v258 : Ref sig .tc := ⟨.hbm, 409, rfl⟩
abbrev main_v259 : Ref sig .tc := ⟨.hbm, 410, rfl⟩
abbrev main_v260 : Ref sig .tc := ⟨.hbm, 411, rfl⟩
abbrev main_v261 : Ref sig .tc := ⟨.hbm, 412, rfl⟩
abbrev main_v262 : Ref sig .tc := ⟨.hbm, 413, rfl⟩
abbrev main_v263 : Ref sig .tc := ⟨.hbm, 414, rfl⟩
abbrev main_v264 : Ref sig .tc := ⟨.hbm, 415, rfl⟩
abbrev main_cst_49 : Ref sig .tc := ⟨.hbm, 416, rfl⟩
abbrev main_call8_v0 : Ref sig .tc := ⟨.hbm, 417, rfl⟩
abbrev main_call8_v1 : Ref sig .tc := ⟨.hbm, 418, rfl⟩
abbrev main_v265 : Ref sig .tc := ⟨.hbm, 419, rfl⟩
abbrev main_v266 : Ref sig .tc := ⟨.hbm, 420, rfl⟩
abbrev main_cst_50 : Ref sig .tc := ⟨.hbm, 421, rfl⟩
abbrev main_call9_v0 : Ref sig .tc := ⟨.hbm, 422, rfl⟩
abbrev main_call9_v1 : Ref sig .tc := ⟨.hbm, 423, rfl⟩
abbrev main_v267 : Ref sig .tc := ⟨.hbm, 424, rfl⟩
abbrev main_v268 : Ref sig .tc := ⟨.hbm, 425, rfl⟩
abbrev main_v269 : Ref sig .tc := ⟨.hbm, 426, rfl⟩
abbrev main_v270 : Ref sig .tc := ⟨.hbm, 427, rfl⟩
abbrev main_v271 : Ref sig .tc := ⟨.hbm, 428, rfl⟩
abbrev main_v272 : Ref sig .tc := ⟨.hbm, 429, rfl⟩
abbrev main_v273 : Ref sig .tc := ⟨.hbm, 430, rfl⟩
abbrev main_v274 : Ref sig .tc := ⟨.hbm, 431, rfl⟩
abbrev main_v275 : Ref sig .tc := ⟨.hbm, 432, rfl⟩
abbrev main_cst_51 : Ref sig .tc := ⟨.hbm, 433, rfl⟩
abbrev main_v276 : Ref sig .tc := ⟨.hbm, 434, rfl⟩
abbrev main_v277 : Ref sig .tc := ⟨.hbm, 435, rfl⟩
abbrev main_v278 : Ref sig .tc := ⟨.hbm, 436, rfl⟩
abbrev main_v279 : Ref sig .tc := ⟨.hbm, 437, rfl⟩
abbrev main_v280 : Ref sig .tc := ⟨.hbm, 438, rfl⟩

abbrev nD : Nat := 1
abbrev τ : Topo := Topo.v7x

variable {F : FTy → Type} [FloatOps F]

class Facts₀ : Prop where
  transposes_S64x64_S64x64_1_0 : S64x64.Transposes [1, 0] S64x64
  bcast_S_S64x64 : S_.BroadcastsInDim S64x64 (![] : Fin 0 → Fin S64x64.rank)
  reducesTo_S64x64_S_d0_1 : S64x64.ReducesTo [0, 1] S_
  h_S_ : 0 < S_.numel
  transposes_S256x128_S128x256_1_0 : S256x128.Transposes [1, 0] S128x256
  reducesTo_S16384x256_S256_d0 : S16384x256.ReducesTo [0] S256
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  transposes_S64x256_S256x64_1_0 : S64x256.Transposes [1, 0] S256x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x64_S_d0_1 : S16384x64.ReducesTo [0, 1] S_
  transposes_S256x64_S64x256_1_0 : S256x64.Transposes [1, 0] S64x256
  reducesTo_S2048x256_S256_d0 : S2048x256.ReducesTo [0] S256
  bcast_S1x256_S2048x256_0_1 : S1x256.BroadcastsInDim S2048x256 (![0, 1] : Fin 2 → Fin S2048x256.rank)
  bcast_S_S2048x256 : S_.BroadcastsInDim S2048x256 (![] : Fin 0 → Fin S2048x256.rank)
  transposes_S128x256_S256x128_1_0 : S128x256.Transposes [1, 0] S256x128
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  bcast_S_S16384 : S_.BroadcastsInDim S16384 (![] : Fin 0 → Fin S16384.rank)
  bcast_S16384_S16384x1_0 : S16384.BroadcastsInDim S16384x1 (![0] : Fin 1 → Fin S16384x1.rank)
  reducesTo_S2048x128_S2048_d1 : S2048x128.ReducesTo [1] S2048
  bcast_S2048_S2048x1_0 : S2048.BroadcastsInDim S2048x1 (![0] : Fin 1 → Fin S2048x1.rank)
  reducesTo_S16384x128_S16384_d1 : S16384x128.ReducesTo [1] S16384
  bcast_S16384_S1x16384_1 : S16384.BroadcastsInDim S1x16384 (![1] : Fin 1 → Fin S1x16384.rank)
  bcast_S2048x1_S2048x16384_0_1 : S2048x1.BroadcastsInDim S2048x16384 (![0, 1] : Fin 2 → Fin S2048x16384.rank)
  bcast_S1x16384_S2048x16384_0_1 : S1x16384.BroadcastsInDim S2048x16384 (![0, 1] : Fin 2 → Fin S2048x16384.rank)
  transposes_S16384x128_S128x16384_1_0 : S16384x128.Transposes [1, 0] S128x16384
  bcast_S_S2048x16384 : S_.BroadcastsInDim S2048x16384 (![] : Fin 0 → Fin S2048x16384.rank)
  reducesTo_S2048x16384_S2048_d1 : S2048x16384.ReducesTo [1] S2048
  reducesTo_S2048_S_d0 : S2048.ReducesTo [0] S_
  reducesTo_S8192x256_S256_d0 : S8192x256.ReducesTo [0] S256
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S1x128_S8192x128_0_1 : S1x128.BroadcastsInDim S8192x128 (![0, 1] : Fin 2 → Fin S8192x128.rank)
  bcast_S1x64_S8192x64_0_1 : S1x64.BroadcastsInDim S8192x64 (![0, 1] : Fin 2 → Fin S8192x64.rank)
  reducesTo_S8192x64_S64_d0 : S8192x64.ReducesTo [0] S64
  bcast_S_S64 : S_.BroadcastsInDim S64 (![] : Fin 0 → Fin S64.rank)
  transposes_S8192x64_S64x8192_1_0 : S8192x64.Transposes [1, 0] S64x8192
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S8192x64_S1x8192x64_1_2 : S8192x64.BroadcastsInDim S1x8192x64 (![1, 2] : Fin 2 → Fin S1x8192x64.rank)
  bcast_S64x8192_S64x8192x1_0_1 : S64x8192.BroadcastsInDim S64x8192x1 (![0, 1] : Fin 2 → Fin S64x8192x1.rank)
  bcast_S64x64_S64x1x64_0_2 : S64x64.BroadcastsInDim S64x1x64 (![0, 2] : Fin 2 → Fin S64x1x64.rank)
  bcast_S64x8192x1_S64x8192x64_0_1_2 : S64x8192x1.BroadcastsInDim S64x8192x64 (![0, 1, 2] : Fin 3 → Fin S64x8192x64.rank)
  bcast_S64x1x64_S64x8192x64_0_1_2 : S64x1x64.BroadcastsInDim S64x8192x64 (![0, 1, 2] : Fin 3 → Fin S64x8192x64.rank)
  bcast_S1x8192x64_S64x8192x64_0_1_2 : S1x8192x64.BroadcastsInDim S64x8192x64 (![0, 1, 2] : Fin 3 → Fin S64x8192x64.rank)
  reducesTo_S64x8192x64_S64x64_d1 : S64x8192x64.ReducesTo [1] S64x64
  bcast_S_S64x1x64 : S_.BroadcastsInDim S64x1x64 (![] : Fin 0 → Fin S64x1x64.rank)
  bcast_S64x64_S64x64x64_1_2 : S64x64.BroadcastsInDim S64x64x64 (![1, 2] : Fin 2 → Fin S64x64x64.rank)
  bcast_S_S64x64x64 : S_.BroadcastsInDim S64x64x64 (![] : Fin 0 → Fin S64x64x64.rank)
  reducesTo_S64x64x64_S64x64_d1 : S64x64x64.ReducesTo [1] S64x64
  bcast_S64x64_S64x64x1_0_1 : S64x64.BroadcastsInDim S64x64x1 (![0, 1] : Fin 2 → Fin S64x64x1.rank)
  bcast_S64x64x1_S64x64x64_0_1_2 : S64x64x1.BroadcastsInDim S64x64x64 (![0, 1, 2] : Fin 3 → Fin S64x64x64.rank)
  bcast_S64x1x64_S64x64x64_0_1_2 : S64x1x64.BroadcastsInDim S64x64x64 (![0, 1, 2] : Fin 3 → Fin S64x64x64.rank)
  bcast_S64_S1x64x1_1 : S64.BroadcastsInDim S1x64x1 (![1] : Fin 1 → Fin S1x64x1.rank)
  bcast_S64_S64x1x1_0 : S64.BroadcastsInDim S64x1x1 (![0] : Fin 1 → Fin S64x1x1.rank)
  bcast_S1x64x1_S64x64x1_0_1_2 : S1x64x1.BroadcastsInDim S64x64x1 (![0, 1, 2] : Fin 3 → Fin S64x64x1.rank)
  bcast_S64x1x1_S64x64x1_0_1_2 : S64x1x1.BroadcastsInDim S64x64x1 (![0, 1, 2] : Fin 3 → Fin S64x64x1.rank)
  bcast_S64_S1x1x64_2 : S64.BroadcastsInDim S1x1x64 (![2] : Fin 1 → Fin S1x1x64.rank)
  bcast_S1x1x64_S64x1x64_0_1_2 : S1x1x64.BroadcastsInDim S64x1x64 (![0, 1, 2] : Fin 3 → Fin S64x1x64.rank)
  bcast_S64x1x1_S64x1x64_0_1_2 : S64x1x1.BroadcastsInDim S64x1x64 (![0, 1, 2] : Fin 3 → Fin S64x1x64.rank)
  bcast_S1x64x1_S1x64x64_0_1_2 : S1x64x1.BroadcastsInDim S1x64x64 (![0, 1, 2] : Fin 3 → Fin S1x64x64.rank)
  bcast_S1x1x64_S1x64x64_0_1_2 : S1x1x64.BroadcastsInDim S1x64x64 (![0, 1, 2] : Fin 3 → Fin S1x64x64.rank)
  bcast_S1x64x64_S64x64x64_0_1_2 : S1x64x64.BroadcastsInDim S64x64x64 (![0, 1, 2] : Fin 3 → Fin S64x64x64.rank)
  reducesTo_S64x64x64_S_d0_1_2 : S64x64x64.ReducesTo [0, 1, 2] S_
  dot_S64x64_S64x64_S64x64_1_0_0_1_n_n_wf : DotDims.WF S64x64 S64x64 S64x64 [1] [0] [0] [1] [] []
  dot_S16384x128_S128x256_S16384x256_1_0_0_1_n_n_wf : DotDims.WF S16384x128 S128x256 S16384x256 [1] [0] [0] [1] [] []
  dot_S16384x256_S256x64_S16384x64_1_0_0_1_n_n_wf : DotDims.WF S16384x256 S256x64 S16384x64 [1] [0] [0] [1] [] []
  dot_S2048x64_S64x256_S2048x256_1_0_0_1_n_n_wf : DotDims.WF S2048x64 S64x256 S2048x256 [1] [0] [0] [1] [] []
  dot_S2048x256_S256x128_S2048x128_1_0_0_1_n_n_wf : DotDims.WF S2048x256 S256x128 S2048x128 [1] [0] [0] [1] [] []
  gather_S16384x128_S16384x1_S16384x128_1_0_n_n_0_1_1128_wf : GatherDims.WF S16384x128 S16384x1 S16384x128 [1] [0] [] [0] [] 1 ![1, 128]
  dot_S2048x128_S128x16384_S2048x16384_1_0_0_1_n_n_wf : DotDims.WF S2048x128 S128x16384 S2048x16384 [1] [0] [0] [1] [] []
  dot_S8192x64_S64x256_S8192x256_1_0_0_1_n_n_wf : DotDims.WF S8192x64 S64x256 S8192x256 [1] [0] [0] [1] [] []
  dot_S8192x256_S256x128_S8192x128_1_0_0_1_n_n_wf : DotDims.WF S8192x256 S256x128 S8192x128 [1] [0] [0] [1] [] []
  dot_S8192x128_S128x256_S8192x256_1_0_0_1_n_n_wf : DotDims.WF S8192x128 S128x256 S8192x256 [1] [0] [0] [1] [] []
  dot_S8192x256_S256x64_S8192x64_1_0_0_1_n_n_wf : DotDims.WF S8192x256 S256x64 S8192x64 [1] [0] [0] [1] [] []
  dot_S64x8192_S8192x64_S64x64_1_0_0_1_n_n_wf : DotDims.WF S64x8192 S8192x64 S64x64 [1] [0] [0] [1] [] []
  dot_S64x8192x64_S64x8192x64_S64x64x64_1_1_2_2_0_0_wf : DotDims.WF S64x8192x64 S64x8192x64 S64x64x64 [1] [1] [2] [2] [0] [0]

variable [Facts₀]

def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S16384x128_S128x256_S16384x256_1_0_0_1_n_n : DotDims S16384x128 S128x256 S16384x256 where
  lhsContracting := [1]
  rhsContracting := [0]
  lhsNonContracting := [0]
  rhsNonContracting := [1]
  lhsBatch := []
  rhsBatch := []
  wf := dot_S16384x128_S128x256_S16384x256_1_0_0_1_n_n_wf
def dot_S16384x256_S256x64_S16384x64_1_0_0_1_n_n : DotDims S16384x256 S256x64 S16384x64 where
  lhsContracting := [1]
  rhsContracting := [0]
  lhsNonContracting := [0]
  rhsNonContracting := [1]
  lhsBatch := []
  rhsBatch := []
  wf := dot_S16384x256_S256x64_S16384x64_1_0_0_1_n_n_wf
def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def gather_S16384x128_S16384x1_S16384x128_1_0_n_n_0_1_1128 : GatherDims S16384x128 S16384x1 S16384x128 where
  offsetDims := [1]
  collapsedSliceDims := [0]
  operandBatchingDims := []
  startIndicesBatchingDims := []
  startIndexMap := [0]
  indexVectorDim := 1
  sliceSizes := ![1, 128]
  wf := gather_S16384x128_S16384x1_S16384x128_1_0_n_n_0_1_1128_wf
def dot_S2048x128_S128x16384_S2048x16384_1_0_0_1_n_n : DotDims S2048x128 S128x16384 S2048x16384 where
  lhsContracting := [1]
  rhsContracting := [0]
  lhsNonContracting := [0]
  rhsNonContracting := [1]
  lhsBatch := []
  rhsBatch := []
  wf := dot_S2048x128_S128x16384_S2048x16384_1_0_0_1_n_n_wf
def dot_S8192x64_S64x256_S8192x256_1_0_0_1_n_n : DotDims S8192x64 S64x256 S8192x256 where
  lhsContracting := [1]
  rhsContracting := [0]
  lhsNonContracting := [0]
  rhsNonContracting := [1]
  lhsBatch := []
  rhsBatch := []
  wf := dot_S8192x64_S64x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S64x8192_S8192x64_S64x64_1_0_0_1_n_n : DotDims S64x8192 S8192x64 S64x64 where
  lhsContracting := [1]
  rhsContracting := [0]
  lhsNonContracting := [0]
  rhsNonContracting := [1]
  lhsBatch := []
  rhsBatch := []
  wf := dot_S64x8192_S8192x64_S64x64_1_0_0_1_n_n_wf
def dot_S64x8192x64_S64x8192x64_S64x64x64_1_1_2_2_0_0 : DotDims S64x8192x64 S64x8192x64 S64x64x64 where
  lhsContracting := [1]
  rhsContracting := [1]
  lhsNonContracting := [2]
  rhsNonContracting := [2]
  lhsBatch := [0]
  rhsBatch := [0]
  wf := dot_S64x8192x64_S64x8192x64_S64x64x64_1_1_2_2_0_0_wf

class Facts : Prop extends Facts₀ where

variable [Facts]
-- ==== Proof.Spec.lean ====
import Idealize.ShloMosaic.PureOps.Ideal
import Idealize.ShloMosaic.Lib.ValueIdx

noncomputable section

open scoped BigOperators

namespace Cert.Spec

open Idealize.ShloMosaic

abbrev sc (x : (⟨0, ![]⟩ : Shape).Idx → EReal) : EReal := x ValueIdx.ix0
abbrev at2 {a b : Nat} (x : (⟨2, ![a, b]⟩ : Shape).Idx → EReal) (i : Fin a) (k : Fin b) : EReal := x (ValueIdx.ix2 i k)
abbrev at3 {a b c : Nat} (x : (⟨3, ![a, b, c]⟩ : Shape).Idx → EReal) (i : Fin a) (j : Fin b) (k : Fin c) : EReal := x (ValueIdx.ix3 i j k)

def IsReal (x : EReal) : Prop := ∃ r : ℝ, x = (r : EReal)

/-- `|Zp p|² + |Zs s|² − 2⟨Zp p, Zs s⟩`. -/
def raw (Zp : Fin 2048 → Fin 128 → EReal) (Zs : Fin 16384 → Fin 128 → EReal) (p : Fin 2048) (s : Fin 16384) : EReal :=
  ((∑ d, Zp p d * Zp p d) + (∑ d, Zs s d * Zs s d)) - (2 : EReal) * ∑ d, Zp p d * Zs s d

def nctMin (Zp : Fin 2048 → Fin 128 → EReal) (Zs : Fin 16384 → Fin 128 → EReal) (p : Fin 2048) : EReal :=
  Finset.univ.inf fun s => raw Zp Zs p s

/-- The mean over `p` of the row minima, divided by 128 at the end. -/
def nctK (Zp : Fin 2048 → Fin 128 → EReal) (Zs : Fin 16384 → Fin 128 → EReal) : EReal :=
  Ideal.div (Ideal.div (∑ p, nctMin Zp Zs p) ((2048 : ℝ) : EReal)) ((128 : ℝ) : EReal)

/-- The same with each distance divided by 128 before the minimum is taken. -/
def nctR (Zp : Fin 2048 → Fin 128 → EReal) (Zs : Fin 16384 → Fin 128 → EReal) : EReal :=
  Ideal.div (∑ p, Finset.univ.inf fun s => Ideal.div (raw Zp Zs p s) ((128 : ℝ) : EReal)) ((2048 : ℝ) : EReal)

/-- The residual `(x − u) − v` with `u = X n j · A j i`, `v = B j i`. -/
def resK (X : Fin 8192 → Fin 64 → EReal) (A B : Fin 64 → Fin 64 → EReal) (j : Fin 64) (n : Fin 8192) (i : Fin 64) : EReal :=
  (X n i - X n j * A j i) - B j i

/-- The residual `x − (u + v)`. -/
def resR (X : Fin 8192 → Fin 64 → EReal) (A B : Fin 64 → Fin 64 → EReal) (j : Fin 64) (n : Fin 8192) (i : Fin 64) : EReal :=
  X n i - (X n j * A j i + B j i)

/-- Each column less its mean over the samples. -/
def center (R : Fin 8192 → Fin 64 → EReal) (n : Fin 8192) (i : Fin 64) : EReal :=
  R n i - Ideal.div (∑ n', R n' i) ((8192 : ℝ) : EReal)

def gram (Rc : Fin 8192 → Fin 64 → EReal) (i k : Fin 64) : EReal := ∑ n, Rc n i * Rc n k

/-- `G i k² / (G i i · G k k)` for distinct `i`, `j`, `k`, else zero. -/
def sccTerm (G : Fin 64 → Fin 64 → EReal) (j i k : Fin 64) : EReal :=
  if i ≠ j ∧ k ≠ j ∧ i ≠ k then Ideal.div (G i k * G i k) (G i i * G k k) else 0

/-- The share of conditioning column `j` in the loss. -/
def contrib (Rj : Fin 8192 → Fin 64 → EReal) (wt c : Fin 64 → EReal) (j : Fin 64) : EReal :=
  ∑ i, ∑ k, (wt i * c k) * sccTerm (gram (center Rj)) j i k

def indepK (X : Fin 8192 → Fin 64 → EReal) (A B Wt C : Fin 64 → Fin 64 → EReal) : EReal :=
  ∑ j, contrib (resK X A B j) (Wt j) (C j) j

def indepR (X : Fin 8192 → Fin 64 → EReal) (A B Wt C : Fin 64 → Fin 64 → EReal) : EReal :=
  ∑ j, contrib (resR X A B j) (Wt j) (C j) j

/-- Slope and intercept are real, or column `j` is a constant `μ`, the slope is `0 / 0 = ⊥` and the intercept is a real less `⊥ · μ`. -/
def FitShape (X : Fin 8192 → Fin 64 → EReal) (A B : Fin 64 → Fin 64 → EReal) : Prop :=
  ∀ j, (∀ i, IsReal (A j i) ∧ IsReal (B j i)) ∨
    (∃ μ : ℝ, (∀ n, X n j = (μ : EReal)) ∧ (∀ i, A j i = ⊥) ∧ (∀ i, ∃ r : ℝ, B j i = (r : EReal) - ⊥ * (μ : EReal)))

end Cert.Spec

end
-- ==== Proof.SpecBridge.lean ====
import proofs.«120299_j54631984005498_1_alg».proof.Proof.Spec
import Mathlib.Data.EReal.Basic
import Mathlib.Data.EReal.Operations
import Mathlib.Data.EReal.Inv
import Mathlib.Data.Finset.Lattice.Fold

noncomputable section

open scoped BigOperators

namespace Cert.Spec

open Idealize.ShloMosaic

theorem div_real {c : ℝ} (hc : c ≠ 0) (x : EReal) :
    Ideal.div x (c : EReal) = x * ((c⁻¹ : ℝ) : EReal) := by
  rw [Ideal.div, if_neg (by exact_mod_cast hc), EReal.coe_inv]

/-- Multiplication by a positive real distributes over any finite sum of extended reals. -/
theorem sum_mul_pos {ι : Type*} {c : ℝ} (hc : 0 < c) (s : Finset ι) (f : ι → EReal) :
    (∑ i ∈ s, f i) * (c : EReal) = ∑ i ∈ s, f i * (c : EReal) := by
  classical
  induction s using Finset.induction_on with
  | empty => simp
  | insert a s ha ih =>
    rw [Finset.sum_insert ha, Finset.sum_insert ha, ← ih,
      EReal.right_distrib_of_nonneg_of_ne_top (EReal.coe_nonneg.2 hc.le) (EReal.coe_ne_top c)]

/-- Multiplication by a positive real is monotone and fixes ⊤, so it commutes with a finite infimum. -/
theorem inf_mul_pos {ι : Type*} {c : ℝ} (hc : 0 < c) (s : Finset ι) (f : ι → EReal) :
    (s.inf f) * (c : EReal) = s.inf fun i => f i * (c : EReal) :=
  Finset.apply_inf_eq_inf_comp_of_linearOrder (fun x : EReal => x * (c : EReal))
    (fun _ _ hxy => mul_le_mul_of_nonneg_right hxy (EReal.coe_nonneg.2 hc.le)) (EReal.top_mul_coe_of_pos hc)

/-- A centred column depends only on that column. -/
theorem center_congr {R R' : Fin 8192 → Fin 64 → EReal} {i : Fin 64} (h : ∀ n, R n i = R' n i)
    (n : Fin 8192) : center R n i = center R' n i := by
  unfold center
  rw [h n, Finset.sum_congr rfl fun n' _ => h n']

theorem center_const_bot {R : Fin 8192 → Fin 64 → EReal} {i : Fin 64} (h : ∀ n, R n i = ⊥)
    (n : Fin 8192) : center R n i = ⊥ := by
  unfold center
  rw [h n, EReal.bot_sub]

/-- The mean of 8192 copies of ⊤ is ⊤, and ⊤ − ⊤ = ⊥. -/
theorem center_const_top {R : Fin 8192 → Fin 64 → EReal} {i : Fin 64} (h : ∀ n, R n i = ⊤)
    (n : Fin 8192) : center R n i = ⊥ := by
  unfold center
  rw [h n, Finset.sum_congr rfl fun n' _ => h n', Finset.sum_const, Finset.card_univ, Fintype.card_fin,
    EReal.nsmul_eq_mul, EReal.mul_top_of_pos (by norm_num), div_real (by norm_num : (8192 : ℝ) ≠ 0),
    EReal.top_mul_coe_of_pos (by norm_num : (0 : ℝ) < (8192 : ℝ)⁻¹), EReal.sub_top]

/-- With `u` infinite, slope term `u` and intercept `r − u` are opposite infinities: one residual is ⊥, the other ⊤. -/
theorem res_inf {u : EReal} (hu : u = ⊤ ∨ u = ⊥) (x r : ℝ) :
    ((x : EReal) - u) - ((r : EReal) - u) = ⊥ ∧ (x : EReal) - (u + ((r : EReal) - u)) = ⊤ := by
  rcases hu with rfl | rfl <;> simp [sub_eq_add_neg]

/-- The centred residuals of the two forms agree: termwise when slope and intercept are real or the conditioning
    column is zero, and otherwise both centre to ⊥. -/
theorem center_res_eq (X : Fin 8192 → Fin 64 → EReal) (A B : Fin 64 → Fin 64 → EReal)
    (hX : ∀ n i, IsReal (X n i)) (hfit : FitShape X A B) (j : Fin 64) :
    center (resK X A B j) = center (resR X A B j) := by
  funext n i
  rcases hfit j with hreal | ⟨μ, hμ, hA, hB⟩
  · refine center_congr (fun n' => ?_) n
    obtain ⟨a, ha⟩ := hX n' i
    obtain ⟨b, hb⟩ := hX n' j
    obtain ⟨⟨s, hs⟩, t, ht⟩ := hreal i
    unfold resK resR
    rw [ha, hb, hs, ht, ← EReal.coe_mul, ← EReal.coe_sub, ← EReal.coe_sub, ← EReal.coe_add, ← EReal.coe_sub, sub_sub]
  · obtain ⟨r, hr⟩ := hB i
    have hres : ∀ n', ∃ x : ℝ, resK X A B j n' i = ((x : EReal) - (μ : EReal) * ⊥) - ((r : EReal) - (μ : EReal) * ⊥)
        ∧ resR X A B j n' i = (x : EReal) - ((μ : EReal) * ⊥ + ((r : EReal) - (μ : EReal) * ⊥)) := fun n' => by
      obtain ⟨x, hx⟩ := hX n' i
      exact ⟨x, by unfold resK; rw [hx, hμ n', hA i, hr, mul_comm (⊥ : EReal)], by unfold resR; rw [hx, hμ n', hA i, hr, mul_comm (⊥ : EReal)]⟩
    rcases eq_or_ne μ 0 with rfl | h0
    · refine center_congr (fun n' => ?_) n
      obtain ⟨x, hK, hR⟩ := hres n'
      rw [hK, hR, EReal.coe_zero, zero_mul, sub_zero, sub_zero, zero_add]
    · have hu : (μ : EReal) * ⊥ = ⊤ ∨ (μ : EReal) * ⊥ = ⊥ :=
        (lt_or_gt_of_ne h0).imp EReal.coe_mul_bot_of_neg EReal.coe_mul_bot_of_pos
      rw [center_const_bot fun n' => by obtain ⟨x, hK, _⟩ := hres n'; rw [hK]; exact (res_inf hu x r).1,
        center_const_top fun n' => by obtain ⟨x, _, hR⟩ := hres n'; rw [hR]; exact (res_inf hu x r).2]

/-- Dividing by 128 before or after the minimum and the mean gives the same number. -/
theorem nct_bridge (Zp : Fin 2048 → Fin 128 → EReal) (Zs : Fin 16384 → Fin 128 → EReal) :
    nctK Zp Zs = nctR Zp Zs := by
  have hb : (0 : ℝ) < (128 : ℝ)⁻¹ := by norm_num
  unfold nctK nctR nctMin
  simp only [div_real (by norm_num : (128 : ℝ) ≠ 0), div_real (by norm_num : (2048 : ℝ) ≠ 0)]
  rw [mul_right_comm, sum_mul_pos hb]
  exact congrArg (· * (((2048 : ℝ)⁻¹ : ℝ) : EReal)) (Finset.sum_congr rfl fun p _ => inf_mul_pos hb _ _)

theorem indep_bridge (X : Fin 8192 → Fin 64 → EReal) (A B Wt C : Fin 64 → Fin 64 → EReal)
    (hX : ∀ n i, IsReal (X n i)) (hfit : FitShape X A B) :
    indepK X A B Wt C = indepR X A B Wt C := by
  unfold indepK indepR contrib
  simp only [center_res_eq X A B hX hfit]

end Cert.Spec

end
-- ==== Proof.KRegion0.lean ====
import proofs.«120299_j54631984005498_1_alg».proof.Proof.Gen.KernelIdeal.Frame
import proofs.«120299_j54631984005498_1_alg».proof.Proof.Spec
import Idealize.ShloMosaic.Lib.Pipeline.Value
import Idealize.ShloMosaic.Lib.ValueIdx
import Idealize.ShloMosaic.Lib.IdealHost
import Idealize.ShloMosaic.PureOps.Ideal.Laws
import Idealize.ShloMosaic.Lib.Tactic

noncomputable section

open Idealize.ShloMosaic Idealize.ShloMosaic.TcCoe Idealize.SL.Sem
open Idealize.ShloMosaic.ValueIdx
open scoped BigOperators

namespace Cert.KernelIdeal.KRegion0

open Cert.KernelIdeal Cert.KernelIdeal.Gen

section Pieces
variable {F : FTy → Type} [FloatOps F] (c : Dev nD) (i : grid0.Coords)
  (a2 : Memref sig .tc .vmem S256x128 .f32) (h2 : a2.IsWhole) (a3 : Memref sig .tc .vmem S2048x128 .f32) (h3 : a3.IsWhole)
  (a4 : Memref sig .tc .vmem S256x1 .f32) (h4 : a4.IsWhole) (x0 : Vec F S256x128 .f32) (x1 : Vec F S2048x128 .f32)

theorem hz : (![0, 0] : Fin 2 → Nat) = fun _ => 0 := funext fun a => by fin_cases a <;> rfl

/-- At a point that does not reset, the output block becomes the payload over the two input blocks and what it held. -/
theorem out_B (hc : ¬cond0_0 i) (xo : Vec F S256x1 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz]
  simp only [View.readAt_eq_ld, h2.read_unread, h3.read_unread, h4.read_unread, View.ld_unit_zero (S := S256x128) hz,
    View.ld_unit_zero (S := S2048x128) hz, View.ld_unit_zero (S := S256x1) hz]

/-- At a resetting point it becomes the payload over the two input blocks and the reset block. -/
theorem out_A (hc : cond0_0 i) : out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S256x1) hz]
  simp only [View.readAt_eq_ld, h2.read_unread, h3.read_unread, View.ld_unit_zero (S := S256x128) hz,
    View.ld_unit_zero (S := S2048x128) hz, View.readCov_unit_zero (S := S256x1) _ hz]

end Pieces

section Payload

theorem two_f32 : Ideal.ofBits .f32 0x40000000#32 = (2 : EReal) := by
  rw [show (2 : EReal) = ((2 : ℝ) : EReal) from rfl]
  simp [Ideal.ofBits, Ideal.ieee, -EReal.coe_mul]; norm_num

theorem inf_f32 : Ideal.ofBits .f32 0x7F800000#32 = (⊤ : EReal) := by
  simp [Ideal.ofBits, Ideal.ieee]

/-- Rows against rows onto a zero accumulator: at `(r, s)` the inner product of row `r` and row `s` over the lanes. -/
theorem dot_apply {A B : Nat} (D : DotDims ⟨2, ![A, 128]⟩ ⟨2, ![B, 128]⟩ ⟨2, ![A, B]⟩) (hr : D.contr.rank = 1)
    (hs : D.contr.size ⟨0, by omega⟩ = 128)
    (hl : ∀ r s d, D.lhsIdx (ix2 r s) ((contrEquiv1 D 128 hr hs).symm d) = ix2 r d)
    (hr' : ∀ r s d, D.rhsIdx (ix2 r s) ((contrEquiv1 D 128 hr hs).symm d) = ix2 s d)
    (a : FVec Ideal ⟨2, ![A, 128]⟩ .bf16) (b : FVec Ideal ⟨2, ![B, 128]⟩ .bf16) (r : Fin A) (s : Fin B) :
    matmul D none a b (constant ⟨2, ![A, B]⟩ .f32 0x00000000#32) (ix2 r s) = ∑ d : Fin 128, a (ix2 r d) * b (ix2 s d) := by
  rw [matmul, Ideal.matmul_constant_zero_apply, ← Equiv.sum_comp (contrEquiv1 D 128 hr hs).symm]
  exact Finset.sum_congr rfl fun d _ => by rw [hl, hr']

/-- A vector of 256 entries stored as a column: row `r` of the column is entry `r`. -/
theorem col_apply {α : Type} (v : S256.Idx → α) (r : Fin 256) :
    shapeCast S256x1 v shapeCasts_S256_S256x1 (ix2 r (0 : Fin 1)) = v (ix1 r) :=
  shapeCast_apply _ _ _ _ (by rw [Shape.rowMajor_val_one, Shape.rowMajor_val_two]; show r.val = r.val * 1 + 0; omega)

theorem lane_sum (x : FVec Ideal S256x128 .f32) (r : Fin 256) (hφ : FKind.Formats .f32)
    (hacc : (0x00000000#32 : BitVec 32) = FKind.add.neutral .f32 hφ) :
    shapeCast S256x1 (multiReduction .add [1] S256 x 0x00000000#32 reduces_S256x128_S256 hφ hacc) shapeCasts_S256_S256x1 (ix2 r (0 : Fin 1))
      = ∑ d : Fin 128, x (ix2 r d) := by
  rw [col_apply, Ideal.multiReduction_add_single]
  exact Finset.sum_congr rfl fun d _ => congrArg x (eq_ix2 _)

/-- Below a lane minimum from `+∞` is below every lane. -/
theorem le_lane_min (v : FVec Ideal S256x2048 .f32) (r : Fin 256) (z : EReal) (hφ : FKind.Formats .f32)
    (hacc : (0x7F800000#32 : BitVec 32) = FKind.minimumf.neutral .f32 hφ) :
    z ≤ shapeCast S256x1 (multiReduction .minimumf [1] S256 v 0x7F800000#32 reduces_S256x2048_S256 hφ hacc) shapeCasts_S256_S256x1 (ix2 r (0 : Fin 1))
      ↔ ∀ s : Fin 2048, z ≤ v (ix2 r s) := by
  rw [col_apply, multiReduction_minimumf_eq_fold, Shape.Reduces.fold_filter_drop_single]
  have e (s : Fin 2048) : v (reduces_S256x2048_S256.lift (ix1 r) s) = v (ix2 r s) := congrArg v (eq_ix2 _)
  exact (Finset.le_fold_min _).trans ⟨fun h s => (h.2 s (Finset.mem_univ s)).trans_eq (e s),
    fun h => ⟨le_top.trans_eq inf_f32.symm, fun s _ => (h s).trans_eq (e s).symm⟩⟩

/-- The squared distance between row `r` of a block of query rows and row `s` of a block of key rows. -/
def tile (x0 : FVec Ideal S256x128 .f32) (x1 : FVec Ideal S2048x128 .f32) (r : Fin 256) (s : Fin 2048) : EReal :=
  ((∑ d : Fin 128, x0 (ix2 r d) * x0 (ix2 r d)) + (∑ d : Fin 128, x1 (ix2 s d) * x1 (ix2 s d)))
    - (2 : EReal) * ∑ d : Fin 128, x0 (ix2 r d) * x1 (ix2 s d)

/-- Below the payload at row `r` is below what the block held at `r` and below the squared distance to every key row of the block. -/
theorem le_pay2_iff (x0 : Vec Ideal S256x128 .f32) (x1 : Vec Ideal S2048x128 .f32) (xo : Vec Ideal S256x1 .f32)
    (r : Fin 256) (z : EReal) :
    z ≤ k0_pay2 (F := Ideal) x0 x1 xo (ix2 r (0 : Fin 1)) ↔ z ≤ xo (ix2 r (0 : Fin 1)) ∧ ∀ s : Fin 2048, z ≤ tile x0 x1 r s := by
  have d1 := dot_apply dot_S256x128_S2048x128_S256x2048_1_1_0_0_n_n rfl rfl (fun _ _ _ => eq_ix2 _) (fun _ _ _ => eq_ix2 _)
  have d2 := dot_apply dot_S1x128_S2048x128_S1x2048_1_1_0_0_n_n rfl rfl (fun _ _ _ => eq_ix2 _) (fun _ _ _ => eq_ix2 _)
  unfold k0_pay2
  simp only [shapeCast_self]
  refine le_min_iff.trans (and_congr Iff.rfl ((le_lane_min _ r z _ _).trans (forall_congr' fun s => ?_)))
  simp only [subf_apply, addf_apply, mulf_apply, broadcast_apply, truncf_apply, lane_sum,
    broadcastTo_apply _ broadcasts_S256x1_S256x2048 (ix2 r s) (ix2 r (0 : Fin 1)) (fun a => match a with | ⟨0, _⟩ => rfl | ⟨1, _⟩ => rfl),
    broadcastTo_apply _ broadcasts_S1x2048_S256x2048 (ix2 r s) (ix2 (0 : Fin 1) s) (fun a => match a with | ⟨0, _⟩ => rfl | ⟨1, _⟩ => rfl), d1, d2,
    Ideal.ofBits_def, two_f32, Ideal.ofBits_one_bf16, one_mul]
  exact Eq.to_iff (congrArg (fun w : EReal => z ≤ w + _ - _) (lane_sum (mulf x0 x0) r _ _))

end Payload

section Region

variable (V : (c : Dev nD) → (b : Ref sig .tc) → Buf (Elt Ideal) ((c : Thread nD τ).loc b)) (c : Dev nD)

/-- The block indices at point `t`: `t / 8` for the query and output rows, `t % 8` for the key rows. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

abbrev qblk (t : Fin cfg0.N) : Vec Ideal S256x128 .f32 := iblk0 V c 0 t
abbrev kblk (t : Fin cfg0.N) : Vec Ideal S2048x128 .f32 := iblk0 V c 1 t
abbrev Zp : Fin 2048 → Fin 128 → EReal := fun p d => V c main_v86 (ix2 p d)
abbrev Zs : Fin 16384 → Fin 128 → EReal := fun s d => V c main_v93 (ix2 s d)

/-- Row `r` of the query block and row `s` of the key block at point `t` are rows `256·(t / 8) + r` and `2048·(t % 8) + s` of the arrays. -/
theorem tile_eq (t : Fin cfg0.N) (r : Fin 256) (s : Fin 2048) (p : Fin 2048)
    (hp : p.val = 256 * (t.val / 8) + r.val) (k : Fin 16384) (hk : k.val = 2048 * (t.val % 8) + s.val) :
    tile (qblk V c t) (kblk V c t) r s = Cert.Spec.raw (Zp V c) (Zs V c) p k := by
  obtain ⟨e0, e1, e2, e3, -⟩ := idx_facts t
  have hq (d : Fin 128) : iblk0 V c 0 t (ix2 r d) = V c main_v86 (ix2 p d) := by
    unfold iblk0; rw [View.read_apply]
    exact congrArg (V c main_v86) (Shape.idx_ext₂
      (by show win0_0.index t 0 * 256 + 1 * r.val = p.val; rw [e0, hp]; omega)
      (by show win0_0.index t 1 * 128 + 1 * d.val = d.val; rw [e1]; omega))
  have hs (d : Fin 128) : iblk0 V c 1 t (ix2 s d) = V c main_v93 (ix2 k d) := by
    unfold iblk0; rw [View.read_apply]
    exact congrArg (V c main_v93) (Shape.idx_ext₂
      (by show win0_1.index t 0 * 2048 + 1 * s.val = k.val; rw [e2, hk]; omega)
      (by show win0_1.index t 1 * 128 + 1 * d.val = d.val; rw [e3]; omega))
  unfold tile Cert.Spec.raw
  simp only [hq, hs]

/-- The key rows below `2048·(m + 1)` are those below `2048·m` and the `2048` of block `m`. -/
theorem forall_tile_succ (m : ℕ) (f : Fin 16384 → Prop) :
    (∀ k : Fin 16384, k.val < 2048 * (m + 1) → f k) ↔
      (∀ k : Fin 16384, k.val < 2048 * m → f k) ∧ ∀ (s : Fin 2048) (k : Fin 16384), k.val = 2048 * m + s.val → f k :=
  ⟨fun H => ⟨fun k hk => H k (by omega), fun s k hk => H k (by have := s.isLt; omega)⟩,
    fun ⟨H1, H2⟩ k hk => (lt_or_ge k.val (2048 * m)).elim (H1 k) fun hk' =>
      H2 ⟨k.val - 2048 * m, by omega⟩ k (by show k.val = 2048 * m + (k.val - 2048 * m); omega)⟩

/-- After point `n = 8·p' + s` row `r` of the output block is the least squared distance from query row `256·p' + r` to the key rows of blocks `0 … s`. -/
theorem outsAt_inv (n : ℕ) (h : n < cfg0.N) (r : Fin 256) (p : Fin 2048) (hp : p.val = 256 * (n / 8) + r.val) (z : EReal) :
    z ≤ outsAt0 V c n h (ix2 r (0 : Fin 1)) ↔
      ∀ k : Fin 16384, k.val < 2048 * (n % 8 + 1) → z ≤ Cert.Spec.raw (Zp V c) (Zs V c) p k := by
  have hT : (∀ s : Fin 2048, z ≤ tile (qblk V c ⟨n, h⟩) (kblk V c ⟨n, h⟩) r s) ↔
      ∀ (s : Fin 2048) (k : Fin 16384), k.val = 2048 * (n % 8) + s.val → z ≤ Cert.Spec.raw (Zp V c) (Zs V c) p k :=
    ⟨fun H s k hk => (H s).trans_eq (tile_eq V c ⟨n, h⟩ r s p hp k hk), fun H s =>
      (H s ⟨2048 * (n % 8) + s.val, by have := s.isLt; omega⟩ rfl).trans_eq (tile_eq V c ⟨n, h⟩ r s p hp _ rfl).symm⟩
  rw [forall_tile_succ (n % 8), ← hT]
  by_cases h0 : n % 8 = 0
  · rw [(outsAt0_A V c ⟨n, h⟩ h0).trans (out_A ..), le_pay2_iff, h0]
    exact and_congr_left' ⟨fun _ k hk => absurd hk (by omega), fun _ => le_top.trans_eq inf_f32.symm⟩
  · rw [(outsAt0_B V c ⟨n, h⟩ h0).trans (out_B ..), le_pay2_iff, outsAt_inv (n - 1) (by omega) r p (by omega) z,
      show (n - 1) % 8 + 1 = n % 8 by omega]
termination_by n
decreasing_by omega

/-- At a point that writes back (`t % 8 = 7`) that is the least over all key rows. -/
theorem final_row (t : Fin cfg0.N) (h7 : t.val % 8 = 7) (r : Fin 256) (p : Fin 2048)
    (hp : p.val = 256 * (t.val / 8) + r.val) :
    outsAt0 V c t.val t.isLt (ix2 r (0 : Fin 1)) = Cert.Spec.nctMin (Zp V c) (Zs V c) p :=
  eq_of_forall_le_iff fun z => by
    rw [outsAt_inv V c t.val t.isLt r p hp z, h7, Cert.Spec.nctMin, Finset.le_inf_iff]
    exact ⟨fun H k _ => H k (by have := k.isLt; omega), fun H k _ => H k (Finset.mem_univ k)⟩

/-- Every row of the result array is in the block of a point that writes back: row `p` in that of `8·(p / 256) + 7`. -/
theorem cover (i : S2048x1.Idx) :
    ∃ t : Fin cfg0.N, (cfg0.win 2).flush t = true ∧ i ∈ ((cfg0.win 2).blk t).view.set := by
  have h0 : (i 0).val < 2048 := idx2_lt0 i
  have h1 : (i 1).val < 1 := idx2_lt1 i
  have hN : cfg0.N = 64 := N_0
  obtain ⟨t, ht⟩ : ∃ t : Fin cfg0.N, t.val = 8 * ((i 0).val / 256) + 7 := ⟨⟨8 * ((i 0).val / 256) + 7, by omega⟩, rfl⟩
  obtain ⟨-, -, -, -, e4, e5⟩ := idx_facts t
  refine ⟨t, (flush0_2 t).mpr (by omega), ?_⟩
  show i ∈ ((View.whole main_v94).slice (win0_2.rect t)).set
  rw [View.set_slice_whole, Rect.mem_set_unit]
  intro a
  match a with
  | ⟨0, _⟩ =>
    show win0_2.index t 0 * 256 ≤ (i 0).val ∧ (i 0).val < win0_2.index t 0 * 256 + 256
    rw [e4]; omega
  | ⟨1, _⟩ =>
    show win0_2.index t 1 * 1 ≤ (i 1).val ∧ (i 1).val < win0_2.index t 1 * 1 + 1
    rw [e5]; omega

/-- After the region row `p` of the result array holds the least squared distance from query row `p` to any key row. -/
theorem nct_arr (p : Fin 2048) :
    (Gen.dat0 (F := Ideal) V c).arrAt 2 cfg0.N (ix2 p (0 : Fin 1))
      = Cert.Spec.nctMin (fun p d => V c main_v86 (ix2 p d)) (fun s d => V c main_v93 (ix2 s d)) p := by
  refine (dat0 V c).arrAt_forall_of_cover 2
    (fun (i : S2048x1.Idx) (v : EReal) => ∀ p : Fin 2048, p.val = (i 0).val → v = Cert.Spec.nctMin (Zp V c) (Zs V c) p)
    (fun t hf (y : S256x1.Idx) p hp => ?_) cover (ix2 p (0 : Fin 1)) p rfl
  obtain ⟨r, o, rfl⟩ : ∃ (r : Fin 256) (o : Fin 1), y = ix2 r o := ⟨y 0, y 1, eq_ix2 y⟩
  obtain rfl : o = 0 := Subsingleton.elim _ _
  obtain ⟨-, -, -, -, e4, -⟩ := idx_facts t
  refine (cast_eq _ _).trans ?_
  show (cfg0.win 2).cut (grid0.coords t) ((dat0 V c).after 2 t) (ix2 r (0 : Fin 1)) = _
  rw [after0_2]
  refine (congrArg (outsAt0 V c t.val t.isLt) (eq_ix2 _)).trans (final_row V c t ((flush0_2 t).mp hf) r p (hp.trans ?_))
  show win0_2.index t 0 * 256 + 1 * r.val = 256 * (t.val / 8) + r.val
  rw [e4]; omega

end Region

end Cert.KernelIdeal.KRegion0

end
-- ==== Proof.KTail.lean ====
import proofs.«120299_j54631984005498_1_alg».proof.Proof.Gen.KernelIdeal.Frame
import proofs.«120299_j54631984005498_1_alg».proof.Proof.Spec
import proofs.«120299_j54631984005498_1_alg».proof.Proof.KRegion0
import Idealize.ShloMosaic.Lib.Pipeline.Value
import Idealize.ShloMosaic.Lib.ValueIdx
import Idealize.ShloMosaic.PureOps.Ideal.Laws
import Idealize.ShloMosaic.Lib.StableHlo.Run

noncomputable section

open scoped BigOperators

namespace Cert.KernelIdeal.KTail

open Idealize.ShloMosaic Idealize.ShloMosaic.TcCoe Idealize.ShloMosaic.Tactic
open Idealize.ShloMosaic.ValueIdx
open Cert.KernelIdeal Cert.Spec

variable (m : (ℓ : Loc nD τ sig) → Buf (Elt Ideal) ℓ) (ρ : Dev nD → PrngReg) (c : Dev nD)

/-- A buffer that no operation and neither region between two moments writes is the same at both. -/
macro "keeps" : tactic => `(tactic| repeat (first
  | with_reducible rfl
  | (rw [Gen.W20_of_ne]; rotate_left; decide)
  | (rw [Gen.W10_of_ne]; rotate_left; decide)
  | refine Eq.trans (StableHlo.after_of_forall_not_mem _ _ (List.forall_iff_forall_mem.mp (by
      simp only [Gen.hostOps1, Gen.hostOps1_1, Gen.hostOps1_2, Gen.hostOps1_3, Gen.hostOps1_4, Gen.hostOps1_5, Gen.hostOps1_6,
        Gen.hostOps1_7, Gen.hostOps1_8, Gen.hostOps2, List.Forall, StableHlo.nullary_writes, StableHlo.unary_writes,
        StableHlo.binary_writes, StableHlo.ternary_writes, StableHlo.quaternary_writes, StableHlo.reshape_writes,
        StableHlo.binaryIndexed_writes, StableHlo.nary_writes, StableHlo.unaryIndexed_writes, Finset.mem_singleton]
      repeat' apply And.intro
      all_goals exact StableHlo.devRef_ne_of_ne (by decide)))) ?_))

theorem v20_back : Gen.W20 m ρ c (Proc.devRef .tc main_v20) = Gen.W9 m ρ c _ := by keeps
theorem v55_back : Gen.W20 m ρ c (Proc.devRef .tc main_v55) = Gen.W9 m ρ c _ := by keeps
theorem v97_back : Gen.W21 m ρ c (Proc.devRef .tc main_v97) = Gen.W11 m ρ c _ := by keeps

/-- The last stretch adds five scalars, each read where it was last written. -/
theorem result_split : sc (Gen.W21 m ρ c (Proc.devRef .tc main_v215)) =
    (sc (Gen.W9 m ρ c (Proc.devRef .tc main_v20)) + (sc (Gen.W9 m ρ c (Proc.devRef .tc main_v55)) + sc (Gen.W21 m ρ c (Proc.devRef .tc main_v97))))
    + (at2 (Gen.W20 m ρ c (Proc.devRef .tc main_v210)) 0 0 + sc (Gen.W19 m ρ c (Proc.devRef .tc main_v187))) := by
  rw [← v20_back, ← v55_back, show Gen.W21 m ρ c (Proc.devRef .tc main_v97) = Gen.W20 m ρ c _ by keeps,
    ← show Gen.W20 m ρ c (Proc.devRef .tc main_v187) = Gen.W19 m ρ c _ by keeps]
  dsimp only [Gen.W21, Gen.hostOps2]
  after_results
  simp only [addf_apply]
  exact congrArg₂ (· + ·) rfl (congrArg₂ (· + ·) (shapeCast_apply _ _ ix0 (ix2 (0 : Fin 1) (0 : Fin 1)) (by decide)) rfl)

theorem lit2048 : Ideal.ofBits .f32 0x45000000#32 = ((2048 : ℝ) : EReal) := by
  simp [Ideal.ofBits, Ideal.ieee, -EReal.coe_mul]; norm_num

theorem lit128 : Ideal.ofBits .f32 0x43000000#32 = ((128 : ℝ) : EReal) := by
  simp [Ideal.ofBits, Ideal.ieee, -EReal.coe_mul]; norm_num

/-- The first stretch after the first region: the total of that region's output column over 2048, then over 128. -/
theorem v97_at : sc (Gen.W11 m ρ c (Proc.devRef .tc main_v97)) =
    Ideal.div (Ideal.div (∑ p : Fin 2048, at2 (Gen.W10 m ρ c (Proc.devRef .tc main_v94)) p 0) ((2048 : ℝ) : EReal)) ((128 : ℝ) : EReal) := by
  dsimp only [Gen.W11, Gen.hostOps1]
  after_results
  simp only [sc, hostDivf_apply, hostReduceAdd_apply, constant_apply]
  rw [Ideal.hostReduceAdd_total _ (fun b => b.elim0), Ideal.ofBits_zero_f32, zero_add, lit2048, lit128, sum_idx2]
  exact congrArg (fun x => Ideal.div (Ideal.div x _) _) (Finset.sum_congr rfl fun p _ => Fin.sum_univ_one _)

/-- Row `p` of that column is the least squared distance from query row `p` to any key row, and nothing later writes the loss. -/
theorem nct_value : sc (Gen.W21 m ρ c (Proc.devRef .tc main_v97)) =
    nctK (fun p d => Gen.W9 m ρ c (Proc.devRef .tc main_v86) (ix2 p d)) (fun s d => Gen.W9 m ρ c (Proc.devRef .tc main_v93) (ix2 s d)) := by
  rw [v97_back, v97_at, nctK]
  exact congrArg (fun x => Ideal.div (Ideal.div x _) _) (Finset.sum_congr rfl fun p _ =>
    (congrFun (Gen.W10_arr m ρ c 2) (ix2 p (0 : Fin 1))).trans (KRegion0.nct_arr (Gen.V9 m ρ) c p))

end Cert.KernelIdeal.KTail
end
-- ==== Proof.KIndepBody.lean ====
import proofs.«120299_j54631984005498_1_alg».proof.Proof.Gen.KernelIdeal.Frame
import proofs.«120299_j54631984005498_1_alg».proof.Proof.Spec
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.KIndep

open Idealize.ShloMosaic Idealize.ShloMosaic.TcCoe Idealize.ShloMosaic.Tactic Idealize.ShloMosaic.ValueIdx
open Idealize.SL Idealize.SL.Sem

/-- A rank-2 index with the coordinates of `ix2 x y` is `ix2 x y`. -/
theorem ix2_ext {a b : ℕ} {f : (⟨2, ![a, b]⟩ : Shape).Idx} {x : Fin a} {y : Fin b} (h0 : (f 0).val = x.val) (h1 : (f 1).val = y.val) :
    f = ix2 x y :=
  funext fun d => Fin.ext (match d with | ⟨0, _⟩ => h0 | ⟨1, _⟩ => h1)

/-- Numbers below 64 are equal exactly when their 32-bit words are: 64 ≤ 2³². -/
theorem word_inj {a b : Fin 64} : BitVec.ofNat 32 a.val = BitVec.ofNat 32 b.val ↔ a = b :=
  ⟨fun h => by
    have e := congrArg BitVec.toNat h
    simp only [BitVec.toNat_ofNat] at e
    have := a.isLt; have := b.isLt
    exact Fin.ext (by omega), fun h => h ▸ rfl⟩

/-- The word 0x46000000 has sign 0, exponent 140 and fraction 0: it denotes 2²³ · 2^(140 − 150) = 8192. -/
theorem ofBits_8192 : (FloatOps.ofBits (F := Ideal) .f32 0x46000000#32 : EReal) = ((8192 : ℝ) : EReal) := by
  show Ideal.ofBits .f32 0x46000000#32 = _
  simp [Ideal.ofBits, Ideal.ieee, -EReal.coe_mul]; norm_num

section Layout
variable {α : Type}

theorem cast_col (v : S64.Idx → α) (i : Fin 64) (u : Fin 1) : shapeCast S64x1 v Gen.shapeCasts_S64_S64x1 (ix2 i u) = v (ix1 i) :=
  shapeCast_apply v _ (ix2 i u) (ix1 i) (by
    rw [Shape.rowMajor_val_one, Shape.rowMajor_val_two]; show i.val = i.val * 1 + u.val; omega)

theorem cast_flat (v : S1x1x64.Idx → α) (i : Fin 64) : shapeCast S64 v Gen.shapeCasts_S1x1x64_S64 (ix1 i) = v (ix3 0 0 i) :=
  shapeCast_apply v _ (ix1 i) (ix3 0 0 i) (by
    rw [Shape.rowMajor_val_one, Shape.rowMajor_val_three]; show (0 * 1 + 0) * 64 + i.val = i.val; omega)

/-- One column repeated along the rows reads, at `(p, q)`, the column's entry `p`. -/
theorem bc_col {a b : ℕ} (v : (⟨2, ![a, 1]⟩ : Shape).Idx → α) (h : (⟨2, ![a, 1]⟩ : Shape).Broadcasts ⟨2, ![a, b]⟩) (p : Fin a) (q : Fin b) :
    broadcastTo ⟨2, ![a, b]⟩ v h (ix2 p q) = v (ix2 p 0) :=
  broadcastTo_apply v h (ix2 p q) (ix2 p 0) fun ax => match ax with
    | ⟨0, _⟩ => by show p.val = if a = 1 then 0 else p.val; have := p.isLt; split <;> omega
    | ⟨1, _⟩ => rfl

end Layout

/-- The sum of `v` along axis `a`, at a result index. -/
def axisSum {s t : Shape} {a : Fin s.rank} (h : s.Reduces [a] t) (v : FVec Ideal s .f32) (j : t.Idx) : EReal := ∑ k, v (h.lift j k)

theorem sum_axis {s t : Shape} {a : Fin s.rank} (v : FVec Ideal s .f32) (h : s.Reduces [a] t) :
    multiReduction .add [a] t v 0x00000000#32 h (.inl rfl) rfl = axisSum h v :=
  funext (Ideal.multiReduction_add_single v _ h _ _)

theorem rowsum (v : FVec Ideal S64x64 .f32) (i : Fin 64) : axisSum Gen.reduces_S64x64_S64 v (ix1 i) = ∑ k : Fin 64, v (ix2 i k) :=
  Finset.sum_congr rfl fun k _ => congrArg v (ix2_ext rfl rfl)

theorem colsum (v : FVec Ideal S64x64 .f32) (k : Fin 64) : axisSum Gen.reduces_S64x64_S64_2 v (ix1 k) = ∑ i : Fin 64, v (ix2 i k) :=
  Finset.sum_congr rfl fun i _ => congrArg v (ix2_ext rfl rfl)

theorem cellsum (v : FVec Ideal S64x1 .f32) (u : Fin 1) : axisSum Gen.reduces_S64x1_S1 v (ix1 u) = ∑ i : Fin 64, v (ix2 i u) :=
  Finset.sum_congr rfl fun i _ => congrArg v (ix2_ext rfl rfl)

theorem bigsum (v : FVec Ideal S8192x64 .f32) (i : Fin 64) : axisSum Gen.reduces_S8192x64_S64 v (ix1 i) = ∑ n : Fin 8192, v (ix2 n i) :=
  Finset.sum_congr rfl fun n _ => congrArg v (ix2_ext rfl rfl)

/-- A product contracting one axis of extent `n` over a zero accumulator is, at an output index, the sum over that axis. -/
theorem mm_at {sl sr so : Shape} {φ₁ φ₂ : FTy} (D : DotDims sl sr so) (n : ℕ) (hr : D.contr.rank = 1) (hs : D.contr.size ⟨0, by omega⟩ = n)
    (l : FVec Ideal sl φ₁) (r : FVec Ideal sr φ₂) (j : so.Idx) (fl : Fin n → sl.Idx) (fr : Fin n → sr.Idx)
    (hl : ∀ (q : Fin n) (p : D.contr.Idx), (p ⟨0, by omega⟩).val = q.val → D.lhsIdx j p = fl q)
    (hr' : ∀ (q : Fin n) (p : D.contr.Idx), (p ⟨0, by omega⟩).val = q.val → D.rhsIdx j p = fr q) :
    matmul D none l r (constant so .f32 0x00000000#32) j = ∑ q, l (fl q) * r (fr q) :=
  (Ideal.matmul_constant_zero_apply D none l r j).trans
    ((Equiv.sum_comp (contrEquiv1 D n hr hs).symm _).symm.trans (Finset.sum_congr rfl fun q _ => by
      rw [hl q _ (contrEquiv1_symm_val D n hr hs q), hr' q _ (contrEquiv1_symm_val D n hr hs q)]))

/-- The Gram product contracts the sample axis of both operands. -/
theorem gram_apply (l r : FVec Ideal S8192x64 .bf16) (i k : Fin 64) :
    matmul dot_S8192x64_S8192x64_S64x64_0_0_1_1_n_n none l r (constant S64x64 .f32 0x00000000#32) (ix2 i k)
      = ∑ n : Fin 8192, l (ix2 n i) * r (ix2 n k) :=
  mm_at _ 8192 rfl rfl l r _ _ _ (fun n p hp => ix2_ext hp rfl) (fun n p hp => ix2_ext hp rfl)

/-- The column product contracts the feature axis of the left operand with the long axis of the right one. -/
theorem colmm_apply (l : FVec Ideal S8192x64 .bf16) (r : FVec Ideal S64x1 .bf16) (n : Fin 8192) (u : Fin 1) :
    matmul dot_S8192x64_S64x1_S8192x1_1_0_0_1_n_n none l r (constant S8192x1 .f32 0x00000000#32) (ix2 n u)
      = ∑ k : Fin 64, l (ix2 n k) * r (ix2 k u) :=
  mm_at _ 64 rfl rfl l r _ _ _ (fun k p hp => ix2_ext rfl hp) (fun k p hp => ix2_ext hp rfl)

/-- Against a one-hot row only one term of a sum survives: `x · 0 = 0` and `x · 1 = x` for every extended real. -/
theorem sum_mul_onehot (f : Fin 64 → EReal) (j : Fin 64) : ∑ k, f k * (if j = k then 1 else 0 : EReal) = f j := by
  simp only [mul_ite, mul_one, mul_zero, Finset.sum_ite_eq, Finset.mem_univ, if_true]

theorem sum_mul_onehot' (f : Fin 64 → EReal) (k : Fin 64) : ∑ i, f i * (if i = k then 1 else 0 : EReal) = f k := by
  simp only [mul_ite, mul_one, mul_zero, Finset.sum_ite_eq', Finset.mem_univ, if_true]

/-- The mask: row, column and conditioning column pairwise distinct. -/
abbrev maskV (a0 : BitVec 32) : IVec S64x64 1 :=
  andi (andi (cmpi .ne (iota .tc S64x64 32 [0] Gen.iota_S64x64_d0_w32) (broadcast S64x64 a0))
             (cmpi .ne (iota .tc S64x64 32 [1] Gen.iota_S64x64_d1_w32) (broadcast S64x64 a0)))
       (cmpi .ne (iota .tc S64x64 32 [0] Gen.iota_S64x64_d0_w32) (iota .tc S64x64 32 [1] Gen.iota_S64x64_d1_w32))

/-- On the point of column `j` a select under the mask at `(i, k)` takes its first branch exactly when `i`, `k`, `j` are pairwise distinct. -/
theorem select_mask {α : Type} (j i k : Fin 64) (a b : α) :
    Scalar.select (maskV (BitVec.ofNat 32 j.val) (ix2 i k)) a b = if i ≠ j ∧ k ≠ j ∧ i ≠ k then a else b :=
  if_congr (by
    show IntOp.andi (IntOp.andi (IntOp.cmpi .ne (iota .tc S64x64 32 [0] _ (ix2 i k)) _) (IntOp.cmpi .ne (iota .tc S64x64 32 [1] _ (ix2 i k)) _))
      (IntOp.cmpi .ne (iota .tc S64x64 32 [0] _ (ix2 i k)) (iota .tc S64x64 32 [1] _ (ix2 i k))) = 1#1 ↔ _
    rw [iota_single_apply, iota_single_apply]
    show IntOp.andi (IntOp.andi (IntOp.cmpi .ne (BitVec.ofNat 32 i.val) (BitVec.ofNat 32 j.val)) (IntOp.cmpi .ne (BitVec.ofNat 32 k.val) (BitVec.ofNat 32 j.val)))
      (IntOp.cmpi .ne (BitVec.ofNat 32 i.val) (BitVec.ofNat 32 k.val)) = 1#1 ↔ _
    simp only [IntOp.andi_eq_one, IntOp.cmpi_ne, ne_eq, word_inj, and_assoc]) rfl rfl

theorem ofBits_0 : (FloatOps.ofBits (F := Ideal) .f32 0x00000000#32 : EReal) = 0 := Ideal.ofBits_zero_f32

theorem pay2_apply : Gen.k1_pay2 (F := Ideal) (ix2 0 0) = 0 := ofBits_0

/-- What the point of coordinate word `a0` adds to the output cell: the body's arithmetic on the seven input blocks over a zero running value. -/
def pay1 (a0 : BitVec 32) (x0 : Vec Ideal S8192x64 .f32) (x1 x2 x3 x4 x5 : Vec Ideal S1x1x64 .f32) (x6 : Vec Ideal S64x64 .f32) : EReal :=
  Gen.k1_pay1 (F := Ideal) a0 (Gen.k1_pay3 x3) (Gen.k1_pay4 x4) (Gen.k1_pay5 x6) (Gen.k1_pay6 x0 x1 x2 x5) (Gen.k1_pay7 x0 x1 x2 x5)
    (Gen.k1_pay8 (F := Ideal)) (Gen.k1_pay2 (F := Ideal)) (ix2 0 0)

/-- The running value enters the stored payload only as a summand, and `0 + s = s`. -/
theorem k1_pay1_split (a0 v13 v16 v21 v30 v32 v33) (v71 : Vec Ideal S1x1 .f32) :
    Gen.k1_pay1 (F := Ideal) a0 v13 v16 v21 v30 v32 v33 v71 (ix2 0 0)
      = v71 (ix2 0 0) + Gen.k1_pay1 (F := Ideal) a0 v13 v16 v21 v30 v32 v33 (Gen.k1_pay2 (F := Ideal)) (ix2 0 0) := by
  unfold Gen.k1_pay1
  simp only [addf_apply, shapeCast_self, pay2_apply, zero_add]

section Out
variable {c : Dev nD} {i : grid1.Coords} {arg1 : Memref sig .tc .vmem S8192x64 .f32} {harg1 : arg1.IsWhole}
  {arg2 arg3 arg4 arg5 arg6 : Memref sig .tc .vmem S1x1x64 .f32} {harg2 : arg2.IsWhole} {harg3 : arg3.IsWhole} {harg4 : arg4.IsWhole}
  {harg5 : arg5.IsWhole} {harg6 : arg6.IsWhole} {arg7 : Memref sig .tc .vmem S64x64 .f32} {harg7 : arg7.IsWhole}
  {arg8 : Memref sig .tc .vmem S1x1 .f32} {harg8 : arg8.IsWhole}
  {x0 : Vec Ideal S8192x64 .f32} {x1 x2 x3 x4 x5 : Vec Ideal S1x1x64 .f32} {x6 : Vec Ideal S64x64 .f32}

theorem hz2 : (![0, 0] : Fin 2 → ℕ) = fun _ => 0 := funext fun a => by fin_cases a <;> rfl
theorem hz3 : (![0, 0, 0] : Fin 3 → ℕ) = fun _ => 0 := funext fun a => by fin_cases a <;> rfl

/-- At the first point the cell is the payload over the zero cell. -/
theorem out_A {hc0 : Gen.cond1_0 i} :
    Gen.out1_A_7 c i arg1 harg1 arg2 harg2 arg3 harg3 arg4 harg4 arg5 harg5 arg6 harg6 arg7 harg7 arg8 harg8 hc0 x0 x1 x2 x3 x4 x5 x6
      = Gen.k1_pay1 (BitVec.ofNat 32 (i 0).val) (Gen.k1_pay3 x3) (Gen.k1_pay4 x4) (Gen.k1_pay5 x6) (Gen.k1_pay6 x0 x1 x2 x5) (Gen.k1_pay7 x0 x1 x2 x5) (Gen.k1_pay8 (F := Ideal)) (Gen.k1_pay2 (F := Ideal)) := by
  unfold Gen.out1_A_7
  rw [View.read_writes_eq_canon _ _ _ (Gen.cover1_A_7 c i arg1 harg1 arg2 harg2 arg3 harg3 arg4 harg4 arg5 harg5 arg6 harg6 arg7 harg7 arg8 harg8 hc0 x0 x1 x2 x3 x4 x5 x6)]
  unfold Gen.kernelRun1_A
  dsimp only
  sl_unfold_words
  rw [View.canon_cons_unit_zero (S := S1x1) hz2, View.readCov_unit_zero (S := S1x1) _ hz2]
  simp only [View.readAt_eq_ld, harg1.read_unread, harg2.read_unread, harg3.read_unread, harg4.read_unread, harg5.read_unread, harg6.read_unread, harg7.read_unread,
    View.ld_unit_zero (S := S8192x64) hz2, View.ld_unit_zero (S := S1x1x64) hz3, View.ld_unit_zero (S := S64x64) hz2]

/-- At every other point the cell is the payload over what the point before left. -/
theorem out_B {hc0 : ¬Gen.cond1_0 i} {xo7 : Vec Ideal S1x1 .f32} :
    Gen.out1_B_7 c i arg1 harg1 arg2 harg2 arg3 harg3 arg4 harg4 arg5 harg5 arg6 harg6 arg7 harg7 arg8 harg8 hc0 x0 x1 x2 x3 x4 x5 x6 xo7
      = Gen.k1_pay1 (BitVec.ofNat 32 (i 0).val) (Gen.k1_pay3 x3) (Gen.k1_pay4 x4) (Gen.k1_pay5 x6) (Gen.k1_pay6 x0 x1 x2 x5) (Gen.k1_pay7 x0 x1 x2 x5) (Gen.k1_pay8 (F := Ideal)) xo7 := by
  unfold Gen.out1_B_7
  rw [View.read_writes_eq_canon _ _ _ (Gen.cover1_B_7 c i arg1 harg1 arg2 harg2 arg3 harg3 arg4 harg4 arg5 harg5 arg6 harg6 arg7 harg7 arg8 harg8 hc0 x0 x1 x2 x3 x4 x5 x6 xo7)]
  unfold Gen.kernelRun1_B
  dsimp only
  sl_unfold_words
  rw [View.canon_unit_zero (S := S1x1) hz2]
  simp only [View.readAt_eq_ld, harg1.read_unread, harg2.read_unread, harg3.read_unread, harg4.read_unread, harg5.read_unread, harg6.read_unread, harg7.read_unread, harg8.read_unread,
    View.ld_unit_zero (S := S8192x64) hz2, View.ld_unit_zero (S := S1x1x64) hz3, View.ld_unit_zero (S := S64x64) hz2, View.ld_unit_zero (S := S1x1) hz2]

end Out

/-- With the blocks read as the five arrays' row `j`, the one-hot row `j` and the identity, the addend of point `j` is column `j`'s share of the loss. -/
theorem pay1_eq_contrib {X : Fin 8192 → Fin 64 → EReal} {A B Wt C : Fin 64 → Fin 64 → EReal} {j : Fin 64} {a0 : BitVec 32}
    {x0 : Vec Ideal S8192x64 .f32} {x1 x2 x3 x4 x5 : Vec Ideal S1x1x64 .f32} {x6 : Vec Ideal S64x64 .f32}
    (h0 : ∀ n i, x0 (ix2 n i) = X n i) (h1 : ∀ i, x1 (ix3 0 0 i) = A j i) (h2 : ∀ i, x2 (ix3 0 0 i) = B j i)
    (h3 : ∀ i, x3 (ix3 0 0 i) = Wt j i) (h4 : ∀ k, x4 (ix3 0 0 k) = C j k)
    (h5 : ∀ k : Fin 64, x5 (ix3 0 0 k) = (if j = k then 1 else 0 : EReal))
    (h6 : ∀ i k : Fin 64, x6 (ix2 i k) = (if i = k then 1 else 0 : EReal))
    (hj : a0 = BitVec.ofNat 32 j.val) :
    pay1 a0 x0 x1 x2 x3 x4 x5 x6 = Cert.Spec.contrib (Cert.Spec.resK X A B j) (Wt j) (C j) j := by
  subst hj
  unfold pay1 Gen.k1_pay1 Gen.k1_pay2 Gen.k1_pay3 Gen.k1_pay4 Gen.k1_pay5 Gen.k1_pay7 Gen.k1_pay6 Gen.k1_pay8
    Cert.Spec.contrib Cert.Spec.sccTerm Cert.Spec.gram Cert.Spec.center Cert.Spec.resK
  rw [sum_axis, sum_axis, sum_axis, sum_axis, sum_axis]
  simp only [addf_apply, subf_apply, mulf_apply, divf_apply, truncf_apply, select_apply, broadcast_apply, shapeCast_self,
    shapeCast_a_1a_apply, cast_col, cast_flat, broadcastTo_1b_ab_apply, bc_col, rowsum, colsum, cellsum, bigsum, gram_apply, colmm_apply,
    ofBits_8192, ofBits_0, zero_add, h0, h1, h2, h3, h4, h5, h6, sum_mul_onehot, sum_mul_onehot']
  refine Finset.sum_congr rfl fun i _ => ?_
  refine Finset.sum_congr rfl fun k _ => ?_
  rw [select_mask, select_mask]
  by_cases h : i ≠ j ∧ k ≠ j ∧ i ≠ k
  · simp only [if_pos h]
  · simp only [if_neg h]

end Cert.KernelIdeal.KIndep
end
-- ==== Proof.KIndepValue.lean ====
import proofs.«120299_j54631984005498_1_alg».proof.Proof.KIndepBody

set_option maxRecDepth 16384

noncomputable section

open scoped BigOperators

namespace Cert.KernelIdeal.KIndep

open Idealize.ShloMosaic Idealize.ShloMosaic.TcCoe Idealize.SL.Sem
open Idealize.ShloMosaic.Pipeline (Dat)
open Idealize.ShloMosaic.ValueIdx
open Cert.KernelIdeal

variable (V : (c : Dev nD) → (b : Ref sig .tc) → Buf (Elt Ideal) ((c : Thread nD τ).loc b))

theorem N64 : cfg1.N = 64 := Gen.N_1

/-- A point's one grid coordinate is its position. -/
theorem coord0 : ∀ t : Fin cfg1.N, (grid1.coords t 0).val = t.val :=
  (by decide +kernel : ∀ t : Fin grid1.N, (grid1.coords t 0).val = t.val)

theorem idx1_0 : ∀ t : Fin cfg1.N, ∀ a, win1_0.index t a = 0 := (by decide +kernel : ∀ t : Fin grid1.N, ∀ a, win1_0.index t a = 0)
theorem idx1_6 : ∀ t : Fin cfg1.N, ∀ a, win1_6.index t a = 0 := (by decide +kernel : ∀ t : Fin grid1.N, ∀ a, win1_6.index t a = 0)
theorem idx1_7 : ∀ t : Fin cfg1.N, ∀ a, win1_7.index t a = 0 := (by decide +kernel : ∀ t : Fin grid1.N, ∀ a, win1_7.index t a = 0)

theorem idx_rows : ∀ t : Fin cfg1.N, ∀ x ∈ ([win1_1.index t, win1_2.index t, win1_3.index t, win1_4.index t, win1_5.index t] : List (Fin 3 → ℕ)),
    x 0 = t.val ∧ x 1 = 0 ∧ x 2 = 0 :=
  (by decide +kernel : ∀ t : Fin grid1.N, ∀ x ∈ ([win1_1.index t, win1_2.index t, win1_3.index t, win1_4.index t, win1_5.index t] : List (Fin 3 → ℕ)),
    x 0 = t.val ∧ x 1 = 0 ∧ x 2 = 0)

theorem off0 {n : ℕ} {x s : Fin n → ℕ} (h : ∀ a, x a = 0) : (fun a => x a * s a) = fun _ => 0 := funext fun a => by rw [h, Nat.zero_mul]

/-- Entry `(0, 0, i)` of the one-row block with leading offset `t` is entry `(t, 0, i)` of the array. -/
theorem row_emb {x : Fin 3 → ℕ} {t : ℕ} {j : Fin 64} (hj : j.val = t) (h : x 0 = t ∧ x 1 = 0 ∧ x 2 = 0) (i : Fin 64) {f : S64x1x64.Idx}
    (hf : ∀ a, (f a).val = x a * S1x1x64.size a + 1 * ((ix3 0 0 i : S1x1x64.Idx) a).val) : f = ix3 j 0 i :=
  funext fun a => Fin.ext <| (hf a).trans <| match a with
    | ⟨0, _⟩ => by show x 0 * 1 + 1 * 0 = j.val; omega
    | ⟨1, _⟩ => by show x 1 * 1 + 1 * 0 = 0; omega
    | ⟨2, _⟩ => by show x 2 * 64 + 1 * i.val = i.val; omega

theorem blk1_0 (c : Dev nD) (t : Fin cfg1.N) : (Gen.iblk1 (F := Ideal) V c 0 t : Vec Ideal S8192x64 .f32) = V c main_v159 :=
  Memref.read_access_unit_zero (Elt Ideal) main_v159 (off0 (idx1_0 t)) _ _

theorem blk1_6 (c : Dev nD) (t : Fin cfg1.N) : (Gen.iblk1 (F := Ideal) V c 6 t : Vec Ideal S64x64 .f32) = V c main_v208 :=
  Memref.read_access_unit_zero (Elt Ideal) main_v208 (off0 (idx1_6 t)) _ _

section Rows
variable (c : Dev nD) (t : Fin cfg1.N) {j : Fin 64} (hj : j.val = t.val) (i : Fin 64)
include hj

theorem blk1_1 : (Gen.iblk1 (F := Ideal) V c 1 t : Vec Ideal S1x1x64 .f32) (ix3 0 0 i) = V c main_v199 (ix3 j 0 i) :=
  congrArg (V c main_v199) (row_emb (x := win1_1.index t) hj (idx_rows t _ (by simp)) i fun _ => rfl)
theorem blk1_2 : (Gen.iblk1 (F := Ideal) V c 2 t : Vec Ideal S1x1x64 .f32) (ix3 0 0 i) = V c main_v200 (ix3 j 0 i) :=
  congrArg (V c main_v200) (row_emb (x := win1_2.index t) hj (idx_rows t _ (by simp)) i fun _ => rfl)
theorem blk1_3 : (Gen.iblk1 (F := Ideal) V c 3 t : Vec Ideal S1x1x64 .f32) (ix3 0 0 i) = V c main_v201 (ix3 j 0 i) :=
  congrArg (V c main_v201) (row_emb (x := win1_3.index t) hj (idx_rows t _ (by simp)) i fun _ => rfl)
theorem blk1_4 : (Gen.iblk1 (F := Ideal) V c 4 t : Vec Ideal S1x1x64 .f32) (ix3 0 0 i) = V c main_v202 (ix3 j 0 i) :=
  congrArg (V c main_v202) (row_emb (x := win1_4.index t) hj (idx_rows t _ (by simp)) i fun _ => rfl)
theorem blk1_5 : (Gen.iblk1 (F := Ideal) V c 5 t : Vec Ideal S1x1x64 .f32) (ix3 0 0 i) = V c main_v209 (ix3 j 0 i) :=
  congrArg (V c main_v209) (row_emb (x := win1_5.index t) hj (idx_rows t _ (by simp)) i fun _ => rfl)

end Rows

/-- Conditioning column `n`'s share of the loss, as a function of every natural (zero past the last column). -/
def addend (X : Fin 8192 → Fin 64 → EReal) (A B Wt C : Fin 64 → Fin 64 → EReal) (n : ℕ) : EReal :=
  if h : n < 64 then Cert.Spec.contrib (Cert.Spec.resK X A B ⟨n, h⟩) (Wt ⟨n, h⟩) (C ⟨n, h⟩) ⟨n, h⟩ else 0

theorem last_lt : 63 < cfg1.N := by rw [N64]; decide

/-- The cell after the last point. -/
abbrev result (c : Dev nD) : Buf (Elt Ideal) ((c : Thread nD τ).loc main_v210) := Gen.outsAt1 (F := Ideal) V c 63 last_lt

theorem flushed_eq (c : Dev nD) (t : Fin cfg1.N) (hf : (cfg1.win 7).flush t = true) :
    (Gen.dat1 (F := Ideal) V c).flushed 7 t = ((cfg1.win 7).blk t).view.read (Elt Ideal) (result V c) := by
  have h63 : t.val = 63 := by have := (Gen.flush1_7 t).mp hf; have := t.isLt; have := N64; omega
  have same : ∀ (u : ℕ) (hu : u < cfg1.N), u = 63 → Gen.outsAt1 (F := Ideal) V c u hu = result V c := fun u hu e => by subst e; rfl
  show (cfg1.win 7).cut (grid1.coords t) ((Gen.dat1 (F := Ideal) V c).after 7 t) = _
  rw [Gen.after1_7, same t.val t.isLt h63]
  exact (Memref.read_access_unit_zero (Elt Ideal) main_v210 (off0 (idx1_7 t)) _ (result V c)).symm

section Run
variable (c : Dev nD) {X : Fin 8192 → Fin 64 → EReal} {A B Wt C : Fin 64 → Fin 64 → EReal}
  (hX : ∀ n i, V c main_v159 (ix2 n i) = X n i) (hA : ∀ j i, V c main_v199 (ix3 j 0 i) = A j i)
  (hB : ∀ j i, V c main_v200 (ix3 j 0 i) = B j i) (hW : ∀ j i, V c main_v201 (ix3 j 0 i) = Wt j i)
  (hC : ∀ j k, V c main_v202 (ix3 j 0 k) = C j k)
  (hI : ∀ j k : Fin 64, V c main_v209 (ix3 j 0 k) = (if j = k then 1 else 0 : EReal))
  (hIf : ∀ i k : Fin 64, V c main_v208 (ix2 i k) = (if i = k then 1 else 0 : EReal))
include hX hA hB hW hC hI hIf

/-- What point `t` adds to the output cell is column `t`'s share. -/
theorem pay_at (t : Fin cfg1.N) :
    pay1 (BitVec.ofNat 32 (grid1.coords t 0).val) (Gen.iblk1 (F := Ideal) V c 0 t) (Gen.iblk1 (F := Ideal) V c 1 t)
      (Gen.iblk1 (F := Ideal) V c 2 t) (Gen.iblk1 (F := Ideal) V c 3 t) (Gen.iblk1 (F := Ideal) V c 4 t)
      (Gen.iblk1 (F := Ideal) V c 5 t) (Gen.iblk1 (F := Ideal) V c 6 t) = addend X A B Wt C t.val := by
  have ht : t.val < 64 := N64 ▸ t.isLt
  unfold addend
  rw [dif_pos ht]
  exact pay1_eq_contrib (j := ⟨t.val, ht⟩) (fun n i => (congrFun (blk1_0 V c t) _).trans (hX n i)) (fun i => (blk1_1 V c t rfl i).trans (hA _ i))
    (fun i => (blk1_2 V c t rfl i).trans (hB _ i)) (fun i => (blk1_3 V c t rfl i).trans (hW _ i)) (fun k => (blk1_4 V c t rfl k).trans (hC _ k))
    (fun k => (blk1_5 V c t rfl k).trans (hI _ k)) (fun i k => (congrFun (blk1_6 V c t) _).trans (hIf i k)) (by rw [coord0 t])

/-- After point `n` the cell holds the shares of columns `0 … n`, by induction on `n`. -/
theorem outs_eq : ∀ (n : ℕ) (h : n < cfg1.N), Gen.outsAt1 (F := Ideal) V c n h (ix2 0 0) = ∑ s ∈ Finset.range (n + 1), addend X A B Wt C s
  | 0, h => by
    rw [Finset.sum_range_one, ← pay_at V c hX hA hB hW hC hI hIf ⟨0, h⟩]
    exact congrFun ((Gen.outsAt1_A (F := Ideal) V c ⟨0, h⟩ rfl).trans out_A) _
  | n + 1, h => by
    have hB' : ¬(n + 1) % 64 = 0 := by have := N64 ▸ h; omega
    rw [Finset.sum_range_succ, ← outs_eq n (Nat.lt_of_succ_lt h), ← pay_at V c hX hA hB hW hC hI hIf ⟨n + 1, h⟩]
    exact (congrFun ((Gen.outsAt1_B (F := Ideal) V c ⟨n + 1, h⟩ hB').trans out_B) _).trans (k1_pay1_split _ _ _ _ _ _ _ _)

/-- The output cell ends holding the independence loss of the five arrays, residuals formed as `(x − u) − v`: the sum of all 64 columns' shares. -/
theorem indep_arr : (Gen.dat1 (F := Ideal) V c).arrAt 7 cfg1.N (ix2 (0 : Fin 1) (0 : Fin 1)) = Cert.Spec.indepK X A B Wt C := by
  rw [(Gen.dat1 (F := Ideal) V c).arrAt_eq_of_cover 7 (result V c) (flushed_eq V c) fun i =>
    ⟨⟨63, last_lt⟩, (Gen.flush1_7 ⟨63, last_lt⟩).mpr rfl, by
      show i ∈ ((View.whole main_v210).slice (win1_7.rect ⟨63, last_lt⟩)).set
      rw [View.set_slice_whole]
      exact View.mem_set_unit_zero (off0 (idx1_7 _)) _ i⟩]
  show Gen.outsAt1 (F := Ideal) V c 63 last_lt (ix2 0 0) = _
  rw [outs_eq V c hX hA hB hW hC hI hIf 63 last_lt, Finset.sum_range]
  exact Finset.sum_congr rfl fun j _ => dif_pos j.isLt

end Run

end Cert.KernelIdeal.KIndep

end
-- ==== Proof.KIndepHost.lean ====
import proofs.«120299_j54631984005498_1_alg».proof.Proof.KIndepValue
import Idealize.ShloMosaic.Lib.ValueLayout

noncomputable section

namespace Cert.KernelIdeal.KIndepHost

open Idealize.ShloMosaic Idealize.ShloMosaic.ValueIdx Idealize.ShloMosaic.StableHlo

/-- The bit of "row number plus zero equals column number", converted to a real, is one on the diagonal and zero off it. -/
theorem eyeWord (i k : Fin 64) :
    (FloatOps.uitofp (F := Ideal) .f32 (IntOp.cmpi .eq (IntOp.addi (BitVec.ofNat 32 i.val) 0#32) (BitVec.ofNat 32 k.val)) : EReal)
      = if i = k then 1 else 0 := by
  rw [show IntOp.addi (BitVec.ofNat 32 i.val) 0#32 = BitVec.ofNat 32 i.val from BitVec.add_zero _]
  by_cases h : i = k
  · rw [if_pos h, IntOp.cmpi_eq.mpr (KIndep.word_inj.mpr h)]
    show (((1#1 : BitVec 1).toNat : ℝ) : EReal) = 1
    simp
  · rw [if_neg h, eq_zero_of_ne_one fun e => h (KIndep.word_inj.mp (IntOp.cmpi_eq.mp e))]
    show (((0#1 : BitVec 1).toNat : ℝ) : EReal) = 0
    simp

/-- A 64×64 array reshaped to 64×1×64 reads, at (j, 0, k), the operand at (j, k): the two indices have the same row-major position. -/
theorem reshape_mid {α : Type} (x : S64x64.Idx → α) (h : S64x64.ShapeCasts S64x1x64) (j k : Fin 64) :
    shapeCast S64x1x64 x h (ix3 j (0 : Fin 1) k) = x (ix2 j k) :=
  shapeCast_apply x h (ix3 j (0 : Fin 1) k) (ix2 j k) (by
    rw [Shape.rowMajor_val_two, Shape.rowMajor_val_three]
    show j.val * 64 + k.val = (j.val * 1 + 0) * 64 + k.val
    omega)

variable (m : (ℓ : Loc nD τ sig) → Buf (Elt Ideal) ℓ) (ρ : Dev nD → PrngReg) (c : Dev nD)

/-- The identity matrix, whole and reshaped, read at an index. -/
theorem eye (j i : Fin 64) :
    Gen.W19 m ρ c (Proc.devRef .tc main_v208) (ix2 j i) = (if j = i then 1 else 0 : EReal) ∧
    Gen.W19 m ρ c (Proc.devRef .tc main_v209) (ix3 j (0 : Fin 1) i) = (if j = i then 1 else 0 : EReal) := by
  dsimp only [Gen.W19]
  generalize Gen.W18 m ρ c = W
  after_results_simp
  exact ⟨eyeWord j i, (reshape_mid _ _ j i).trans (eyeWord j i)⟩

/-- The slopes, the intercepts and the weights fed to the region are the host's own, reshaped. -/
theorem v199_eq (j i : Fin 64) :
    Gen.W19 m ρ c (Proc.devRef .tc main_v199) (ix3 j (0 : Fin 1) i) = Gen.W19 m ρ c (Proc.devRef .tc main_v190) (ix2 j i) := by
  dsimp only [Gen.W19]
  generalize Gen.W18 m ρ c = W
  after_results_simp
  exact reshape_mid _ _ j i

theorem v200_eq (j i : Fin 64) :
    Gen.W19 m ρ c (Proc.devRef .tc main_v200) (ix3 j (0 : Fin 1) i) = Gen.W19 m ρ c (Proc.devRef .tc main_v196) (ix2 j i) := by
  dsimp only [Gen.W19]
  generalize Gen.W18 m ρ c = W
  after_results_simp
  exact reshape_mid _ _ j i

theorem v202_eq (j k : Fin 64) :
    Gen.W19 m ρ c (Proc.devRef .tc main_v202) (ix3 j (0 : Fin 1) k) = Gen.W19 m ρ c (Proc.devRef .tc main_v16) (ix2 j k) := by
  dsimp only [Gen.W19]
  generalize Gen.W18 m ρ c = W
  after_results_simp
  exact reshape_mid _ _ j k

/-- The other weight table is the weights transposed plus themselves, reshaped. -/
theorem v201_eq (j i : Fin 64) :
    Gen.W19 m ρ c (Proc.devRef .tc main_v201) (ix3 j (0 : Fin 1) i)
      = Cert.Spec.at2 (Gen.W19 m ρ c (Proc.devRef .tc main_v16)) i j + Cert.Spec.at2 (Gen.W19 m ρ c (Proc.devRef .tc main_v16)) j i := by
  dsimp only [Gen.W19]
  generalize Gen.W18 m ρ c = W
  after_results_simp
  exact (reshape_mid _ _ j i).trans (congrArg (· + _) (transpose_ix2_apply _ _ j i))

/-- The region's one output cell ends holding the independence loss of the host values it was fed. -/
theorem indep_value :
    Gen.W20 m ρ c (Proc.devRef .tc main_v210) (ix2 (0 : Fin 1) (0 : Fin 1))
      = Cert.Spec.indepK (fun n i => Gen.W19 m ρ c (Proc.devRef .tc main_v159) (ix2 n i))
          (fun j i => Gen.W19 m ρ c (Proc.devRef .tc main_v190) (ix2 j i))
          (fun j i => Gen.W19 m ρ c (Proc.devRef .tc main_v196) (ix2 j i))
          (fun j i => Cert.Spec.at2 (Gen.W19 m ρ c (Proc.devRef .tc main_v16)) i j
                        + Cert.Spec.at2 (Gen.W19 m ρ c (Proc.devRef .tc main_v16)) j i)
          (fun j k => Gen.W19 m ρ c (Proc.devRef .tc main_v16) (ix2 j k)) := by
  show Gen.W20 m ρ c (Proc.devRef .tc (Pipeline.arrRef spec1 7)) (ix2 (0 : Fin 1) (0 : Fin 1)) = _
  rw [Gen.W20_arr m ρ c 7]
  exact KIndep.indep_arr (Gen.V19 m ρ) c (fun _ _ => rfl) (v199_eq m ρ c) (v200_eq m ρ c) (v201_eq m ρ c) (v202_eq m ρ c)
    (fun j i => (eye m ρ c j i).2) (fun j i => (eye m ρ c j i).1)

end Cert.KernelIdeal.KIndepHost
-- ==== Proof.ROps0.lean ====
import proofs.«120299_j54631984005498_1_alg».proof.Proof.Gen.ReferenceIdeal
import Idealize.ShloMosaic.Lib.StableHlo.Run
import Idealize.ShloMosaic.Lib.Pipeline.Regions
import Idealize.ShloMosaic.Lib.Tactic

set_option maxRecDepth 16384

noncomputable section

namespace Cert.ReferenceIdeal.Ops

open Cert.ReferenceIdeal Cert.ReferenceIdeal.Gen Idealize.ShloMosaic Idealize.ShloMosaic.TcCoe Idealize.SL.Sem Idealize.ShloMosaic.StableHlo Idealize.ShloMosaic.Tactic

variable {F : FTy → Type} [FloatOps F]

abbrev p0_l0 : List (HloOp τ sig (Elt F)) :=
  [ StableHlo.unary main_arg3 main_v0 ((transpose S64x64 [1, 0] · transposes_S64x64_S64x64_1_0) : (⟨S64x64, .f32⟩ : BufTy).Contents (Elt F) → (⟨S64x64, .f32⟩ : BufTy).Contents (Elt F)),
    StableHlo.binary main_arg3 main_v0 main_v1 subf,
    StableHlo.unary main_v1 main_v2 Host.negf,
    StableHlo.unary main_v2 main_v3 Host.exp,
    StableHlo.nullary main_cst (constant S_ .f32 0x3F800000#32),
    StableHlo.unary main_cst main_v4 (broadcastInDim S64x64 ![] bcast_S_S64x64),
    StableHlo.binary main_v4 main_v3 main_v5 addf,
    StableHlo.nullary main_cst_0 (constant S_ .f32 0x3F800000#32),
    StableHlo.unary main_cst_0 main_v6 (broadcastInDim S64x64 ![] bcast_S_S64x64),
    StableHlo.binary main_v6 main_v5 main_v7 Host.divf,
    StableHlo.nullary main_v8 (iotaInDim S64x64 32 0),
    StableHlo.nullary main_v9 (iotaInDim S64x64 32 1),
    StableHlo.nullary main_c (constantI S_ 32 0#32),
    StableHlo.unary main_c main_v10 (broadcastInDim S64x64 ![] bcast_S_S64x64),
    StableHlo.binary main_v8 main_v10 main_v11 addi,
    StableHlo.binary main_v11 main_v9 main_v12 (cmpi .eq),
    StableHlo.unary main_v12 main_v13 (uitofp .f32),
    StableHlo.nullary main_cst_1 (constant S_ .f32 0x3F800000#32),
    StableHlo.unary main_cst_1 main_v14 (broadcastInDim S64x64 ![] bcast_S_S64x64),
    StableHlo.binary main_v14 main_v13 main_v15 subf,
    StableHlo.binary main_v7 main_v15 main_v16 mulf,
    StableHlo.binary main_v16 main_v16 main_v17 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.unary main_v16 main_v18 ((transpose S64x64 [1, 0] · transposes_S64x64_S64x64_1_0) : (⟨S64x64, .f32⟩ : BufTy).Contents (Elt F) → (⟨S64x64, .f32⟩ : BufTy).Contents (Elt F)),
    StableHlo.binary main_v17 main_v18 main_v19 mulf,
    StableHlo.nullary main_cst_2 (constant S_ .f32 0x00000000#32),
    StableHlo.binary main_v19 main_cst_2 main_v20 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)) ]

abbrev p0_l1 : List (HloOp τ sig (Elt F)) :=
  [ StableHlo.unary main_arg5 main_v21 ((transpose S128x256 [1, 0] · transposes_S256x128_S128x256_1_0) : (⟨S256x128, .f32⟩ : BufTy).Contents (Elt F) → (⟨S128x256, .f32⟩ : BufTy).Contents (Elt F)),
    StableHlo.binary main_arg4 main_v21 main_v22 ((fun l r => Host.dotGeneral dot_S16384x128_S128x256_S16384x256_1_0_0_1_n_n none l r) : (⟨S16384x128, .f32⟩ : BufTy).Contents (Elt F) → (⟨S128x256, .f32⟩ : BufTy).Contents (Elt F) → (⟨S16384x256, .f32⟩ : BufTy).Contents (Elt F)),
    StableHlo.nullary main_cst_3 (constant S_ .f32 0x00000000#32),
    StableHlo.binary main_v22 main_cst_3 main_v23 ((fun x v => Host.reduceAdd x v reducesTo_S16384x256_S256_d0 h_S_) : (⟨S16384x256, .f32⟩ : BufTy).Contents (Elt F) → (⟨S_, .f32⟩ : BufTy).Contents (Elt F) → (⟨S256, .f32⟩ : BufTy).Contents (Elt F)),
    StableHlo.nullary main_cst_4 (constant S_ .f32 0x46800000#32),
    StableHlo.unary main_cst_4 main_v24 (broadcastInDim S256 ![] bcast_S_S256),
    StableHlo.binary main_v23 main_v24 main_v25 Host.divf,
    StableHlo.nullary main_c_5 (constantI S_ 32 0#32) ]

abbrev p0_l2 : List (HloOp τ sig (Elt F)) :=
  [ StableHlo.TRef.nullary main_call0.cst (constant S_ .f32 0x00000000#32),
    StableHlo.TRef.binary (.of main_v22) main_call0.cst main_call0.v0 (fun x v => Host.reduceAdd x v reducesTo_S16384x256_S256_d0 h_S_),
    StableHlo.TRef.unary main_call0.v0 main_call0.v1 (broadcastInDim S1x256 ![1] bcast_S256_S1x256_1),
    StableHlo.TRef.nullary main_call0.cst_0 (constant S_ .f32 0x46800000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S16384x256 ![0, 1] bcast_S1x256_S16384x256_0_1),
    StableHlo.TRef.binary (.of main_v22) main_call0.v4 main_call0.v5 subf,
    StableHlo.TRef.binary main_call0.v5 main_call0.v5 main_call0.v6 mulf,
    StableHlo.TRef.unary (.of main_c_5) main_call0.v7 (sitofp .f32),
    StableHlo.TRef.nullary main_call0.cst_1 (constant S_ .f32 0x46800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S16384x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b) ]

abbrev p0_l3 : List (HloOp τ sig (Elt F)) :=
  [ StableHlo.unary main_v25 main_v27 (broadcastInDim S1x256 ![1] bcast_S256_S1x256_1),
    StableHlo.unary main_v27 main_v28 (broadcastInDim S16384x256 ![0, 1] bcast_S1x256_S16384x256_0_1),
    StableHlo.binary main_v22 main_v28 main_v29 subf,
    StableHlo.nullary main_cst_6 (constant S_ .f32 0x3727C5AC#32),
    StableHlo.unary main_cst_6 main_v30 (broadcastInDim S256 ![] bcast_S_S256),
    StableHlo.binary main_v26 main_v30 main_v31 addf,
    StableHlo.unary main_v31 main_v32 Host.sqrt,
    StableHlo.unary main_v32 main_v33 (broadcastInDim S1x256 ![1] bcast_S256_S1x256_1),
    StableHlo.unary main_v33 main_v34 (broadcastInDim S16384x256 ![0, 1] bcast_S1x256_S16384x256_0_1),
    StableHlo.binary main_v29 main_v34 main_v35 Host.divf,
    StableHlo.unary main_arg6 main_v36 (broadcastInDim S1x256 ![1] bcast_S256_S1x256_1),
    StableHlo.unary main_v36 main_v37 (broadcastInDim S16384x256 ![0, 1] bcast_S1x256_S16384x256_0_1),
    StableHlo.binary main_v35 main_v37 main_v38 mulf,
    StableHlo.unary main_arg7 main_v39 (broadcastInDim S1x256 ![1] bcast_S256_S1x256_1),
    StableHlo.unary main_v39 main_v40 (broadcastInDim S16384x256 ![0, 1] bcast_S1x256_S16384x256_0_1),
    StableHlo.binary main_v38 main_v40 main_v41 addf,
    StableHlo.nullary main_cst_7 (constant S_ .f32 0x00000000#32),
    StableHlo.unary main_cst_7 main_v42 (broadcastInDim S16384x256 ![] bcast_S_S16384x256),
    StableHlo.binary main_v41 main_v42 main_v43 (cmpf .oge),
    StableHlo.nullary main_cst_8 (constant S_ .f32 0x3C23D70A#32),
    StableHlo.unary main_cst_8 main_v44 (broadcastInDim S16384x256 ![] bcast_S_S16384x256),
    StableHlo.binary main_v44 main_v41 main_v45 mulf ]

abbrev p0_l4 : List (HloOp τ sig (Elt F)) :=
  [ StableHlo.TRef.ternary (.of main_v43) (.of main_v41) (.of main_v45) main_call1.v0 select ]

abbrev p0_l5 : List (HloOp τ sig (Elt F)) :=
  [ StableHlo.unary main_arg8 main_v47 ((transpose S256x64 [1, 0] · transposes_S64x256_S256x64_1_0) : (⟨S64x256, .f32⟩ : BufTy).Contents (Elt F) → (⟨S256x64, .f32⟩ : BufTy).Contents (Elt F)),
    StableHlo.binary main_v46 main_v47 main_v48 ((fun l r => Host.dotGeneral dot_S16384x256_S256x64_S16384x64_1_0_0_1_n_n none l r) : (⟨S16384x256, .f32⟩ : BufTy).Contents (Elt F) → (⟨S256x64, .f32⟩ : BufTy).Contents (Elt F) → (⟨S16384x64, .f32⟩ : BufTy).Contents (Elt F)) ]

theorem main_part0_chain (c : Dev nD) : main_part0 (F := F) c = (Pipeline.chainK
  [ seq p0_l0,
    seq p0_l1,
    seq p0_l2,
    seq p0_l3,
    seq p0_l4 ]
  (seq p0_l5) : Prog (TpuEff nD τ sig (Elt F) (Pipeline.Sig Λ₀ (Fin 0) fun p => (pcfgs (F := F) p).Adm) .tc) PUnit) := by
  chain_rfl

end Cert.ReferenceIdeal.Ops

end
-- ==== Proof.ROps1.lean ====
import proofs.«120299_j54631984005498_1_alg».proof.Proof.Gen.ReferenceIdeal
import Idealize.ShloMosaic.Lib.StableHlo.Run
import Idealize.ShloMosaic.Lib.Pipeline.Regions
import Idealize.ShloMosaic.Lib.Tactic

set_option maxRecDepth 16384

noncomputable section

namespace Cert.ReferenceIdeal.Ops

open Cert.ReferenceIdeal Cert.ReferenceIdeal.Gen Idealize.ShloMosaic Idealize.ShloMosaic.TcCoe Idealize.SL.Sem Idealize.ShloMosaic.StableHlo Idealize.ShloMosaic.Tactic

variable {F : FTy → Type} [FloatOps F]

abbrev p1_l0 : List (HloOp τ sig (Elt F)) :=
  [ StableHlo.unary main_arg9 main_v49 (broadcastInDim S1x64 ![1] bcast_S64_S1x64_1),
    StableHlo.unary main_v49 main_v50 (broadcastInDim S16384x64 ![0, 1] bcast_S1x64_S16384x64_0_1),
    StableHlo.binary main_v48 main_v50 main_v51 addf,
    StableHlo.binary main_v51 main_arg0 main_v52 subf,
    StableHlo.binary main_v52 main_v52 main_v53 mulf,
    StableHlo.nullary main_cst_9 (constant S_ .f32 0x00000000#32),
    StableHlo.binary main_v53 main_cst_9 main_v54 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    StableHlo.nullary main_cst_10 (constant S_ .f32 0x49800000#32),
    StableHlo.binary main_v54 main_cst_10 main_v55 Host.divf ]

abbrev p1_l1 : List (HloOp τ sig (Elt F)) :=
  [ StableHlo.unary main_arg10 main_v56 ((transpose S64x256 [1, 0] · transposes_S256x64_S64x256_1_0) : (⟨S256x64, .f32⟩ : BufTy).Contents (Elt F) → (⟨S64x256, .f32⟩ : BufTy).Contents (Elt F)),
    StableHlo.binary main_arg1 main_v56 main_v57 ((fun l r => Host.dotGeneral dot_S2048x64_S64x256_S2048x256_1_0_0_1_n_n none l r) : (⟨S2048x64, .f32⟩ : BufTy).Contents (Elt F) → (⟨S64x256, .f32⟩ : BufTy).Contents (Elt F) → (⟨S2048x256, .f32⟩ : BufTy).Contents (Elt F)),
    StableHlo.nullary main_cst_11 (constant S_ .f32 0x00000000#32),
    StableHlo.binary main_v57 main_cst_11 main_v58 ((fun x v => Host.reduceAdd x v reducesTo_S2048x256_S256_d0 h_S_) : (⟨S2048x256, .f32⟩ : BufTy).Contents (Elt F) → (⟨S_, .f32⟩ : BufTy).Contents (Elt F) → (⟨S256, .f32⟩ : BufTy).Contents (Elt F)),
    StableHlo.nullary main_cst_12 (constant S_ .f32 0x45000000#32),
    StableHlo.unary main_cst_12 main_v59 (broadcastInDim S256 ![] bcast_S_S256),
    StableHlo.binary main_v58 main_v59 main_v60 Host.divf,
    StableHlo.nullary main_c_13 (constantI S_ 32 0#32) ]

abbrev p1_l2 : List (HloOp τ sig (Elt F)) :=
  [ StableHlo.TRef.nullary main_call2.cst (constant S_ .f32 0x00000000#32),
    StableHlo.TRef.binary (.of main_v57) main_call2.cst main_call2.v0 (fun x v => Host.reduceAdd x v reducesTo_S2048x256_S256_d0 h_S_),
    StableHlo.TRef.unary main_call2.v0 main_call2.v1 (broadcastInDim S1x256 ![1] bcast_S256_S1x256_1),
    StableHlo.TRef.nullary main_call2.cst_0 (constant S_ .f32 0x45000000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S2048x256 ![0, 1] bcast_S1x256_S2048x256_0_1),
    StableHlo.TRef.binary (.of main_v57) main_call2.v4 main_call2.v5 subf,
    StableHlo.TRef.binary main_call2.v5 main_call2.v5 main_call2.v6 mulf,
    StableHlo.TRef.unary (.of main_c_13) main_call2.v7 (sitofp .f32),
    StableHlo.TRef.nullary main_call2.cst_1 (constant S_ .f32 0x45000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S2048x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b) ]

abbrev p1_l3 : List (HloOp τ sig (Elt F)) :=
  [ StableHlo.unary main_v60 main_v62 (broadcastInDim S1x256 ![1] bcast_S256_S1x256_1),
    StableHlo.unary main_v62 main_v63 (broadcastInDim S2048x256 ![0, 1] bcast_S1x256_S2048x256_0_1),
    StableHlo.binary main_v57 main_v63 main_v64 subf,
    StableHlo.nullary main_cst_14 (constant S_ .f32 0x3727C5AC#32),
    StableHlo.unary main_cst_14 main_v65 (broadcastInDim S256 ![] bcast_S_S256),
    StableHlo.binary main_v61 main_v65 main_v66 addf,
    StableHlo.unary main_v66 main_v67 Host.sqrt,
    StableHlo.unary main_v67 main_v68 (broadcastInDim S1x256 ![1] bcast_S256_S1x256_1),
    StableHlo.unary main_v68 main_v69 (broadcastInDim S2048x256 ![0, 1] bcast_S1x256_S2048x256_0_1),
    StableHlo.binary main_v64 main_v69 main_v70 Host.divf,
    StableHlo.unary main_arg11 main_v71 (broadcastInDim S1x256 ![1] bcast_S256_S1x256_1),
    StableHlo.unary main_v71 main_v72 (broadcastInDim S2048x256 ![0, 1] bcast_S1x256_S2048x256_0_1),
    StableHlo.binary main_v70 main_v72 main_v73 mulf,
    StableHlo.unary main_arg12 main_v74 (broadcastInDim S1x256 ![1] bcast_S256_S1x256_1),
    StableHlo.unary main_v74 main_v75 (broadcastInDim S2048x256 ![0, 1] bcast_S1x256_S2048x256_0_1),
    StableHlo.binary main_v73 main_v75 main_v76 addf,
    StableHlo.nullary main_cst_15 (constant S_ .f32 0x00000000#32),
    StableHlo.unary main_cst_15 main_v77 (broadcastInDim S2048x256 ![] bcast_S_S2048x256),
    StableHlo.binary main_v76 main_v77 main_v78 (cmpf .oge),
    StableHlo.nullary main_cst_16 (constant S_ .f32 0x3C23D70A#32),
    StableHlo.unary main_cst_16 main_v79 (broadcastInDim S2048x256 ![] bcast_S_S2048x256),
    StableHlo.binary main_v79 main_v76 main_v80 mulf ]

abbrev p1_l4 : List (HloOp τ sig (Elt F)) :=
  [ StableHlo.TRef.ternary (.of main_v78) (.of main_v76) (.of main_v80) main_call3.v0 select ]

abbrev p1_l5 : List (HloOp τ sig (Elt F)) :=
  [ StableHlo.unary main_arg13 main_v82 ((transpose S256x128 [1, 0] · transposes_S128x256_S256x128_1_0) : (⟨S128x256, .f32⟩ : BufTy).Contents (Elt F) → (⟨S256x128, .f32⟩ : BufTy).Contents (Elt F)),
    StableHlo.binary main_v81 main_v82 main_v83 ((fun l r => Host.dotGeneral dot_S2048x256_S256x128_S2048x128_1_0_0_1_n_n none l r) : (⟨S2048x256, .f32⟩ : BufTy).Contents (Elt F) → (⟨S256x128, .f32⟩ : BufTy).Contents (Elt F) → (⟨S2048x128, .f32⟩ : BufTy).Contents (Elt F)),
    StableHlo.unary main_arg14 main_v84 (broadcastInDim S1x128 ![1] bcast_S128_S1x128_1),
    StableHlo.unary main_v84 main_v85 (broadcastInDim S2048x128 ![0, 1] bcast_S1x128_S2048x128_0_1),
    StableHlo.binary main_v83 main_v85 main_v86 addf ]

abbrev p1_l6 : List (HloOp τ sig (Elt F)) :=
  [ StableHlo.nullary main_c_17 (constantI S_ 32 0#32),
    StableHlo.unary main_c_17 main_v87 (broadcastInDim S16384 ![] bcast_S_S16384),
    StableHlo.binary main_arg15 main_v87 main_v88 (cmpi .slt),
    StableHlo.nullary main_c_18 (constantI S_ 32 16384#32),
    StableHlo.unary main_c_18 main_v89 (broadcastInDim S16384 ![] bcast_S_S16384),
    StableHlo.binary main_arg15 main_v89 main_v90 addi,
    StableHlo.ternary main_v88 main_v90 main_arg15 main_v91 select,
    StableHlo.unary main_v91 main_v92 (broadcastInDim S16384x1 ![0] bcast_S16384_S16384x1_0),
    StableHlo.binary main_arg4 main_v92 main_v93 ((fun x i => Host.gather gather_S16384x128_S16384x1_S16384x128_1_0_n_n_0_1_1128 x i) : (⟨S16384x128, .f32⟩ : BufTy).Contents (Elt F) → (⟨S16384x1, .i32⟩ : BufTy).Contents (Elt F) → (⟨S16384x128, .f32⟩ : BufTy).Contents (Elt F)) ]

abbrev p1_l7 : List (HloOp τ sig (Elt F)) :=
  [ StableHlo.binary main_v86 main_v86 main_v94 mulf,
    StableHlo.nullary main_cst_19 (constant S_ .f32 0x00000000#32),
    StableHlo.binary main_v94 main_cst_19 main_v95 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    StableHlo.unary main_v95 main_v96 (broadcastInDim S2048x1 ![0] bcast_S2048_S2048x1_0),
    StableHlo.binary main_v93 main_v93 main_v97 mulf ]

theorem main_part1_chain (c : Dev nD) : main_part1 (F := F) c = (Pipeline.chainK
  [ seq p1_l0,
    seq p1_l1,
    seq p1_l2,
    seq p1_l3,
    seq p1_l4,
    seq p1_l5,
    seq p1_l6 ]
  (seq p1_l7) : Prog (TpuEff nD τ sig (Elt F) (Pipeline.Sig Λ₀ (Fin 0) fun p => (pcfgs (F := F) p).Adm) .tc) PUnit) := by
  chain_rfl

end Cert.ReferenceIdeal.Ops

end
-- ==== Proof.ROps2.lean ====
import proofs.«120299_j54631984005498_1_alg».proof.Proof.Gen.ReferenceIdeal
import Idealize.ShloMosaic.Lib.StableHlo.Run
import Idealize.ShloMosaic.Lib.Pipeline.Regions
import Idealize.ShloMosaic.Lib.Tactic

set_option maxRecDepth 16384

noncomputable section

namespace Cert.ReferenceIdeal.Ops

open Cert.ReferenceIdeal Cert.ReferenceIdeal.Gen Idealize.ShloMosaic Idealize.ShloMosaic.TcCoe Idealize.SL.Sem Idealize.ShloMosaic.StableHlo Idealize.ShloMosaic.Tactic

variable {F : FTy → Type} [FloatOps F]

abbrev p2_l0 : List (HloOp τ sig (Elt F)) :=
  [ StableHlo.nullary main_cst_20 (constant S_ .f32 0x00000000#32),
    StableHlo.binary main_v97 main_cst_20 main_v98 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    StableHlo.unary main_v98 main_v99 (broadcastInDim S1x16384 ![1] bcast_S16384_S1x16384_1),
    StableHlo.unary main_v96 main_v100 (broadcastInDim S2048x16384 ![0, 1] bcast_S2048x1_S2048x16384_0_1),
    StableHlo.unary main_v99 main_v101 (broadcastInDim S2048x16384 ![0, 1] bcast_S1x16384_S2048x16384_0_1),
    StableHlo.binary main_v100 main_v101 main_v102 addf,
    StableHlo.unary main_v93 main_v103 ((transpose S128x16384 [1, 0] · transposes_S16384x128_S128x16384_1_0) : (⟨S16384x128, .f32⟩ : BufTy).Contents (Elt F) → (⟨S128x16384, .f32⟩ : BufTy).Contents (Elt F)),
    StableHlo.binary main_v86 main_v103 main_v104 ((fun l r => Host.dotGeneral dot_S2048x128_S128x16384_S2048x16384_1_0_0_1_n_n none l r) : (⟨S2048x128, .f32⟩ : BufTy).Contents (Elt F) → (⟨S128x16384, .f32⟩ : BufTy).Contents (Elt F) → (⟨S2048x16384, .f32⟩ : BufTy).Contents (Elt F)),
    StableHlo.nullary main_cst_21 (constant S_ .f32 0x40000000#32),
    StableHlo.unary main_cst_21 main_v105 (broadcastInDim S2048x16384 ![] bcast_S_S2048x16384),
    StableHlo.binary main_v105 main_v104 main_v106 mulf,
    StableHlo.binary main_v102 main_v106 main_v107 subf,
    StableHlo.nullary main_cst_22 (constant S_ .f32 0x43000000#32),
    StableHlo.unary main_cst_22 main_v108 (broadcastInDim S2048x16384 ![] bcast_S_S2048x16384),
    StableHlo.binary main_v107 main_v108 main_v109 Host.divf,
    StableHlo.nullary main_cst_23 (constant S_ .f32 0x7F800000#32),
    StableHlo.binary main_v109 main_cst_23 main_v110 ((fun x v => Host.reduce FloatOps.minimumf x v reducesTo_S2048x16384_S2048_d1 h_S_) : (⟨S2048x16384, .f32⟩ : BufTy).Contents (Elt F) → (⟨S_, .f32⟩ : BufTy).Contents (Elt F) → (⟨S2048, .f32⟩ : BufTy).Contents (Elt F)),
    StableHlo.nullary main_cst_24 (constant S_ .f32 0x00000000#32),
    StableHlo.binary main_v110 main_cst_24 main_v111 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    StableHlo.nullary main_cst_25 (constant S_ .f32 0x45000000#32),
    StableHlo.binary main_v111 main_cst_25 main_v112 Host.divf ]

abbrev p2_l1 : List (HloOp τ sig (Elt F)) :=
  [ StableHlo.unary main_arg10 main_v113 ((transpose S64x256 [1, 0] · transposes_S256x64_S64x256_1_0) : (⟨S256x64, .f32⟩ : BufTy).Contents (Elt F) → (⟨S64x256, .f32⟩ : BufTy).Contents (Elt F)),
    StableHlo.binary main_arg2 main_v113 main_v114 ((fun l r => Host.dotGeneral dot_S8192x64_S64x256_S8192x256_1_0_0_1_n_n none l r) : (⟨S8192x64, .f32⟩ : BufTy).Contents (Elt F) → (⟨S64x256, .f32⟩ : BufTy).Contents (Elt F) → (⟨S8192x256, .f32⟩ : BufTy).Contents (Elt F)),
    StableHlo.nullary main_cst_26 (constant S_ .f32 0x00000000#32),
    StableHlo.binary main_v114 main_cst_26 main_v115 ((fun x v => Host.reduceAdd x v reducesTo_S8192x256_S256_d0 h_S_) : (⟨S8192x256, .f32⟩ : BufTy).Contents (Elt F) → (⟨S_, .f32⟩ : BufTy).Contents (Elt F) → (⟨S256, .f32⟩ : BufTy).Contents (Elt F)),
    StableHlo.nullary main_cst_27 (constant S_ .f32 0x46000000#32),
    StableHlo.unary main_cst_27 main_v116 (broadcastInDim S256 ![] bcast_S_S256),
    StableHlo.binary main_v115 main_v116 main_v117 Host.divf,
    StableHlo.nullary main_c_28 (constantI S_ 32 0#32) ]

abbrev p2_l2 : List (HloOp τ sig (Elt F)) :=
  [ StableHlo.TRef.nullary main_call4.cst (constant S_ .f32 0x00000000#32),
    StableHlo.TRef.binary (.of main_v114) main_call4.cst main_call4.v0 (fun x v => Host.reduceAdd x v reducesTo_S8192x256_S256_d0 h_S_),
    StableHlo.TRef.unary main_call4.v0 main_call4.v1 (broadcastInDim S1x256 ![1] bcast_S256_S1x256_1),
    StableHlo.TRef.nullary main_call4.cst_0 (constant S_ .f32 0x46000000#32),
    StableHlo.TRef.unary main_call4.cst_0 main_call4.v2 (broadcastInDim S1x256 ![] bcast_S_S1x256),
    StableHlo.TRef.binary main_call4.v1 main_call4.v2 main_call4.v3 Host.divf,
    StableHlo.TRef.unary main_call4.v3 main_call4.v4 (broadcastInDim S8192x256 ![0, 1] bcast_S1x256_S8192x256_0_1),
    StableHlo.TRef.binary (.of main_v114) main_call4.v4 main_call4.v5 subf,
    StableHlo.TRef.binary main_call4.v5 main_call4.v5 main_call4.v6 mulf,
    StableHlo.TRef.unary (.of main_c_28) main_call4.v7 (sitofp .f32),
    StableHlo.TRef.nullary main_call4.cst_1 (constant S_ .f32 0x46000000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S8192x256_S256_d0 h_S_),
    StableHlo.TRef.unary main_call4.v8 main_call4.v10 (broadcastInDim S256 ![] bcast_S_S256),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S256 ![] bcast_S_S256),
    StableHlo.TRef.ternary main_call4.v12 main_call4.v11 main_call4.call0.v1 main_call4.call0.v2 (fun p a b => select (broadcastInDim S256 ![] bcast_S_S256 p) a b) ]

abbrev p2_l3 : List (HloOp τ sig (Elt F)) :=
  [ StableHlo.unary main_v117 main_v119 (broadcastInDim S1x256 ![1] bcast_S256_S1x256_1),
    StableHlo.unary main_v119 main_v120 (broadcastInDim S8192x256 ![0, 1] bcast_S1x256_S8192x256_0_1),
    StableHlo.binary main_v114 main_v120 main_v121 subf,
    StableHlo.nullary main_cst_29 (constant S_ .f32 0x3727C5AC#32),
    StableHlo.unary main_cst_29 main_v122 (broadcastInDim S256 ![] bcast_S_S256),
    StableHlo.binary main_v118 main_v122 main_v123 addf,
    StableHlo.unary main_v123 main_v124 Host.sqrt,
    StableHlo.unary main_v124 main_v125 (broadcastInDim S1x256 ![1] bcast_S256_S1x256_1),
    StableHlo.unary main_v125 main_v126 (broadcastInDim S8192x256 ![0, 1] bcast_S1x256_S8192x256_0_1),
    StableHlo.binary main_v121 main_v126 main_v127 Host.divf,
    StableHlo.unary main_arg11 main_v128 (broadcastInDim S1x256 ![1] bcast_S256_S1x256_1),
    StableHlo.unary main_v128 main_v129 (broadcastInDim S8192x256 ![0, 1] bcast_S1x256_S8192x256_0_1),
    StableHlo.binary main_v127 main_v129 main_v130 mulf,
    StableHlo.unary main_arg12 main_v131 (broadcastInDim S1x256 ![1] bcast_S256_S1x256_1),
    StableHlo.unary main_v131 main_v132 (broadcastInDim S8192x256 ![0, 1] bcast_S1x256_S8192x256_0_1),
    StableHlo.binary main_v130 main_v132 main_v133 addf,
    StableHlo.nullary main_cst_30 (constant S_ .f32 0x00000000#32),
    StableHlo.unary main_cst_30 main_v134 (broadcastInDim S8192x256 ![] bcast_S_S8192x256),
    StableHlo.binary main_v133 main_v134 main_v135 (cmpf .oge),
    StableHlo.nullary main_cst_31 (constant S_ .f32 0x3C23D70A#32),
    StableHlo.unary main_cst_31 main_v136 (broadcastInDim S8192x256 ![] bcast_S_S8192x256),
    StableHlo.binary main_v136 main_v133 main_v137 mulf ]

abbrev p2_l4 : List (HloOp τ sig (Elt F)) :=
  [ StableHlo.TRef.ternary (.of main_v135) (.of main_v133) (.of main_v137) main_call5.v0 select ]

abbrev p2_l5 : List (HloOp τ sig (Elt F)) :=
  [ StableHlo.unary main_arg13 main_v139 ((transpose S256x128 [1, 0] · transposes_S128x256_S256x128_1_0) : (⟨S128x256, .f32⟩ : BufTy).Contents (Elt F) → (⟨S256x128, .f32⟩ : BufTy).Contents (Elt F)),
    StableHlo.binary main_v138 main_v139 main_v140 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    StableHlo.unary main_arg14 main_v141 (broadcastInDim S1x128 ![1] bcast_S128_S1x128_1),
    StableHlo.unary main_v141 main_v142 (broadcastInDim S8192x128 ![0, 1] bcast_S1x128_S8192x128_0_1),
    StableHlo.binary main_v140 main_v142 main_v143 addf ]

abbrev p2_l6 : List (HloOp τ sig (Elt F)) :=
  [ StableHlo.unary main_arg5 main_v144 ((transpose S128x256 [1, 0] · transposes_S256x128_S128x256_1_0) : (⟨S256x128, .f32⟩ : BufTy).Contents (Elt F) → (⟨S128x256, .f32⟩ : BufTy).Contents (Elt F)),
    StableHlo.binary main_v143 main_v144 main_v145 ((fun l r => Host.dotGeneral dot_S8192x128_S128x256_S8192x256_1_0_0_1_n_n none l r) : (⟨S8192x128, .f32⟩ : BufTy).Contents (Elt F) → (⟨S128x256, .f32⟩ : BufTy).Contents (Elt F) → (⟨S8192x256, .f32⟩ : BufTy).Contents (Elt F)) ]

theorem main_part2_chain (c : Dev nD) : main_part2 (F := F) c = (Pipeline.chainK
  [ seq p2_l0,
    seq p2_l1,
    seq p2_l2,
    seq p2_l3,
    seq p2_l4,
    seq p2_l5 ]
  (seq p2_l6) : Prog (TpuEff nD τ sig (Elt F) (Pipeline.Sig Λ₀ (Fin 0) fun p => (pcfgs (F := F) p).Adm) .tc) PUnit) := by
  chain_rfl

end Cert.ReferenceIdeal.Ops

end
-- ==== Proof.ROps3.lean ====
import proofs.«120299_j54631984005498_1_alg».proof.Proof.Gen.ReferenceIdeal
import Idealize.ShloMosaic.Lib.StableHlo.Run
import Idealize.ShloMosaic.Lib.Pipeline.Regions
import Idealize.ShloMosaic.Lib.Tactic

set_option maxRecDepth 16384

noncomputable section

namespace Cert.ReferenceIdeal.Ops

open Cert.ReferenceIdeal Cert.ReferenceIdeal.Gen Idealize.ShloMosaic Idealize.ShloMosaic.TcCoe Idealize.SL.Sem Idealize.ShloMosaic.StableHlo Idealize.ShloMosaic.Tactic

variable {F : FTy → Type} [FloatOps F]

abbrev p3_l0 : List (HloOp τ sig (Elt F)) :=
  [ StableHlo.nullary main_cst_32 (constant S_ .f32 0x00000000#32),
    StableHlo.binary main_v145 main_cst_32 main_v146 ((fun x v => Host.reduceAdd x v reducesTo_S8192x256_S256_d0 h_S_) : (⟨S8192x256, .f32⟩ : BufTy).Contents (Elt F) → (⟨S_, .f32⟩ : BufTy).Contents (Elt F) → (⟨S256, .f32⟩ : BufTy).Contents (Elt F)),
    StableHlo.nullary main_cst_33 (constant S_ .f32 0x46000000#32),
    StableHlo.unary main_cst_33 main_v147 (broadcastInDim S256 ![] bcast_S_S256),
    StableHlo.binary main_v146 main_v147 main_v148 Host.divf,
    StableHlo.nullary main_c_34 (constantI S_ 32 0#32) ]

abbrev p3_l1 : List (HloOp τ sig (Elt F)) :=
  [ StableHlo.TRef.nullary main_call6.cst (constant S_ .f32 0x00000000#32),
    StableHlo.TRef.binary (.of main_v145) main_call6.cst main_call6.v0 (fun x v => Host.reduceAdd x v reducesTo_S8192x256_S256_d0 h_S_),
    StableHlo.TRef.unary main_call6.v0 main_call6.v1 (broadcastInDim S1x256 ![1] bcast_S256_S1x256_1),
    StableHlo.TRef.nullary main_call6.cst_0 (constant S_ .f32 0x46000000#32),
    StableHlo.TRef.unary main_call6.cst_0 main_call6.v2 (broadcastInDim S1x256 ![] bcast_S_S1x256),
    StableHlo.TRef.binary main_call6.v1 main_call6.v2 main_call6.v3 Host.divf,
    StableHlo.TRef.unary main_call6.v3 main_call6.v4 (broadcastInDim S8192x256 ![0, 1] bcast_S1x256_S8192x256_0_1),
    StableHlo.TRef.binary (.of main_v145) main_call6.v4 main_call6.v5 subf,
    StableHlo.TRef.binary main_call6.v5 main_call6.v5 main_call6.v6 mulf,
    StableHlo.TRef.unary (.of main_c_34) main_call6.v7 (sitofp .f32),
    StableHlo.TRef.nullary main_call6.cst_1 (constant S_ .f32 0x46000000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S8192x256_S256_d0 h_S_),
    StableHlo.TRef.unary main_call6.v8 main_call6.v10 (broadcastInDim S256 ![] bcast_S_S256),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S256 ![] bcast_S_S256),
    StableHlo.TRef.ternary main_call6.v12 main_call6.v11 main_call6.call0.v1 main_call6.call0.v2 (fun p a b => select (broadcastInDim S256 ![] bcast_S_S256 p) a b) ]

abbrev p3_l2 : List (HloOp τ sig (Elt F)) :=
  [ StableHlo.unary main_v148 main_v150 (broadcastInDim S1x256 ![1] bcast_S256_S1x256_1),
    StableHlo.unary main_v150 main_v151 (broadcastInDim S8192x256 ![0, 1] bcast_S1x256_S8192x256_0_1),
    StableHlo.binary main_v145 main_v151 main_v152 subf,
    StableHlo.nullary main_cst_35 (constant S_ .f32 0x3727C5AC#32),
    StableHlo.unary main_cst_35 main_v153 (broadcastInDim S256 ![] bcast_S_S256),
    StableHlo.binary main_v149 main_v153 main_v154 addf,
    StableHlo.unary main_v154 main_v155 Host.sqrt,
    StableHlo.unary main_v155 main_v156 (broadcastInDim S1x256 ![1] bcast_S256_S1x256_1),
    StableHlo.unary main_v156 main_v157 (broadcastInDim S8192x256 ![0, 1] bcast_S1x256_S8192x256_0_1),
    StableHlo.binary main_v152 main_v157 main_v158 Host.divf,
    StableHlo.unary main_arg6 main_v159 (broadcastInDim S1x256 ![1] bcast_S256_S1x256_1),
    StableHlo.unary main_v159 main_v160 (broadcastInDim S8192x256 ![0, 1] bcast_S1x256_S8192x256_0_1),
    StableHlo.binary main_v158 main_v160 main_v161 mulf,
    StableHlo.unary main_arg7 main_v162 (broadcastInDim S1x256 ![1] bcast_S256_S1x256_1),
    StableHlo.unary main_v162 main_v163 (broadcastInDim S8192x256 ![0, 1] bcast_S1x256_S8192x256_0_1),
    StableHlo.binary main_v161 main_v163 main_v164 addf,
    StableHlo.nullary main_cst_36 (constant S_ .f32 0x00000000#32),
    StableHlo.unary main_cst_36 main_v165 (broadcastInDim S8192x256 ![] bcast_S_S8192x256),
    StableHlo.binary main_v164 main_v165 main_v166 (cmpf .oge),
    StableHlo.nullary main_cst_37 (constant S_ .f32 0x3C23D70A#32),
    StableHlo.unary main_cst_37 main_v167 (broadcastInDim S8192x256 ![] bcast_S_S8192x256),
    StableHlo.binary main_v167 main_v164 main_v168 mulf ]

abbrev p3_l3 : List (HloOp τ sig (Elt F)) :=
  [ StableHlo.TRef.ternary (.of main_v166) (.of main_v164) (.of main_v168) main_call7.v0 select ]

abbrev p3_l4 : List (HloOp τ sig (Elt F)) :=
  [ StableHlo.unary main_arg8 main_v170 ((transpose S256x64 [1, 0] · transposes_S64x256_S256x64_1_0) : (⟨S64x256, .f32⟩ : BufTy).Contents (Elt F) → (⟨S256x64, .f32⟩ : BufTy).Contents (Elt F)),
    StableHlo.binary main_v169 main_v170 main_v171 ((fun l r => Host.dotGeneral dot_S8192x256_S256x64_S8192x64_1_0_0_1_n_n none l r) : (⟨S8192x256, .f32⟩ : BufTy).Contents (Elt F) → (⟨S256x64, .f32⟩ : BufTy).Contents (Elt F) → (⟨S8192x64, .f32⟩ : BufTy).Contents (Elt F)),
    StableHlo.unary main_arg9 main_v172 (broadcastInDim S1x64 ![1] bcast_S64_S1x64_1),
    StableHlo.unary main_v172 main_v173 (broadcastInDim S8192x64 ![0, 1] bcast_S1x64_S8192x64_0_1),
    StableHlo.binary main_v171 main_v173 main_v174 addf ]

abbrev p3_l5 : List (HloOp τ sig (Elt F)) :=
  [ StableHlo.nullary main_cst_38 (constant S_ .f32 0x00000000#32),
    StableHlo.binary main_v174 main_cst_38 main_v175 ((fun x v => Host.reduceAdd x v reducesTo_S8192x64_S64_d0 h_S_) : (⟨S8192x64, .f32⟩ : BufTy).Contents (Elt F) → (⟨S_, .f32⟩ : BufTy).Contents (Elt F) → (⟨S64, .f32⟩ : BufTy).Contents (Elt F)),
    StableHlo.nullary main_cst_39 (constant S_ .f32 0x46000000#32),
    StableHlo.unary main_cst_39 main_v176 (broadcastInDim S64 ![] bcast_S_S64),
    StableHlo.binary main_v175 main_v176 main_v177 Host.divf,
    StableHlo.unary main_v177 main_v178 (broadcastInDim S1x64 ![1] bcast_S64_S1x64_1),
    StableHlo.unary main_v178 main_v179 (broadcastInDim S8192x64 ![0, 1] bcast_S1x64_S8192x64_0_1),
    StableHlo.binary main_v174 main_v179 main_v180 subf,
    StableHlo.binary main_v180 main_v180 main_v181 mulf,
    StableHlo.nullary main_cst_40 (constant S_ .f32 0x00000000#32),
    StableHlo.binary main_v181 main_cst_40 main_v182 ((fun x v => Host.reduceAdd x v reducesTo_S8192x64_S64_d0 h_S_) : (⟨S8192x64, .f32⟩ : BufTy).Contents (Elt F) → (⟨S_, .f32⟩ : BufTy).Contents (Elt F) → (⟨S64, .f32⟩ : BufTy).Contents (Elt F)),
    StableHlo.unary main_v180 main_v183 ((transpose S64x8192 [1, 0] · transposes_S8192x64_S64x8192_1_0) : (⟨S8192x64, .f32⟩ : BufTy).Contents (Elt F) → (⟨S64x8192, .f32⟩ : BufTy).Contents (Elt F)),
    StableHlo.binary main_v183 main_v180 main_v184 ((fun l r => Host.dotGeneral dot_S64x8192_S8192x64_S64x64_1_0_0_1_n_n none l r) : (⟨S64x8192, .f32⟩ : BufTy).Contents (Elt F) → (⟨S8192x64, .f32⟩ : BufTy).Contents (Elt F) → (⟨S64x64, .f32⟩ : BufTy).Contents (Elt F)),
    StableHlo.binary main_v184 main_v184 main_v185 mulf,
    StableHlo.unary main_v182 main_v186 (broadcastInDim S64x1 ![0] bcast_S64_S64x1_0),
    StableHlo.unary main_v182 main_v187 (broadcastInDim S1x64 ![1] bcast_S64_S1x64_1),
    StableHlo.unary main_v186 main_v188 (broadcastInDim S64x64 ![0, 1] bcast_S64x1_S64x64_0_1),
    StableHlo.unary main_v187 main_v189 (broadcastInDim S64x64 ![0, 1] bcast_S1x64_S64x64_0_1),
    StableHlo.binary main_v188 main_v189 main_v190 mulf,
    StableHlo.binary main_v185 main_v190 main_v191 Host.divf,
    StableHlo.nullary main_v192 (iotaInDim S64x64 32 0),
    StableHlo.nullary main_v193 (iotaInDim S64x64 32 1),
    StableHlo.nullary main_c_41 (constantI S_ 32 0#32),
    StableHlo.unary main_c_41 main_v194 (broadcastInDim S64x64 ![] bcast_S_S64x64),
    StableHlo.binary main_v192 main_v194 main_v195 addi ]

theorem main_part3_chain (c : Dev nD) : main_part3 (F := F) c = (Pipeline.chainK
  [ seq p3_l0,
    seq p3_l1,
    seq p3_l2,
    seq p3_l3,
    seq p3_l4 ]
  (seq p3_l5) : Prog (TpuEff nD τ sig (Elt F) (Pipeline.Sig Λ₀ (Fin 0) fun p => (pcfgs (F := F) p).Adm) .tc) PUnit) := by
  chain_rfl

end Cert.ReferenceIdeal.Ops

end
-- ==== Proof.ROps4.lean ====
import proofs.«120299_j54631984005498_1_alg».proof.Proof.Gen.ReferenceIdeal
import Idealize.ShloMosaic.Lib.StableHlo.Run
import Idealize.ShloMosaic.Lib.Pipeline.Regions
import Idealize.ShloMosaic.Lib.Tactic

set_option maxRecDepth 16384

noncomputable section

namespace Cert.ReferenceIdeal.Ops

open Cert.ReferenceIdeal Cert.ReferenceIdeal.Gen Idealize.ShloMosaic Idealize.ShloMosaic.TcCoe Idealize.SL.Sem Idealize.ShloMosaic.StableHlo Idealize.ShloMosaic.Tactic

variable {F : FTy → Type} [FloatOps F]

abbrev p4_l0 : List (HloOp τ sig (Elt F)) :=
  [ StableHlo.binary main_v195 main_v193 main_v196 (cmpi .eq),
    StableHlo.unary main_v196 main_v197 (uitofp .f32),
    StableHlo.nullary main_cst_42 (constant S_ .f32 0x3F800000#32),
    StableHlo.unary main_cst_42 main_v198 (broadcastInDim S64x64 ![] bcast_S_S64x64),
    StableHlo.binary main_v198 main_v197 main_v199 subf,
    StableHlo.binary main_v191 main_v199 main_v200 mulf,
    StableHlo.nullary main_cst_43 (constant S_ .f32 0x00000000#32),
    StableHlo.binary main_v200 main_cst_43 main_v201 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    StableHlo.nullary main_cst_44 (constant S_ .f32 0x42780000#32),
    StableHlo.binary main_cst_44 main_v201 main_v202 mulf,
    StableHlo.unary main_v182 main_v203 (broadcastInDim S64x1 ![0] bcast_S64_S64x1_0),
    StableHlo.unary main_v203 main_v204 (broadcastInDim S64x64 ![0, 1] bcast_S64x1_S64x64_0_1),
    StableHlo.binary main_v184 main_v204 main_v205 Host.divf,
    StableHlo.unary main_v177 main_v206 (broadcastInDim S1x64 ![1] bcast_S64_S1x64_1),
    StableHlo.unary main_v177 main_v207 (broadcastInDim S64x1 ![0] bcast_S64_S64x1_0),
    StableHlo.unary main_v207 main_v208 (broadcastInDim S64x64 ![0, 1] bcast_S64x1_S64x64_0_1),
    StableHlo.binary main_v205 main_v208 main_v209 mulf,
    StableHlo.unary main_v206 main_v210 (broadcastInDim S64x64 ![0, 1] bcast_S1x64_S64x64_0_1),
    StableHlo.binary main_v210 main_v209 main_v211 subf ]

abbrev p4_l1 : List (HloOp τ sig (Elt F)) :=
  [ StableHlo.unary main_v174 main_v212 (broadcastInDim S1x8192x64 ![1, 2] bcast_S8192x64_S1x8192x64_1_2),
    StableHlo.unary main_v174 main_v213 ((transpose S64x8192 [1, 0] · transposes_S8192x64_S64x8192_1_0) : (⟨S8192x64, .f32⟩ : BufTy).Contents (Elt F) → (⟨S64x8192, .f32⟩ : BufTy).Contents (Elt F)),
    StableHlo.unary main_v213 main_v214 (broadcastInDim S64x8192x1 ![0, 1] bcast_S64x8192_S64x8192x1_0_1),
    StableHlo.unary main_v205 main_v215 (broadcastInDim S64x1x64 ![0, 2] bcast_S64x64_S64x1x64_0_2),
    StableHlo.unary main_v214 main_v216 (broadcastInDim S64x8192x64 ![0, 1, 2] bcast_S64x8192x1_S64x8192x64_0_1_2),
    StableHlo.unary main_v215 main_v217 (broadcastInDim S64x8192x64 ![0, 1, 2] bcast_S64x1x64_S64x8192x64_0_1_2),
    StableHlo.binary main_v216 main_v217 main_v218 mulf,
    StableHlo.unary main_v211 main_v219 (broadcastInDim S64x1x64 ![0, 2] bcast_S64x64_S64x1x64_0_2),
    StableHlo.unary main_v219 main_v220 (broadcastInDim S64x8192x64 ![0, 1, 2] bcast_S64x1x64_S64x8192x64_0_1_2),
    StableHlo.binary main_v218 main_v220 main_v221 addf,
    StableHlo.unary main_v212 main_v222 (broadcastInDim S64x8192x64 ![0, 1, 2] bcast_S1x8192x64_S64x8192x64_0_1_2),
    StableHlo.binary main_v222 main_v221 main_v223 subf,
    StableHlo.nullary main_cst_45 (constant S_ .f32 0x00000000#32),
    StableHlo.binary main_v223 main_cst_45 main_v224 ((fun x v => Host.reduceAdd x v reducesTo_S64x8192x64_S64x64_d1 h_S_) : (⟨S64x8192x64, .f32⟩ : BufTy).Contents (Elt F) → (⟨S_, .f32⟩ : BufTy).Contents (Elt F) → (⟨S64x64, .f32⟩ : BufTy).Contents (Elt F)),
    StableHlo.unary main_v224 main_v225 (broadcastInDim S64x1x64 ![0, 2] bcast_S64x64_S64x1x64_0_2),
    StableHlo.nullary main_cst_46 (constant S_ .f32 0x46000000#32),
    StableHlo.unary main_cst_46 main_v226 (broadcastInDim S64x1x64 ![] bcast_S_S64x1x64),
    StableHlo.binary main_v225 main_v226 main_v227 Host.divf,
    StableHlo.unary main_v227 main_v228 (broadcastInDim S64x8192x64 ![0, 1, 2] bcast_S64x1x64_S64x8192x64_0_1_2),
    StableHlo.binary main_v223 main_v228 main_v229 subf,
    StableHlo.binary main_v229 main_v229 main_v230 ((fun l r => Host.dotGeneral dot_S64x8192x64_S64x8192x64_S64x64x64_1_1_2_2_0_0 none l r) : (⟨S64x8192x64, .f32⟩ : BufTy).Contents (Elt F) → (⟨S64x8192x64, .f32⟩ : BufTy).Contents (Elt F) → (⟨S64x64x64, .f32⟩ : BufTy).Contents (Elt F)),
    StableHlo.nullary main_v231 (iotaInDim S64x64 32 0),
    StableHlo.nullary main_v232 (iotaInDim S64x64 32 1),
    StableHlo.binary main_v231 main_v232 main_v233 (cmpi .eq),
    StableHlo.unary main_v233 main_v234 (broadcastInDim S64x64x64 ![1, 2] bcast_S64x64_S64x64x64_1_2),
    StableHlo.nullary main_cst_47 (constant S_ .f32 0x00000000#32),
    StableHlo.unary main_cst_47 main_v235 (broadcastInDim S64x64x64 ![] bcast_S_S64x64x64),
    StableHlo.ternary main_v234 main_v230 main_v235 main_v236 select,
    StableHlo.nullary main_cst_48 (constant S_ .f32 0x00000000#32),
    StableHlo.binary main_v236 main_cst_48 main_v237 ((fun x v => Host.reduceAdd x v reducesTo_S64x64x64_S64x64_d1 h_S_) : (⟨S64x64x64, .f32⟩ : BufTy).Contents (Elt F) → (⟨S_, .f32⟩ : BufTy).Contents (Elt F) → (⟨S64x64, .f32⟩ : BufTy).Contents (Elt F)),
    StableHlo.unary main_v237 main_v238 (broadcastInDim S64x64x1 ![0, 1] bcast_S64x64_S64x64x1_0_1),
    StableHlo.unary main_v237 main_v239 (broadcastInDim S64x1x64 ![0, 2] bcast_S64x64_S64x1x64_0_2),
    StableHlo.unary main_v238 main_v240 (broadcastInDim S64x64x64 ![0, 1, 2] bcast_S64x64x1_S64x64x64_0_1_2),
    StableHlo.unary main_v239 main_v241 (broadcastInDim S64x64x64 ![0, 1, 2] bcast_S64x1x64_S64x64x64_0_1_2),
    StableHlo.binary main_v240 main_v241 main_v242 mulf,
    StableHlo.nullary main_v243 (iotaInDim S64 32 0),
    StableHlo.unary main_v243 main_v244 (broadcastInDim S1x64x1 ![1] bcast_S64_S1x64x1_1),
    StableHlo.unary main_v243 main_v245 (broadcastInDim S64x1x1 ![0] bcast_S64_S64x1x1_0),
    StableHlo.unary main_v244 main_v246 (broadcastInDim S64x64x1 ![0, 1, 2] bcast_S1x64x1_S64x64x1_0_1_2),
    StableHlo.unary main_v245 main_v247 (broadcastInDim S64x64x1 ![0, 1, 2] bcast_S64x1x1_S64x64x1_0_1_2),
    StableHlo.binary main_v246 main_v247 main_v248 (cmpi .ne) ]

theorem main_part4_chain (c : Dev nD) : main_part4 (F := F) c = (Pipeline.chainK
  [ seq p4_l0 ]
  (seq p4_l1) : Prog (TpuEff nD τ sig (Elt F) (Pipeline.Sig Λ₀ (Fin 0) fun p => (pcfgs (F := F) p).Adm) .tc) PUnit) := by
  chain_rfl

end Cert.ReferenceIdeal.Ops

end
-- ==== Proof.ROps5.lean ====
import proofs.«120299_j54631984005498_1_alg».proof.Proof.Gen.ReferenceIdeal
import Idealize.ShloMosaic.Lib.StableHlo.Run
import Idealize.ShloMosaic.Lib.Pipeline.Regions
import Idealize.ShloMosaic.Lib.Tactic

set_option maxRecDepth 16384

noncomputable section

namespace Cert.ReferenceIdeal.Ops

open Cert.ReferenceIdeal Cert.ReferenceIdeal.Gen Idealize.ShloMosaic Idealize.ShloMosaic.TcCoe Idealize.SL.Sem Idealize.ShloMosaic.StableHlo Idealize.ShloMosaic.Tactic

variable {F : FTy → Type} [FloatOps F]

abbrev p5_l0 : List (HloOp τ sig (Elt F)) :=
  [ StableHlo.unary main_v243 main_v249 (broadcastInDim S1x1x64 ![2] bcast_S64_S1x1x64_2),
    StableHlo.unary main_v243 main_v250 (broadcastInDim S64x1x1 ![0] bcast_S64_S64x1x1_0),
    StableHlo.unary main_v249 main_v251 (broadcastInDim S64x1x64 ![0, 1, 2] bcast_S1x1x64_S64x1x64_0_1_2),
    StableHlo.unary main_v250 main_v252 (broadcastInDim S64x1x64 ![0, 1, 2] bcast_S64x1x1_S64x1x64_0_1_2),
    StableHlo.binary main_v251 main_v252 main_v253 (cmpi .ne),
    StableHlo.unary main_v248 main_v254 (broadcastInDim S64x64x64 ![0, 1, 2] bcast_S64x64x1_S64x64x64_0_1_2),
    StableHlo.unary main_v253 main_v255 (broadcastInDim S64x64x64 ![0, 1, 2] bcast_S64x1x64_S64x64x64_0_1_2),
    StableHlo.binary main_v254 main_v255 main_v256 andi,
    StableHlo.unary main_v243 main_v257 (broadcastInDim S1x64x1 ![1] bcast_S64_S1x64x1_1),
    StableHlo.unary main_v243 main_v258 (broadcastInDim S1x1x64 ![2] bcast_S64_S1x1x64_2),
    StableHlo.unary main_v257 main_v259 (broadcastInDim S1x64x64 ![0, 1, 2] bcast_S1x64x1_S1x64x64_0_1_2),
    StableHlo.unary main_v258 main_v260 (broadcastInDim S1x64x64 ![0, 1, 2] bcast_S1x1x64_S1x64x64_0_1_2),
    StableHlo.binary main_v259 main_v260 main_v261 (cmpi .ne),
    StableHlo.unary main_v261 main_v262 (broadcastInDim S64x64x64 ![0, 1, 2] bcast_S1x64x64_S64x64x64_0_1_2),
    StableHlo.binary main_v256 main_v262 main_v263 andi,
    StableHlo.binary main_v230 main_v230 main_v264 mulf,
    StableHlo.nullary main_cst_49 (constant S_ .f32 0x3F800000#32) ]

abbrev p5_l1 : List (HloOp τ sig (Elt F)) :=
  [ StableHlo.TRef.unary (.of main_cst_49) main_call8.v0 id,
    StableHlo.TRef.unary main_call8.v0 main_call8.v1 (broadcastInDim S64x64x64 ![] bcast_S_S64x64x64),
    StableHlo.TRef.ternary (.of main_v263) (.of main_v242) main_call8.v1 main_call8.v2 select ]

abbrev p5_l2 : List (HloOp τ sig (Elt F)) :=
  [ StableHlo.binary main_v264 main_v265 main_v266 Host.divf,
    StableHlo.nullary main_cst_50 (constant S_ .f32 0x00000000#32) ]

abbrev p5_l3 : List (HloOp τ sig (Elt F)) :=
  [ StableHlo.TRef.unary (.of main_cst_50) main_call9.v0 id,
    StableHlo.TRef.unary main_call9.v0 main_call9.v1 (broadcastInDim S64x64x64 ![] bcast_S_S64x64x64),
    StableHlo.TRef.ternary (.of main_v263) (.of main_v266) main_call9.v1 main_call9.v2 select ]

abbrev p5_l4 : List (HloOp τ sig (Elt F)) :=
  [ StableHlo.unary main_v16 main_v268 ((transpose S64x64 [1, 0] · transposes_S64x64_S64x64_1_0) : (⟨S64x64, .f32⟩ : BufTy).Contents (Elt F) → (⟨S64x64, .f32⟩ : BufTy).Contents (Elt F)),
    StableHlo.binary main_v268 main_v16 main_v269 addf,
    StableHlo.unary main_v269 main_v270 (broadcastInDim S64x64x1 ![0, 1] bcast_S64x64_S64x64x1_0_1),
    StableHlo.unary main_v16 main_v271 (broadcastInDim S64x1x64 ![0, 2] bcast_S64x64_S64x1x64_0_2),
    StableHlo.unary main_v270 main_v272 (broadcastInDim S64x64x64 ![0, 1, 2] bcast_S64x64x1_S64x64x64_0_1_2),
    StableHlo.unary main_v271 main_v273 (broadcastInDim S64x64x64 ![0, 1, 2] bcast_S64x1x64_S64x64x64_0_1_2),
    StableHlo.binary main_v272 main_v273 main_v274 mulf,
    StableHlo.binary main_v274 main_v267 main_v275 mulf,
    StableHlo.nullary main_cst_51 (constant S_ .f32 0x00000000#32),
    StableHlo.binary main_v275 main_cst_51 main_v276 ((fun x v => Host.reduceAdd x v reducesTo_S64x64x64_S_d0_1_2 h_S_) : (⟨S64x64x64, .f32⟩ : BufTy).Contents (Elt F) → (⟨S_, .f32⟩ : BufTy).Contents (Elt F) → (⟨S_, .f32⟩ : BufTy).Contents (Elt F)),
    StableHlo.binary main_v276 main_v202 main_v277 addf,
    StableHlo.binary main_v55 main_v112 main_v278 addf,
    StableHlo.binary main_v20 main_v278 main_v279 addf,
    StableHlo.binary main_v279 main_v277 main_v280 addf ]

theorem main_part5_chain (c : Dev nD) : main_part5 (F := F) c = (Pipeline.chainK
  [ seq p5_l0,
    seq p5_l1,
    seq p5_l2,
    seq p5_l3 ]
  (seq p5_l4) : Prog (TpuEff nD τ sig (Elt F) (Pipeline.Sig Λ₀ (Fin 0) fun p => (pcfgs (F := F) p).Adm) .tc) PUnit) := by
  chain_rfl

end Cert.ReferenceIdeal.Ops

end
-- ==== Proof.RRun.lean ====
import proofs.«120299_j54631984005498_1_alg».proof.Proof.ROps0
import proofs.«120299_j54631984005498_1_alg».proof.Proof.ROps1
import proofs.«120299_j54631984005498_1_alg».proof.Proof.ROps2
import proofs.«120299_j54631984005498_1_alg».proof.Proof.ROps3
import proofs.«120299_j54631984005498_1_alg».proof.Proof.ROps4
import proofs.«120299_j54631984005498_1_alg».proof.Proof.ROps5

set_option maxRecDepth 16384

noncomputable section

namespace Cert.ReferenceIdeal.RRun

open Cert.ReferenceIdeal Cert.ReferenceIdeal.Gen Cert.ReferenceIdeal.Ops
open Idealize.ShloMosaic Idealize.ShloMosaic.TcCoe Idealize.SL.Sem Idealize.ShloMosaic.StableHlo

variable {F : FTy → Type} [FloatOps F]

abbrev stA : List (HloOp τ sig (Elt F)) := p0_l0
abbrev stB : List (HloOp τ sig (Elt F)) := p0_l1 ++ (p0_l2 ++ (p0_l3 ++ (p0_l4 ++ (p0_l5 ++ p1_l0))))
abbrev stC : List (HloOp τ sig (Elt F)) := p1_l1 ++ (p1_l2 ++ (p1_l3 ++ (p1_l4 ++ p1_l5)))
abbrev stD : List (HloOp τ sig (Elt F)) := p1_l6
abbrev stE : List (HloOp τ sig (Elt F)) := p1_l7 ++ p2_l0
abbrev stF : List (HloOp τ sig (Elt F)) := p2_l1 ++ (p2_l2 ++ (p2_l3 ++ (p2_l4 ++ p2_l5)))
abbrev stG : List (HloOp τ sig (Elt F)) := p2_l6 ++ (p3_l0 ++ (p3_l1 ++ (p3_l2 ++ (p3_l3 ++ p3_l4))))
abbrev stH : List (HloOp τ sig (Elt F)) := p3_l5 ++ p4_l0
abbrev stI : List (HloOp τ sig (Elt F)) := p4_l1 ++ (p5_l0 ++ (p5_l1 ++ (p5_l2 ++ (p5_l3 ++ p5_l4))))

abbrev ops : List (HloOp τ sig (Elt F)) :=
  stA ++ (stB ++ (stC ++ (stD ++ (stE ++ (stF ++ (stG ++ (stH ++ stI)))))))

abbrev VA (V : Valuation τ sig (Elt F)) : Valuation τ sig (Elt F) := after stA V
abbrev VB (V : Valuation τ sig (Elt F)) : Valuation τ sig (Elt F) := after stB (VA V)
abbrev VC (V : Valuation τ sig (Elt F)) : Valuation τ sig (Elt F) := after stC (VB V)
abbrev VD (V : Valuation τ sig (Elt F)) : Valuation τ sig (Elt F) := after stD (VC V)
abbrev VE (V : Valuation τ sig (Elt F)) : Valuation τ sig (Elt F) := after stE (VD V)
abbrev VF (V : Valuation τ sig (Elt F)) : Valuation τ sig (Elt F) := after stF (VE V)
abbrev VG (V : Valuation τ sig (Elt F)) : Valuation τ sig (Elt F) := after stG (VF V)
abbrev VH (V : Valuation τ sig (Elt F)) : Valuation τ sig (Elt F) := after stH (VG V)
abbrev VI (V : Valuation τ sig (Elt F)) : Valuation τ sig (Elt F) := after stI (VH V)

theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem after_ops (V : Valuation τ sig (Elt F)) : after ops V = VI V := by
  simp only [ops, VI, VH, VG, VF, VE, VD, VC, VB, VA, stA, stB, stC, stD, stE, stF, stG, stH, stI, after_append]

end Cert.ReferenceIdeal.RRun

end
-- ==== Proof.RLine.lean ====
import proofs.«120299_j54631984005498_1_alg».proof.Proof.RRun

set_option maxRecDepth 16384

noncomputable section

namespace Cert.ReferenceIdeal.RRun

open Cert.ReferenceIdeal Cert.ReferenceIdeal.Gen Cert.ReferenceIdeal.Ops
open Idealize.ShloMosaic Idealize.ShloMosaic.TcCoe Idealize.SL.Sem Idealize.ShloMosaic.StableHlo

variable {F : FTy → Type} [FloatOps F]

/-- A line is plain when each operation names buffers of the one processor only and determines what it writes. -/
def PlainLine (l : List (HloOp τ sig (Elt F))) : Prop :=
  l.Forall fun op => op.bufs ⊆ tcRefs τ sig ∧ op.fresh = ∅

theorem PlainLine.append {l₁ l₂ : List (HloOp τ sig (Elt F))} (h₁ : PlainLine l₁) (h₂ : PlainLine l₂) :
    PlainLine (l₁ ++ l₂) :=
  List.forall_append.mpr ⟨h₁, h₂⟩

/-- `Writes l W`: each operation of `l` writes exactly one buffer, and `W` lists those buffers in order. -/
inductive Writes : List (HloOp τ sig (Elt F)) → List (Ref sig .tc) → Prop
  | nil : Writes [] []
  | cons {op : HloOp τ sig (Elt F)} {l : List (HloOp τ sig (Elt F))} {y : Ref sig .tc} {W : List (Ref sig .tc)} :
      op.writes = {Proc.devRef .tc y} → Writes l W → Writes (op :: l) (y :: W)

/-- A buffer a line does not write holds after the line what it held before. -/
theorem Writes.keep {l : List (HloOp τ sig (Elt F))} {W : List (Ref sig .tc)} (h : Writes l W)
    {r : Ref sig .tc} (hr : r ∉ W) (V : Valuation τ sig (Elt F)) :
    after l V (Proc.devRef .tc r) = V (Proc.devRef .tc r) := by
  induction h generalizing V with
  | nil => rfl
  | @cons op l y W hw _ ih =>
    have hn : (Proc.devRef .tc r : DevRef τ sig) ∉ op.writes := by
      rw [hw, Finset.mem_singleton]; exact devRef_ne_of_ne fun e => hr (e ▸ List.mem_cons_self)
    rw [after_cons, ih (fun hm => hr (List.mem_cons_of_mem _ hm)), op.result_of_not_mem V hn]

macro "read_writes" : tactic =>
  `(tactic| repeat (first | exact Writes.nil | (apply Writes.cons; exact rfl)))

end Cert.ReferenceIdeal.RRun

end
-- ==== Proof.RRunMain.lean ====
import proofs.«120299_j54631984005498_1_alg».proof.Proof.RLine

set_option maxRecDepth 16384

noncomputable section

namespace Cert.ReferenceIdeal.RRun

open Cert.ReferenceIdeal Cert.ReferenceIdeal.Gen Cert.ReferenceIdeal.Ops
open Idealize.ShloMosaic Idealize.ShloMosaic.TcCoe Idealize.SL.Sem Idealize.ShloMosaic.StableHlo

variable {F : FTy → Type} [FloatOps F]

/-- @main is its operations run in order, however the concatenation is bracketed. -/
theorem main_eq (c : Dev nD) : main (F := F) c = seq (ops (F := F)) := by
  show (main_part0 (F := F) c >>= fun _ => main_part1 (F := F) c >>= fun _ => main_part2 (F := F) c >>= fun _ =>
    main_part3 (F := F) c >>= fun _ => main_part4 (F := F) c >>= fun _ => main_part5 (F := F) c) = _
  rewrite [main_part0_chain, main_part1_chain, main_part2_chain, main_part3_chain, main_part4_chain, main_part5_chain]
  simp only [ops, stA, stB, stC, stD, stE, stF, stG, stH, stI, Pipeline.chainK, seq_append, bind_assoc]

/-- Every operation of @main is one of four builders, each of which touches named buffers only and determines what it writes. -/
theorem ops_plain : PlainLine (ops : List (HloOp τ sig (Elt F))) := by
  repeat' apply PlainLine.append
  all_goals
    simp only [PlainLine, List.Forall, nullary_bufs_sub, unary_bufs_sub, binary_bufs_sub, ternary_bufs_sub, true_and]
    repeat' apply And.intro
    all_goals rfl

theorem scopedRefs_eq : (Finset.univ.filter fun b : Ref sig .tc => b.isScoped) = ∅ := by decide
theorem scopedSems_eq : (Finset.univ.filter fun sm : SemLoc sig => sm.isScoped .tc) = ∅ := by decide

/-- Every weakly fair execution of @main terminates with each buffer at what the last stage leaves from the launch contents. -/
theorem run_main (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = VI (launchContents m c) (Proc.devRef .tc b) :=
  (θ_run defs _ _).mono (fun _ h c b => (h c b).trans (congrFun (after_ops (launchContents m c)) (Proc.devRef .tc b)))
    (run_seq scopedRefs_eq scopedSems_eq defs main (fun _ => ops) main_eq (fun _ => ops_plain.imp fun _ h => h.1) m ρ
      (fun _ op h => (List.forall_iff_forall_mem.mp ops_plain op h).2))

end Cert.ReferenceIdeal.RRun

end
-- ==== Proof.RCarry.lean ====
import proofs.«120299_j54631984005498_1_alg».proof.Proof.RLine
import Idealize.ShloMosaic.PureOps.Ideal

set_option maxRecDepth 16384

noncomputable section

namespace Cert.ReferenceIdeal.RRun

open Cert.ReferenceIdeal Cert.ReferenceIdeal.Gen Cert.ReferenceIdeal.Ops
open Idealize.ShloMosaic Idealize.ShloMosaic.TcCoe Idealize.SL.Sem Idealize.ShloMosaic.StableHlo

variable {F : FTy → Type} [FloatOps F]

variable (V : Valuation τ sig (Elt F))

abbrev stA_W : List (Ref sig .tc) := (⟨_, by read_writes⟩ : {W // Writes (stA (F := Ideal)) W}).1
theorem keepA {r : Ref sig .tc} (h : r ∉ stA_W) (W : Valuation τ sig (Elt F)) :
    after stA W (Proc.devRef .tc r) = W (Proc.devRef .tc r) := (show Writes stA stA_W by read_writes).keep h W

abbrev stB_W : List (Ref sig .tc) := (⟨_, by read_writes⟩ : {W // Writes (stB (F := Ideal)) W}).1
theorem keepB {r : Ref sig .tc} (h : r ∉ stB_W) (W : Valuation τ sig (Elt F)) :
    after stB W (Proc.devRef .tc r) = W (Proc.devRef .tc r) := (show Writes stB stB_W by read_writes).keep h W

abbrev stC_W : List (Ref sig .tc) := (⟨_, by read_writes⟩ : {W // Writes (stC (F := Ideal)) W}).1
theorem keepC {r : Ref sig .tc} (h : r ∉ stC_W) (W : Valuation τ sig (Elt F)) :
    after stC W (Proc.devRef .tc r) = W (Proc.devRef .tc r) := (show Writes stC stC_W by read_writes).keep h W

abbrev stD_W : List (Ref sig .tc) := (⟨_, by read_writes⟩ : {W // Writes (stD (F := Ideal)) W}).1
theorem keepD {r : Ref sig .tc} (h : r ∉ stD_W) (W : Valuation τ sig (Elt F)) :
    after stD W (Proc.devRef .tc r) = W (Proc.devRef .tc r) := (show Writes stD stD_W by read_writes).keep h W

abbrev stE_W : List (Ref sig .tc) := (⟨_, by read_writes⟩ : {W // Writes (stE (F := Ideal)) W}).1
theorem keepE {r : Ref sig .tc} (h : r ∉ stE_W) (W : Valuation τ sig (Elt F)) :
    after stE W (Proc.devRef .tc r) = W (Proc.devRef .tc r) := (show Writes stE stE_W by read_writes).keep h W

abbrev stF_W : List (Ref sig .tc) := (⟨_, by read_writes⟩ : {W // Writes (stF (F := Ideal)) W}).1
theorem keepF {r : Ref sig .tc} (h : r ∉ stF_W) (W : Valuation τ sig (Elt F)) :
    after stF W (Proc.devRef .tc r) = W (Proc.devRef .tc r) := (show Writes stF stF_W by read_writes).keep h W

abbrev stG_W : List (Ref sig .tc) := (⟨_, by read_writes⟩ : {W // Writes (stG (F := Ideal)) W}).1
theorem keepG {r : Ref sig .tc} (h : r ∉ stG_W) (W : Valuation τ sig (Elt F)) :
    after stG W (Proc.devRef .tc r) = W (Proc.devRef .tc r) := (show Writes stG stG_W by read_writes).keep h W

abbrev stH_W : List (Ref sig .tc) := (⟨_, by read_writes⟩ : {W // Writes (stH (F := Ideal)) W}).1
theorem keepH {r : Ref sig .tc} (h : r ∉ stH_W) (W : Valuation τ sig (Elt F)) :
    after stH W (Proc.devRef .tc r) = W (Proc.devRef .tc r) := (show Writes stH stH_W by read_writes).keep h W

abbrev stI_W : List (Ref sig .tc) := (⟨_, by read_writes⟩ : {W // Writes (stI (F := Ideal)) W}).1
theorem keepI {r : Ref sig .tc} (h : r ∉ stI_W) (W : Valuation τ sig (Elt F)) :
    after stI W (Proc.devRef .tc r) = W (Proc.devRef .tc r) := (show Writes stI stI_W by read_writes).keep h W

/-- A buffer no stage after its own writes holds, where it is used, what its own stage left. -/
theorem carry_v20 : VH V (Proc.devRef .tc main_v20) = VA V (Proc.devRef .tc main_v20) :=
  (keepH (by decide) _).trans <| (keepG (by decide) _).trans <| (keepF (by decide) _).trans <| (keepE (by decide) _).trans <|
  (keepD (by decide) _).trans <| (keepC (by decide) _).trans <| keepB (by decide) _

theorem carry_v16 : VH V (Proc.devRef .tc main_v16) = VA V (Proc.devRef .tc main_v16) :=
  (keepH (by decide) _).trans <| (keepG (by decide) _).trans <| (keepF (by decide) _).trans <| (keepE (by decide) _).trans <|
  (keepD (by decide) _).trans <| (keepC (by decide) _).trans <| keepB (by decide) _

theorem carry_v55 : VH V (Proc.devRef .tc main_v55) = VB V (Proc.devRef .tc main_v55) :=
  (keepH (by decide) _).trans <| (keepG (by decide) _).trans <| (keepF (by decide) _).trans <| (keepE (by decide) _).trans <|
  (keepD (by decide) _).trans <| keepC (by decide) _

theorem carry_v86 : VD V (Proc.devRef .tc main_v86) = VC V (Proc.devRef .tc main_v86) := keepD (by decide) _

theorem carry_v112 : VH V (Proc.devRef .tc main_v112) = VE V (Proc.devRef .tc main_v112) :=
  (keepH (by decide) _).trans <| (keepG (by decide) _).trans <| keepF (by decide) _

theorem carry_v174 : VH V (Proc.devRef .tc main_v174) = VG V (Proc.devRef .tc main_v174) := keepH (by decide) _

/-- No stage up to E writes `r`. -/
abbrev UnwrittenAE (r : Ref sig .tc) : Prop := r ∉ stA_W ∧ r ∉ stB_W ∧ r ∉ stC_W ∧ r ∉ stD_W ∧ r ∉ stE_W
abbrev UnwrittenAF (r : Ref sig .tc) : Prop := UnwrittenAE r ∧ r ∉ stF_W
abbrev UnwrittenAI (r : Ref sig .tc) : Prop := UnwrittenAF r ∧ r ∉ stG_W ∧ r ∉ stH_W ∧ r ∉ stI_W

theorem keepAE {r : Ref sig .tc} (h : UnwrittenAE r) : VE V (Proc.devRef .tc r) = V (Proc.devRef .tc r) :=
  (keepE h.2.2.2.2 _).trans <| (keepD h.2.2.2.1 _).trans <| (keepC h.2.2.1 _).trans <| (keepB h.2.1 _).trans <| keepA h.1 V

theorem keepAF {r : Ref sig .tc} (h : UnwrittenAF r) : VF V (Proc.devRef .tc r) = V (Proc.devRef .tc r) :=
  (keepF h.2 _).trans (keepAE V h.1)

theorem keepAI {r : Ref sig .tc} (h : UnwrittenAI r) : VI V (Proc.devRef .tc r) = V (Proc.devRef .tc r) :=
  (keepI h.2.2.2 _).trans <| (keepH h.2.2.1 _).trans <| (keepG h.2.1 _).trans (keepAF V h.1)

end Cert.ReferenceIdeal.RRun

end
-- ==== Proof.RNctBase.lean ====
import proofs.«120299_j54631984005498_1_alg».proof.Proof.RRun
import proofs.«120299_j54631984005498_1_alg».proof.Proof.Spec
import Idealize.ShloMosaic.Lib.IdealHost
import Idealize.ShloMosaic.Lib.StackMember
import Idealize.ShloMosaic.Lib.ValueLayout
import Idealize.ShloMosaic.Lib.Pipeline.Value
import Idealize.ShloMosaic.PureOps.Ideal.Laws

noncomputable section

open scoped BigOperators

namespace Cert.ReferenceIdeal.RIdx

open Idealize.ShloMosaic Idealize.ShloMosaic.StableHlo Idealize.ShloMosaic.ValueIdx

variable {s t : Shape} {α : Type}

/-- The operand index a broadcast reads at the result index `j`. -/
def bsrc {dims : Fin s.rank → Fin t.rank} (h : s.BroadcastsInDim t dims) (j : t.Idx) : s.Idx :=
  broadcastInDim t dims h id j

/-- A broadcast read at an index is its operand at coordinates: for an operand of rank one, two and three. -/
theorem bc1 {m : Nat} {dims : Fin 1 → Fin t.rank} (h : (⟨1, ![m]⟩ : Shape).BroadcastsInDim t dims)
    (x : (⟨1, ![m]⟩ : Shape).Idx → α) (j : t.Idx) : broadcastInDim t dims h x j = x (ix1 ((bsrc h j 0).cast rfl : Fin m)) :=
  congrArg x (eq_ix1 _)

theorem bc2 {m n : Nat} {dims : Fin 2 → Fin t.rank} (h : (⟨2, ![m, n]⟩ : Shape).BroadcastsInDim t dims)
    (x : (⟨2, ![m, n]⟩ : Shape).Idx → α) (j : t.Idx) :
    broadcastInDim t dims h x j = x (ix2 ((bsrc h j 0).cast rfl : Fin m) ((bsrc h j 1).cast rfl : Fin n)) :=
  congrArg x (eq_ix2 _)

theorem bc3 {l m n : Nat} {dims : Fin 3 → Fin t.rank} (h : (⟨3, ![l, m, n]⟩ : Shape).BroadcastsInDim t dims)
    (x : (⟨3, ![l, m, n]⟩ : Shape).Idx → α) (j : t.Idx) :
    broadcastInDim t dims h x j = x (ix3 ((bsrc h j 0).cast rfl : Fin l) ((bsrc h j 1).cast rfl : Fin m) ((bsrc h j 2).cast rfl : Fin n)) :=
  congrArg x (eq_ix3 _)

/-- A sum reduction over one axis from the literal zero is the sum over that axis's coordinates. -/
theorem rsum {a : Fin s.rank} (x : FVec Ideal s .f32) (h' : s.ReducesTo [a] t) (h : s.Reduces [a] t)
    (hu : 0 < (⟨0, ![]⟩ : Shape).numel) (j : t.Idx) :
    Host.reduceAdd x (constant (⟨0, ![]⟩ : Shape) .f32 0x00000000#32) h' hu j = ∑ k, x (h.lift j k) := by
  rw [hostReduceAdd_apply, Ideal.hostReduceAdd_single h' h, constant_apply, Ideal.ofBits_zero_f32, zero_add]

/-- A sum reduction over every axis from the literal zero is the sum over all indices. -/
theorem rtot {axes : List (Fin s.rank)} (x : FVec Ideal s .f32) (h' : s.ReducesTo axes (⟨0, ![]⟩ : Shape))
    (hu : 0 < (⟨0, ![]⟩ : Shape).numel) (j : (⟨0, ![]⟩ : Shape).Idx) :
    Host.reduceAdd x (constant (⟨0, ![]⟩ : Shape) .f32 0x00000000#32) h' hu j = ∑ i, x i := by
  rw [hostReduceAdd_apply, Ideal.hostReduceAdd_total h' (fun b => b.elim0), constant_apply, Ideal.ofBits_zero_f32, zero_add]

theorem rsum2 {m n : Nat} {a : Fin 2} (x : FVec Ideal ⟨2, ![m, n]⟩ .f32) (h' : (⟨2, ![m, n]⟩ : Shape).ReducesTo [a] t)
    (h : (⟨2, ![m, n]⟩ : Shape).Reduces [a] t) (hu : 0 < (⟨0, ![]⟩ : Shape).numel) (j : t.Idx) :
    Host.reduceAdd x (constant (⟨0, ![]⟩ : Shape) .f32 0x00000000#32) h' hu j
      = ∑ k, x (ix2 ((h.lift j k 0).cast rfl : Fin m) ((h.lift j k 1).cast rfl : Fin n)) :=
  (rsum x h' h hu j).trans (Finset.sum_congr rfl fun _ _ => congrArg x (eq_ix2 _))

theorem rsum3 {l m n : Nat} {a : Fin 3} (x : FVec Ideal ⟨3, ![l, m, n]⟩ .f32)
    (h' : (⟨3, ![l, m, n]⟩ : Shape).ReducesTo [a] t) (h : (⟨3, ![l, m, n]⟩ : Shape).Reduces [a] t)
    (hu : 0 < (⟨0, ![]⟩ : Shape).numel) (j : t.Idx) :
    Host.reduceAdd x (constant (⟨0, ![]⟩ : Shape) .f32 0x00000000#32) h' hu j
      = ∑ k, x (ix3 ((h.lift j k 0).cast rfl : Fin l) ((h.lift j k 1).cast rfl : Fin m) ((h.lift j k 2).cast rfl : Fin n)) :=
  (rsum x h' h hu j).trans (Finset.sum_congr rfl fun _ _ => congrArg x (eq_ix3 _))

/-- An index with the coordinates `a`, `b`, `c` is `ix3 a b c`. -/
theorem ix3_ext {l m n : Nat} {x : (⟨3, ![l, m, n]⟩ : Shape).Idx} {a : Fin l} {b : Fin m} {c : Fin n}
    (h0 : (x 0).val = a.val) (h1 : (x 1).val = b.val) (h2 : (x 2).val = c.val) : x = ix3 a b c :=
  funext fun d => match d with | ⟨0, _⟩ => Fin.ext h0 | ⟨1, _⟩ => Fin.ext h1 | ⟨2, _⟩ => Fin.ext h2

theorem ofBits_8192 : Ideal.ofBits .f32 0x46000000#32 = ((8192 : ℝ) : EReal) := by
  simp [Ideal.ofBits, Ideal.ieee, -EReal.coe_mul]; norm_num

end Cert.ReferenceIdeal.RIdx

end
-- ==== Proof.RNct.lean ====
import proofs.«120299_j54631984005498_1_alg».proof.Proof.RNctBase

noncomputable section

open scoped BigOperators

namespace Cert.ReferenceIdeal.RNct

open Cert.ReferenceIdeal Cert.ReferenceIdeal.Gen Cert.ReferenceIdeal.Ops Cert.ReferenceIdeal.RRun Cert.ReferenceIdeal.RIdx
open Idealize.ShloMosaic Idealize.ShloMosaic.TcCoe Idealize.SL.Sem Idealize.ShloMosaic.StableHlo
open Idealize.ShloMosaic.ValueIdx

def idxEquiv1 {m : Nat} : (⟨1, ![m]⟩ : Shape).Idx ≃ Fin m where
  toFun i := i 0
  invFun p := ix1 p
  left_inv i := (eq_ix1 i).symm
  right_inv _ := rfl

/-- A sum over a rank-1 index set is the sum over the coordinate. -/
theorem sum_idx1 {m : Nat} (f : (⟨1, ![m]⟩ : Shape).Idx → EReal) : ∑ i, f i = ∑ p : Fin m, f (ix1 p) :=
  (Equiv.sum_comp idxEquiv1.symm f).symm

theorem ofBits_two_f32 : Ideal.ofBits .f32 0x40000000#32 = (2 : EReal) := by
  rw [show (2 : EReal) = ((2 : ℝ) : EReal) by norm_cast]
  simp [Ideal.ofBits, Ideal.ieee, -EReal.coe_mul]; try norm_num

theorem ofBits_128_f32 : Ideal.ofBits .f32 0x43000000#32 = ((128 : ℝ) : EReal) := by
  simp [Ideal.ofBits, Ideal.ieee, -EReal.coe_mul]; try norm_num

theorem ofBits_2048_f32 : Ideal.ofBits .f32 0x45000000#32 = ((2048 : ℝ) : EReal) := by
  simp [Ideal.ofBits, Ideal.ieee, -EReal.coe_mul]; try norm_num

theorem ofBits_top_f32 : Ideal.ofBits .f32 0x7F800000#32 = (⊤ : EReal) := by
  simp [Ideal.ofBits, Ideal.ieee]

/-- A minimum along the rows of a matrix from the literal `+∞` is the least entry of the row. -/
theorem rowMin_apply {m n : Nat} (x : FVec Ideal ⟨2, ![m, n]⟩ .f32)
    (h' : (⟨2, ![m, n]⟩ : Shape).ReducesTo [1] (⟨1, ![m]⟩ : Shape)) (h : (⟨2, ![m, n]⟩ : Shape).Reduces [1] (⟨1, ![m]⟩ : Shape))
    (hu : 0 < (⟨0, ![]⟩ : Shape).numel) (j : (⟨1, ![m]⟩ : Shape).Idx) :
    Host.reduce (FloatOps.minimumf (F := Ideal) (φ := .f32)) x (constant (⟨0, ![]⟩ : Shape) .f32 0x7F800000#32) h' hu j
      = Finset.univ.inf fun s : Fin n => x (ix2 ((h.lift j s 0).cast rfl : Fin m) ((h.lift j s 1).cast rfl : Fin n)) := by
  rw [Host.reduce_eq_fold_single _ x _ h' h hu, constant_apply, ofBits_top_f32]
  exact Finset.inf_congr rfl fun k _ => congrArg x (eq_ix2 _)

/-- The product of the queries with the transposed keys at `(p, s)` is the inner product of the two rows. -/
theorem dotKeys_apply (Zp : FVec Ideal S2048x128 .f32) (Zs : FVec Ideal S16384x128 .f32)
    (h : S16384x128.Transposes [1, 0] S128x16384) (p : Fin 2048) (s : Fin 16384) :
    FloatOps.dotGeneral dot_S2048x128_S128x16384_S2048x16384_1_0_0_1_n_n none .single Zp (transpose S128x16384 [1, 0] Zs h) (ix2 p s)
      = ∑ k : Fin 128, Zp (ix2 p k) * Zs (ix2 s k) :=
  (StackMember.dotGeneral_plain_apply none Zp _ p s).trans
    (Finset.sum_congr rfl fun k _ => congrArg _ (transpose_ix2_apply Zs h k s))

theorem nct_read (W : Valuation τ sig (Elt Ideal)) :
    after (stE (F := Ideal)) W (Proc.devRef .tc main_v112) ix0
      = Cert.Spec.nctR (fun p k => W (Proc.devRef .tc main_v86) (ix2 p k)) (fun s k => W (Proc.devRef .tc main_v93) (ix2 s k)) := by
  rw [show after (stE (F := Ideal)) W = after p2_l0 (after p1_l7 W) from RRun.after_append _ _ W]
  after_results_simp
  generalize W (Proc.devRef .tc main_v86) = Zp
  generalize W (Proc.devRef .tc main_v93) = Zs
  simp (config := { index := false }) only [hostDivf_apply, subf_apply, addf_apply, mulf_apply, constant_apply,
    broadcastInDim_scalar_apply, bc1, bc2, Host.dotGeneral, dotKeys_apply, ofBits_two_f32, ofBits_128_f32, ofBits_2048_f32,
    rtot, sum_idx1, rowMin_apply _ _ (show S2048x16384.Reduces [1] S2048 by decide),
    rsum2 _ _ (show S2048x128.Reduces [1] S2048 by decide), rsum2 _ _ (show S16384x128.Reduces [1] S16384 by decide)]
  rfl

end Cert.ReferenceIdeal.RNct

end
-- ==== Proof.RGram.lean ====
import proofs.«120299_j54631984005498_1_alg».proof.Proof.RNctBase

noncomputable section

open scoped BigOperators

namespace Cert.ReferenceIdeal.RIndep

open Cert.ReferenceIdeal Cert.ReferenceIdeal.Gen Cert.ReferenceIdeal.Ops Cert.ReferenceIdeal.RRun Cert.ReferenceIdeal.RIdx
open Idealize.ShloMosaic Idealize.ShloMosaic.TcCoe Idealize.SL.Sem Idealize.ShloMosaic.StableHlo
open Idealize.ShloMosaic.ValueIdx

/-- The residual of every column on the conditioning column, as one tensor over (j, n, i). -/
def residT (x : FVec Ideal S8192x64 .f32) (a b : FVec Ideal S64x64 .f32) : FVec Ideal S64x8192x64 .f32 :=
  subf (broadcastInDim S64x8192x64 ![0, 1, 2] bcast_S1x8192x64_S64x8192x64_0_1_2
        (broadcastInDim S1x8192x64 ![1, 2] bcast_S8192x64_S1x8192x64_1_2 x))
    (addf
      (mulf
        (broadcastInDim S64x8192x64 ![0, 1, 2] bcast_S64x8192x1_S64x8192x64_0_1_2
          (broadcastInDim S64x8192x1 ![0, 1] bcast_S64x8192_S64x8192x1_0_1
            (transpose S64x8192 [1, 0] x transposes_S8192x64_S64x8192_1_0)))
        (broadcastInDim S64x8192x64 ![0, 1, 2] bcast_S64x1x64_S64x8192x64_0_1_2
          (broadcastInDim S64x1x64 ![0, 2] bcast_S64x64_S64x1x64_0_2 a)))
      (broadcastInDim S64x8192x64 ![0, 1, 2] bcast_S64x1x64_S64x8192x64_0_1_2
        (broadcastInDim S64x1x64 ![0, 2] bcast_S64x64_S64x1x64_0_2 b)))

/-- A tensor over (j, n, i) with its mean over the samples n taken off. -/
def centreT (r : FVec Ideal S64x8192x64 .f32) : FVec Ideal S64x8192x64 .f32 :=
  subf r (broadcastInDim S64x8192x64 ![0, 1, 2] bcast_S64x1x64_S64x8192x64_0_1_2
    (Host.divf
      (broadcastInDim S64x1x64 ![0, 2] bcast_S64x64_S64x1x64_0_2
        (Host.reduceAdd r (constant S_ .f32 0x00000000#32) reducesTo_S64x8192x64_S64x64_d1 h_S_))
      (broadcastInDim S64x1x64 ![] bcast_S_S64x1x64 (constant S_ .f32 0x46000000#32))))

/-- For each j, the products of the columns of a tensor summed over the samples. -/
def gramT (c : FVec Ideal S64x8192x64 .f32) : FVec Ideal S64x64x64 .f32 :=
  Host.dotGeneral dot_S64x8192x64_S64x8192x64_S64x64x64_1_1_2_2_0_0 none c c

theorem residT_apply (x : FVec Ideal S8192x64 .f32) (a b : FVec Ideal S64x64 .f32) (j : Fin 64) (n : Fin 8192) (i : Fin 64) :
    residT x a b (ix3 j n i)
      = Cert.Spec.resR (fun n i => x (ix2 n i)) (fun j i => a (ix2 j i)) (fun j i => b (ix2 j i)) j n i := by
  unfold residT
  simp (config := { index := false }) only [subf_apply, addf_apply, mulf_apply, bc2, bc3, transpose_ix2_apply]
  rfl

theorem centreT_apply (r : FVec Ideal S64x8192x64 .f32) (j : Fin 64) (n : Fin 8192) (i : Fin 64) :
    centreT r (ix3 j n i) = Cert.Spec.center (fun n i => r (ix3 j n i)) n i := by
  unfold centreT
  simp (config := { index := false }) only [subf_apply, hostDivf_apply, bc2, bc3, broadcastInDim_scalar_apply,
    constant_apply, ofBits_8192, rsum3 _ _ (show S64x8192x64.Reduces [1] S64x64 by decide)]
  rfl

/-- The contraction runs over the sample axis of both operands; the other two axes are the result's. -/
theorem gramT_apply (c : FVec Ideal S64x8192x64 .f32) (j i k : Fin 64) :
    gramT c (ix3 j i k) = Cert.Spec.gram (fun n i => c (ix3 j n i)) i k := by
  let D := dot_S64x8192x64_S64x8192x64_S64x64x64_1_1_2_2_0_0
  show FloatOps.dotGeneral D none _ c c _ = _
  rw [Ideal.dotGeneral_apply, ← Equiv.sum_comp (contrEquiv1 D 8192 rfl rfl).symm]
  refine Finset.sum_congr rfl fun n _ => ?_
  have hn := contrEquiv1_symm_val D 8192 rfl rfl n
  rw [ix3_ext (x := D.lhsIdx _ _) rfl ((D.lhsIdx_val_of_single rfl _ _).trans hn) rfl,
    ix3_ext (x := D.rhsIdx _ _) rfl ((D.rhsIdx_val_of_single rfl _ _).trans hn) rfl]
  rfl

theorem gramT_spec (x : FVec Ideal S8192x64 .f32) (a b : FVec Ideal S64x64 .f32) (j i k : Fin 64) :
    gramT (centreT (residT x a b)) (ix3 j i k)
      = Cert.Spec.gram (Cert.Spec.center
          (Cert.Spec.resR (fun n i => x (ix2 n i)) (fun j i => a (ix2 j i)) (fun j i => b (ix2 j i)) j)) i k := by
  simp only [gramT_apply, centreT_apply, residT_apply]

end Cert.ReferenceIdeal.RIndep

end
-- ==== Proof.RIndep.lean ====
import proofs.«120299_j54631984005498_1_alg».proof.Proof.RNctBase
import proofs.«120299_j54631984005498_1_alg».proof.Proof.RGram
import Idealize.ShloMosaic.Lib.Affine

noncomputable section

open scoped BigOperators

namespace Cert.ReferenceIdeal.RIndep

open Cert.ReferenceIdeal Cert.ReferenceIdeal.Gen Cert.ReferenceIdeal.Ops Cert.ReferenceIdeal.RRun Cert.ReferenceIdeal.RIdx
open Idealize.ShloMosaic Idealize.ShloMosaic.TcCoe Idealize.SL.Sem Idealize.ShloMosaic.StableHlo
open Idealize.ShloMosaic.ValueIdx
open Cert.Spec

theorem cmpi_at {s : Shape} {w : Nat} (p : CmpIPredicate) (x y : IVec s w) (i : s.Idx) :
    cmpi p x y i = IntOp.cmpi p (x i) (y i) := rfl
theorem andi_at {s : Shape} {w : Nat} (x y : IVec s w) (i : s.Idx) : andi x y i = IntOp.andi (x i) (y i) := rfl

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {n0 n1 n2 : Nat} (f : (⟨3, ![n0, n1, n2]⟩ : Shape).Idx → EReal) :
    ∑ i, f i = ∑ a : Fin n0, ∑ b : Fin n1, ∑ c : Fin n2, f (ix3 a b c) := by
  rw [← Equiv.sum_comp idxEquiv3.symm f, Fintype.sum_prod_type]
  exact Finset.sum_congr rfl fun a _ => Fintype.sum_prod_type _

/-- Two coordinates below 64 are the same 32-bit word only if they are the same coordinate. -/
theorem word_eq_iff (a b : Fin 64) : BitVec.ofNat 32 a.val = BitVec.ofNat 32 b.val ↔ a = b := by
  refine ⟨fun h => Fin.ext ?_, fun h => h ▸ rfl⟩
  have e := congrArg BitVec.toNat h
  simp only [BitVec.toNat_ofNat] at e
  omega

def maskV : IVec S64x64x64 1 :=
  andi
    (andi
      (broadcastInDim S64x64x64 ![0, 1, 2] bcast_S64x64x1_S64x64x64_0_1_2
        (cmpi .ne
          (broadcastInDim S64x64x1 ![0, 1, 2] bcast_S1x64x1_S64x64x1_0_1_2
            (broadcastInDim S1x64x1 ![1] bcast_S64_S1x64x1_1 (iotaInDim S64 32 0)))
          (broadcastInDim S64x64x1 ![0, 1, 2] bcast_S64x1x1_S64x64x1_0_1_2
            (broadcastInDim S64x1x1 ![0] bcast_S64_S64x1x1_0 (iotaInDim S64 32 0)))))
      (broadcastInDim S64x64x64 ![0, 1, 2] bcast_S64x1x64_S64x64x64_0_1_2
        (cmpi .ne
          (broadcastInDim S64x1x64 ![0, 1, 2] bcast_S1x1x64_S64x1x64_0_1_2
            (broadcastInDim S1x1x64 ![2] bcast_S64_S1x1x64_2 (iotaInDim S64 32 0)))
          (broadcastInDim S64x1x64 ![0, 1, 2] bcast_S64x1x1_S64x1x64_0_1_2
            (broadcastInDim S64x1x1 ![0] bcast_S64_S64x1x1_0 (iotaInDim S64 32 0))))))
    (broadcastInDim S64x64x64 ![0, 1, 2] bcast_S1x64x64_S64x64x64_0_1_2
      (cmpi .ne
        (broadcastInDim S1x64x64 ![0, 1, 2] bcast_S1x64x1_S1x64x64_0_1_2
          (broadcastInDim S1x64x1 ![1] bcast_S64_S1x64x1_1 (iotaInDim S64 32 0)))
        (broadcastInDim S1x64x64 ![0, 1, 2] bcast_S1x1x64_S1x64x64_0_1_2
          (broadcastInDim S1x1x64 ![2] bcast_S64_S1x1x64_2 (iotaInDim S64 32 0)))))

def diagV (G : FVec Ideal S64x64x64 .f32) : FVec Ideal S64x64 .f32 :=
  Host.reduceAdd
    (select
      (broadcastInDim S64x64x64 ![1, 2] bcast_S64x64_S64x64x64_1_2
        (cmpi .eq (iotaInDim S64x64 32 0) (iotaInDim S64x64 32 1)))
      G
      (broadcastInDim S64x64x64 ![] bcast_S_S64x64x64 (constant (F := Ideal) S_ .f32 0x00000000#32)))
    (constant (F := Ideal) S_ .f32 0x00000000#32) reducesTo_S64x64x64_S64x64_d1 h_S_

def denomV (G : FVec Ideal S64x64x64 .f32) : FVec Ideal S64x64x64 .f32 :=
  select maskV
    (mulf
      (broadcastInDim S64x64x64 ![0, 1, 2] bcast_S64x64x1_S64x64x64_0_1_2
        (broadcastInDim S64x64x1 ![0, 1] bcast_S64x64_S64x64x1_0_1 (diagV G)))
      (broadcastInDim S64x64x64 ![0, 1, 2] bcast_S64x1x64_S64x64x64_0_1_2
        (broadcastInDim S64x1x64 ![0, 2] bcast_S64x64_S64x1x64_0_2 (diagV G))))
    (broadcastInDim S64x64x64 ![] bcast_S_S64x64x64 (constant (F := Ideal) S_ .f32 0x3F800000#32))

def sccV (G : FVec Ideal S64x64x64 .f32) : FVec Ideal S64x64x64 .f32 :=
  select maskV (Host.divf (mulf G G) (denomV G))
    (broadcastInDim S64x64x64 ![] bcast_S_S64x64x64 (constant (F := Ideal) S_ .f32 0x00000000#32))

def wtV (C : FVec Ideal S64x64 .f32) : FVec Ideal S64x64x64 .f32 :=
  mulf
    (broadcastInDim S64x64x64 ![0, 1, 2] bcast_S64x64x1_S64x64x64_0_1_2
      (broadcastInDim S64x64x1 ![0, 1] bcast_S64x64_S64x64x1_0_1
        (addf (transpose S64x64 [1, 0] C transposes_S64x64_S64x64_1_0) C)))
    (broadcastInDim S64x64x64 ![0, 1, 2] bcast_S64x1x64_S64x64x64_0_1_2
      (broadcastInDim S64x1x64 ![0, 2] bcast_S64x64_S64x1x64_0_2 C))

def lossV (G : FVec Ideal S64x64x64 .f32) (C : FVec Ideal S64x64 .f32) : FVec Ideal S_ .f32 :=
  Host.reduceAdd (mulf (wtV C) (sccV G)) (constant (F := Ideal) S_ .f32 0x00000000#32)
    reducesTo_S64x64x64_S_d0_1_2 h_S_

/-- The mask holds exactly where `i`, `k` and the conditioning column `j` are three different columns. -/
theorem select_mask {α : Type} (j i k : Fin 64) (a b : α) :
    Scalar.select (maskV (ix3 j i k)) a b = if i ≠ j ∧ k ≠ j ∧ i ≠ k then a else b := by
  refine if_congr (?_ : _ = 1#1 ↔ _) rfl rfl
  unfold maskV
  simp only [andi_at, cmpi_at, bc1, bc3, iotaInDim_apply, IntOp.andi_eq_one, IntOp.cmpi_ne, and_assoc]
  exact and_congr (not_congr (word_eq_iff i j)) (and_congr (not_congr (word_eq_iff k j)) (not_congr (word_eq_iff i k)))

/-- Summing over `i'` the entries kept only where `i' = i` leaves the diagonal entry. -/
theorem diagV_apply (G : FVec Ideal S64x64x64 .f32) (j b : Fin 64) : diagV G (ix2 j b) = G (ix3 j b b) := by
  unfold diagV
  simp (config := { index := false }) only [rsum3 _ _ (show S64x64x64.Reduces [1] S64x64 by decide), select_apply, bc2, cmpi_at, iotaInDim_apply,
    broadcastInDim_scalar_apply, constant_apply, Ideal.ofBits_zero_f32]
  refine (Finset.sum_congr rfl fun a _ => if_congr (IntOp.cmpi_eq.trans (word_eq_iff a b)) rfl rfl :
    _ = ∑ a : Fin 64, if a = b then G (ix3 j a b) else 0).trans ?_
  simp only [Finset.sum_ite_eq', Finset.mem_univ, if_true]

theorem sccV_apply (G : FVec Ideal S64x64x64 .f32) (j i k : Fin 64) :
    sccV G (ix3 j i k) = sccTerm (fun i k => G (ix3 j i k)) j i k := by
  unfold sccV denomV sccTerm
  simp (config := { index := false }) only [select_apply, select_mask, hostDivf_apply, mulf_apply, bc2, bc3, diagV_apply, broadcastInDim_scalar_apply,
    constant_apply, Ideal.ofBits_zero_f32, Ideal.ofBits_one_f32]
  exact if_ctx_congr Iff.rfl (fun h => congrArg _ (if_pos h)) fun _ => rfl

theorem v276_eq (W : Valuation τ sig (Elt Ideal)) :
    after (stI (F := Ideal)) W (Proc.devRef .tc main_v276)
      = lossV (gramT (centreT (residT (W (Proc.devRef .tc main_v174)) (W (Proc.devRef .tc main_v205))
          (W (Proc.devRef .tc main_v211))))) (W (Proc.devRef .tc main_v16)) := by
  simp only [stI, p4_l1, p5_l0, p5_l1, p5_l2, p5_l3, p5_l4, List.cons_append, List.nil_append]
  after_results_simp
  simp only [TRef.ofBuf, TRef.toBuf, cast_eq, id_eq]
  rfl

theorem indep_read (W : Valuation τ sig (Elt Ideal)) :
    after (stI (F := Ideal)) W (Proc.devRef .tc main_v276) ix0
      = Cert.Spec.indepR (fun n i => W (Proc.devRef .tc main_v174) (ix2 n i))
          (fun j i => W (Proc.devRef .tc main_v205) (ix2 j i)) (fun j i => W (Proc.devRef .tc main_v211) (ix2 j i))
          (fun j i => at2 (W (Proc.devRef .tc main_v16)) i j + at2 (W (Proc.devRef .tc main_v16)) j i)
          (fun j k => at2 (W (Proc.devRef .tc main_v16)) j k) := by
  rw [v276_eq]
  unfold lossV wtV indepR contrib
  rw [rtot, sum_idx3]
  simp (config := { index := false }) only [mulf_apply, addf_apply, bc2, bc3, transpose_ix2_apply, sccV_apply, gramT_spec]
  rfl

theorem final_read (W : Valuation τ sig (Elt Ideal)) :
    after (stI (F := Ideal)) W (Proc.devRef .tc main_v280) ix0
      = (sc (W (Proc.devRef .tc main_v20)) + (sc (W (Proc.devRef .tc main_v55)) + sc (W (Proc.devRef .tc main_v112))))
        + (sc (after (stI (F := Ideal)) W (Proc.devRef .tc main_v276)) + sc (W (Proc.devRef .tc main_v202))) := by
  simp only [stI, p4_l1, p5_l0, p5_l1, p5_l2, p5_l3, p5_l4, List.cons_append, List.nil_append]
  after_results_simp
  rfl

end Cert.ReferenceIdeal.RIndep

end
-- ==== Proof.RFit.lean ====
import proofs.«120299_j54631984005498_1_alg».proof.Proof.RNctBase

noncomputable section

open scoped BigOperators

namespace Cert.ReferenceIdeal.RFit

open Cert.ReferenceIdeal Cert.ReferenceIdeal.Gen Cert.ReferenceIdeal.Ops Cert.ReferenceIdeal.RRun Cert.ReferenceIdeal.RIdx
open Idealize.ShloMosaic Idealize.ShloMosaic.TcCoe Idealize.SL.Sem Idealize.ShloMosaic.StableHlo
open Idealize.ShloMosaic.ValueIdx

/-- Column means. -/
def meanArr (x : FVec Ideal S8192x64 .f32) : FVec Ideal S64 .f32 :=
  Host.divf (Host.reduceAdd x (constant S_ .f32 0x00000000#32) reducesTo_S8192x64_S64_d0 h_S_)
    (broadcastInDim S64 ![] bcast_S_S64 (constant S_ .f32 0x46000000#32))

/-- The samples with each column's mean taken off. -/
def cenArr (x : FVec Ideal S8192x64 .f32) : FVec Ideal S8192x64 .f32 :=
  subf x (broadcastInDim S8192x64 ![0, 1] bcast_S1x64_S8192x64_0_1 (broadcastInDim S1x64 ![1] bcast_S64_S1x64_1 (meanArr x)))

/-- Column energies: the sums of squares of the centred columns. -/
def enArr (x : FVec Ideal S8192x64 .f32) : FVec Ideal S64 .f32 :=
  Host.reduceAdd (mulf (cenArr x) (cenArr x)) (constant S_ .f32 0x00000000#32) reducesTo_S8192x64_S64_d0 h_S_

/-- Cross products of the centred columns. -/
def crossArr (x : FVec Ideal S8192x64 .f32) : FVec Ideal S64x64 .f32 :=
  Host.dotGeneral dot_S64x8192_S8192x64_S64x64_1_0_0_1_n_n none
    (transpose S64x8192 [1, 0] (cenArr x) transposes_S8192x64_S64x8192_1_0) (cenArr x)

/-- Slopes: cross products over the conditioning column's energy. -/
def slopeArr (x : FVec Ideal S8192x64 .f32) : FVec Ideal S64x64 .f32 :=
  Host.divf (crossArr x)
    (broadcastInDim S64x64 ![0, 1] bcast_S64x1_S64x64_0_1 (broadcastInDim S64x1 ![0] bcast_S64_S64x1_0 (enArr x)))

/-- Intercepts: the column's mean minus slope times the conditioning column's mean. -/
def intArr (x : FVec Ideal S8192x64 .f32) : FVec Ideal S64x64 .f32 :=
  subf (broadcastInDim S64x64 ![0, 1] bcast_S1x64_S64x64_0_1 (broadcastInDim S1x64 ![1] bcast_S64_S1x64_1 (meanArr x)))
    (mulf (slopeArr x)
      (broadcastInDim S64x64 ![0, 1] bcast_S64x1_S64x64_0_1 (broadcastInDim S64x1 ![0] bcast_S64_S64x1_0 (meanArr x))))

theorem v205_eq (W : Valuation τ sig (Elt Ideal)) :
    after (stH (F := Ideal)) W (Proc.devRef .tc main_v205) = slopeArr (W (Proc.devRef .tc main_v174)) := by
  rw [stH, after_append]
  after_results_simp
  rfl

theorem v211_eq (W : Valuation τ sig (Elt Ideal)) :
    after (stH (F := Ideal)) W (Proc.devRef .tc main_v211) = intArr (W (Proc.devRef .tc main_v174)) := by
  rw [stH, after_append]
  after_results_simp
  rfl

theorem coe_sum {ι : Type*} (s : Finset ι) (f : ι → ℝ) : ((∑ a ∈ s, f a : ℝ) : EReal) = ∑ a ∈ s, (f a : EReal) :=
  map_sum (⟨⟨Real.toEReal, EReal.coe_zero⟩, EReal.coe_add⟩ : ℝ →+ EReal) f s

/-- A column whose energy, a sum of squares, vanishes is constant, so its slopes are `0 / 0 = ⊥`; else they are real. -/
theorem fit_read (W : Valuation τ sig (Elt Ideal))
    (hX : ∀ (n : Fin 8192) (i : Fin 64), Cert.Spec.IsReal (W (Proc.devRef .tc main_v174) (ix2 n i))) :
    Cert.Spec.FitShape (fun n i => W (Proc.devRef .tc main_v174) (ix2 n i))
      (fun j i => after (stH (F := Ideal)) W (Proc.devRef .tc main_v205) (ix2 j i))
      (fun j i => after stH W (Proc.devRef .tc main_v211) (ix2 j i)) := by
  rw [v205_eq, v211_eq]
  generalize W (Proc.devRef .tc main_v174) = x at hX ⊢
  choose xr hxr using hX
  let μ : Fin 64 → ℝ := fun i => (∑ n, xr n i) * (1 / 8192 : ℝ)
  let c : Fin 8192 → Fin 64 → ℝ := fun n i => xr n i - μ i
  let S : Fin 64 → Fin 64 → ℝ := fun j i => ∑ n, c n j * c n i
  have hM : ∀ i, meanArr x (ix1 i) = (μ i : EReal) := fun i => by
    unfold meanArr
    simp (config := { index := false }) only [hostDivf_apply, rsum2 _ _ (show S8192x64.Reduces [0] S64 by decide), broadcastInDim_scalar_apply,
      constant_apply, ofBits_8192, Ideal.div_coe (show (8192 : ℝ) ≠ 0 by norm_num), hxr, ← coe_sum, ← EReal.coe_mul]
    rfl
  have hC : ∀ n i, cenArr x (ix2 n i) = (c n i : EReal) := fun n i => by
    unfold cenArr
    simp only [subf_apply, bc1, bc2, hM, hxr, ← EReal.coe_sub]
    rfl
  have hE : ∀ i, enArr x (ix1 i) = (S i i : EReal) := fun i => by
    unfold enArr
    simp only [rsum2 _ _ (show S8192x64.Reduces [0] S64 by decide), mulf_apply, hC, ← EReal.coe_mul, ← coe_sum]
    rfl
  have hS : ∀ j i, crossArr x (ix2 j i) = (S j i : EReal) := fun j i => by
    refine (StackMember.dotGeneral_plain_apply none _ _ j i).trans ?_
    simp (config := { index := false }) only [transpose_ix2_apply, hC, ← EReal.coe_mul, ← coe_sum]
    rfl
  have hA : ∀ j i, slopeArr x (ix2 j i) = Ideal.div (S j i) (S j j) := fun j i => by
    unfold slopeArr
    simp only [hostDivf_apply, bc1, bc2, hS, hE]
    rfl
  have hB : ∀ j i, intArr x (ix2 j i) = μ i - slopeArr x (ix2 j i) * μ j := fun j i => by
    unfold intArr
    simp only [subf_apply, mulf_apply, bc1, bc2, hM]
    rfl
  intro j
  by_cases h0 : S j j = 0
  · have hz : ∀ n, c n j = 0 := fun n => mul_self_eq_zero.mp
      ((Finset.sum_eq_zero_iff_of_nonneg fun n _ => mul_self_nonneg (c n j)).mp h0 n (Finset.mem_univ n))
    have hAj : ∀ i, slopeArr x (ix2 j i) = ⊥ := fun i => by
      rw [hA, h0, show S j i = 0 from Finset.sum_eq_zero fun n _ => by rw [hz n, zero_mul], EReal.coe_zero,
        Ideal.div, if_pos rfl, if_neg (lt_irrefl _)]
    exact .inr ⟨μ j, fun n => (hxr n j).trans (congrArg _ (sub_eq_zero.mp (hz n))), hAj, fun i => ⟨μ i, (hB j i).trans (by rw [hAj])⟩⟩
  · have hAr : ∀ i, slopeArr x (ix2 j i) = ((S j i * (1 / S j j) : ℝ) : EReal) := fun i => by
      rw [hA, Ideal.div_coe h0, ← EReal.coe_mul]
    exact .inl fun i => ⟨⟨_, hAr i⟩, ⟨μ i - S j i * (1 / S j j) * μ j, (hB j i).trans (by
      rw [hAr, ← EReal.coe_mul, ← EReal.coe_sub])⟩⟩

end Cert.ReferenceIdeal.RFit

end
-- ==== Proof.RealOps.lean ====
import proofs.«120299_j54631984005498_1_alg».proof.Proof.Spec
import Idealize.ShloMosaic.PureOps.Ideal.Laws
import Idealize.ShloMosaic.Lib.ValueIdx
import Idealize.ShloMosaic.Lib.IdealHost

noncomputable section

namespace Cert.RealOps

open Idealize.ShloMosaic Idealize.ShloMosaic.ValueIdx Cert.Spec

/-- An extended real that is a non-negative real number. -/
def IsNonneg (x : EReal) : Prop := ∃ r : ℝ, 0 ≤ r ∧ x = r
/-- An extended real that is a positive real number. -/
def IsPos (x : EReal) : Prop := ∃ r : ℝ, 0 < r ∧ x = r
/-- Every entry of an array has the property `p`. -/
def Every {s : Shape} (p : EReal → Prop) (x : s.Idx → EReal) : Prop := ∀ i, p (x i)

/-- A set of extended reals that contains zero and is closed under addition, hence under finite sums. -/
class AddClosed (p : EReal → Prop) : Prop where
  zero : p 0
  add : ∀ {a b}, p a → p b → p (a + b)

section Scalars
variable {a b : EReal}

instance : AddClosed IsReal where
  zero := ⟨0, rfl⟩
  add := by rintro _ _ ⟨r, rfl⟩ ⟨u, rfl⟩; exact ⟨r + u, rfl⟩

instance : AddClosed IsNonneg where
  zero := ⟨0, le_rfl, rfl⟩
  add := by rintro _ _ ⟨r, hr, rfl⟩ ⟨u, hu, rfl⟩; exact ⟨r + u, add_nonneg hr hu, rfl⟩

theorem isReal_sub : IsReal a → IsReal b → IsReal (a - b) := by
  rintro ⟨r, rfl⟩ ⟨u, rfl⟩; exact ⟨r - u, rfl⟩

theorem isReal_mul : IsReal a → IsReal b → IsReal (a * b) := by
  rintro ⟨r, rfl⟩ ⟨u, rfl⟩; exact ⟨r * u, rfl⟩

theorem IsPos.isReal : IsPos a → IsReal a := fun ⟨r, _, e⟩ => ⟨r, e⟩

theorem isNonneg_sq : IsReal a → IsNonneg (a * a) := by
  rintro ⟨r, rfl⟩; exact ⟨r * r, mul_self_nonneg r, rfl⟩

theorem IsNonneg.add_pos : IsNonneg a → IsPos b → IsPos (a + b) := by
  rintro ⟨r, hr, rfl⟩ ⟨u, hu, rfl⟩; exact ⟨r + u, add_pos_of_nonneg_of_pos hr hu, rfl⟩

/-- A quotient by a positive real is the product with its reciprocal. -/
theorem isReal_div : IsReal a → IsPos b → IsReal (Ideal.div a b) := by
  rintro ⟨r, rfl⟩ ⟨u, hu, rfl⟩; exact ⟨r * (1 / u), Ideal.div_coe hu.ne' _⟩

theorem IsNonneg.div : IsNonneg a → IsPos b → IsNonneg (Ideal.div a b) := by
  rintro ⟨r, hr, rfl⟩ ⟨u, hu, rfl⟩
  exact ⟨r * (1 / u), mul_nonneg hr (one_div_pos.2 hu).le, Ideal.div_coe hu.ne' _⟩

theorem IsPos.sqrt : IsPos a → IsPos (Ideal.sqrt a) := by
  rintro ⟨r, hr, rfl⟩
  exact ⟨√r, Real.sqrt_pos.2 hr, by rw [Ideal.sqrt_coe, if_neg (not_lt.2 hr.le)]⟩

end Scalars

variable {s t u : Shape} {φ : FTy} {p : EReal → Prop} {x y : FVec Ideal s φ}

/-- The float zero is the real zero. -/
theorem zero_apply (i : s.Idx) : constant (F := Ideal) s .f32 0x00000000#32 i = 0 := Ideal.ofBits_zero_f32

namespace Every

theorem zero [AddClosed p] : Every p (constant (F := Ideal) s .f32 0x00000000#32) := fun i => zero_apply i ▸ AddClosed.zero

theorem add (hx : Every IsReal x) (hy : Every IsReal y) : Every IsReal (addf x y) := fun i => AddClosed.add (hx i) (hy i)

theorem sub (hx : Every IsReal x) (hy : Every IsReal y) : Every IsReal (subf x y) := fun i => isReal_sub (hx i) (hy i)

theorem mul (hx : Every IsReal x) (hy : Every IsReal y) : Every IsReal (mulf x y) := fun i => isReal_mul (hx i) (hy i)

theorem sq (hx : Every IsReal x) : Every IsNonneg (mulf x x) := fun i => isNonneg_sq (hx i)

theorem add_pos (hx : Every IsNonneg x) (hy : Every IsPos y) : Every IsPos (addf x y) := fun i => (hx i).add_pos (hy i)

theorem div (hx : Every IsReal x) (hy : Every IsPos y) : Every IsReal (Host.divf x y) := fun i => isReal_div (hx i) (hy i)

theorem div_pos (hx : Every IsNonneg x) (hy : Every IsPos y) : Every IsNonneg (Host.divf x y) := fun i => (hx i).div (hy i)

theorem sqrt (hx : Every IsPos x) : Every IsPos (Host.sqrt x) := fun i => (hx i).sqrt

theorem real (hx : Every IsPos x) : Every IsReal x := fun i => (hx i).isReal

/-- A broadcast only re-indexes its operand. -/
theorem bcast {dims : Fin s.rank → Fin t.rank} {h : s.BroadcastsInDim t dims} {x : s.Idx → EReal} (hx : Every p x) :
    Every p (broadcastInDim t dims h x) := fun _ => hx _

/-- A transpose only re-indexes its operand. -/
theorem transpose {perm : List (Fin s.rank)} {h : s.Transposes perm t} {x : s.Idx → EReal} (hx : Every p x) :
    Every p (Idealize.ShloMosaic.transpose t perm x h) := fun _ => hx _

/-- A select returns an entry of one of its branches. -/
theorem select {c : IVec s 1} {a b : s.Idx → EReal} (ha : Every p a) (hb : Every p b) :
    Every p (Idealize.ShloMosaic.select c a b) := fun i => by
  show p (if c i = 1 then a i else b i)
  split
  exacts [ha i, hb i]

/-- A leaky rectifier returns its argument or a multiple of it. -/
theorem leaky {c : IVec s 1} (hx : Every IsReal x) (hy : Every IsReal y) :
    Every IsReal (Idealize.ShloMosaic.select c x (mulf y x)) := hx.select (hy.mul hx)

/-- Each entry of a matrix product is a finite sum of products. -/
theorem dot {sl sr so : Shape} {φ₁ φ₂ : FTy} {d : DotDims sl sr so} {prec : Option ContractPrecision}
    {l : FVec Ideal sl φ₁} {r : FVec Ideal sr φ₂} (hl : Every IsReal l) (hr : Every IsReal r) :
    Every IsReal (Host.dotGeneral d prec l r) := fun j => by
  show IsReal (FloatOps.dotGeneral d prec .single l r j)
  rw [Ideal.dotGeneral_apply]
  exact Finset.sum_induction _ IsReal (fun _ _ => AddClosed.add) AddClosed.zero fun _ _ => isReal_mul (hl _) (hr _)

/-- A sum over some axes stays inside a set that contains the initial value and zero and is closed under addition. -/
theorem reduceAdd [AddClosed p] {axes : List (Fin s.rank)} {v : u.Idx → Ideal φ} {h : s.ReducesTo axes t} {hu : 0 < u.numel}
    (hx : Every p x) (hv : Every p v) : Every p (Host.reduceAdd x v h hu) := fun j => by
  rw [hostReduceAdd_apply]
  exact AddClosed.add (hv _) (Finset.sum_induction _ p (fun _ _ => AddClosed.add) AddClosed.zero fun i _ => hx i)

/-- A positive real less the integer zero converted to a float is the same positive real. -/
theorem sub_zero {x : FVec Ideal s .f32} (hx : Every IsPos x) :
    Every IsPos (subf x (sitofp .f32 (constantI s 32 0#32))) := fun i => by
  have e : (sitofp .f32 (constantI s 32 0#32) : FVec Ideal s .f32) i = 0 := by
    show (((0#32 : BitVec 32).toInt : ℝ) : EReal) = 0
    simp
  rw [subf_apply, e, _root_.sub_zero]
  exact hx i

end Every

/-- A select guarded by "a positive real is greater than zero" is its first branch. -/
theorem select_guard {α : Type} {dims : Fin t.rank → Fin s.rank} {h : t.BroadcastsInDim s dims} {x : FVec Ideal t .f32}
    (hx : Every IsPos x) (a b : s.Idx → α) :
    select (broadcastInDim s dims h (cmpf .ogt x (constant t .f32 0x00000000#32))) a b = a := by
  have hc : ∀ j, cmpf .ogt x (constant t .f32 0x00000000#32) j = 1#1 := fun j => by
    obtain ⟨r, hr, er⟩ := hx j
    rw [cmpf_apply, Ideal.cmpf_def, zero_apply, er]
    simp [Ideal.cmp, EReal.coe_pos.2 hr]
  exact funext fun i => if_pos (hc _)

/-- A bit pattern with a clear sign bit and an exponent field neither zero nor all ones denotes a positive real. -/
theorem pos_ieee (e m : Nat) {w : Nat} (b : BitVec w) (hs : (b.extractLsb' (e + m) 1 == 1#1) = false := by decide)
    (hex : (b.extractLsb' m e).toNat ≠ 2 ^ e - 1 := by decide) (hex0 : (b.extractLsb' m e).toNat ≠ 0 := by decide) :
    IsPos (Ideal.ieee e m b) := by
  unfold Ideal.ieee
  simp only [if_neg hex, if_neg hex0, hs]
  refine ⟨_, mul_pos (mul_pos ?_ ?_) (zpow_pos (by norm_num) _), rfl⟩
  · norm_num
  · exact_mod_cast Nat.lt_of_lt_of_le (Nat.two_pow_pos m) (Nat.le_add_right _ _)

/-- 8192, the row count. -/
theorem pos_rows : Every IsPos (constant (F := Ideal) s .f32 0x46000000#32) := fun _ =>
  pos_ieee 8 23 (0x46000000#32 : BitVec 32)

/-- The float nearest 1e-5. -/
theorem pos_eps : Every IsPos (constant (F := Ideal) s .f32 0x3727C5AC#32) := fun _ =>
  pos_ieee 8 23 (0x3727C5AC#32 : BitVec 32)

/-- The float nearest one hundredth. -/
theorem pos_slope : Every IsPos (constant (F := Ideal) s .f32 0x3C23D70A#32) := fun _ =>
  pos_ieee 8 23 (0x3C23D70A#32 : BitVec 32)

end Cert.RealOps

end
-- ==== Proof.RZind.lean ====
import proofs.«120299_j54631984005498_1_alg».proof.Proof.RRun
import proofs.«120299_j54631984005498_1_alg».proof.Proof.RealOps

noncomputable section

namespace Cert.ReferenceIdeal.RReal

open Cert.ReferenceIdeal Cert.ReferenceIdeal.Gen Cert.ReferenceIdeal.Ops Cert.ReferenceIdeal.RRun
open Idealize.ShloMosaic Idealize.ShloMosaic.TcCoe Idealize.SL.Sem Idealize.ShloMosaic.StableHlo
open Cert.Spec Cert.RealOps

/-- Sums, products and quotients by positive reals keep reals real; a variance is a sum of squares over a positive count. -/
theorem zind_real (W : Valuation τ sig (Elt Ideal))
    (h2 : ∀ i, Cert.Spec.IsReal (W (Proc.devRef .tc main_arg2) i))
    (h10 : ∀ i, Cert.Spec.IsReal (W (Proc.devRef .tc main_arg10) i))
    (h11 : ∀ i, Cert.Spec.IsReal (W (Proc.devRef .tc main_arg11) i))
    (h12 : ∀ i, Cert.Spec.IsReal (W (Proc.devRef .tc main_arg12) i))
    (h13 : ∀ i, Cert.Spec.IsReal (W (Proc.devRef .tc main_arg13) i))
    (h14 : ∀ i, Cert.Spec.IsReal (W (Proc.devRef .tc main_arg14) i)) :
    ∀ i, Cert.Spec.IsReal (after (stF (F := Ideal)) W (Proc.devRef .tc main_v143) i) := by
  obtain ⟨V, hV⟩ : ∃ V, V = after p2_l2 (after p2_l1 W) := ⟨_, rfl⟩
  have ⟨k114, k117, k118, k11, k12, k13, k14⟩ : Every IsReal (V main_v114) ∧ Every IsReal (V main_v117) ∧
      Every IsNonneg (V main_v118) ∧ Every IsReal (V main_arg11) ∧ Every IsReal (V main_arg12) ∧
      Every IsReal (V main_arg13) ∧ Every IsReal (V main_arg14) := by
    rw [hV]
    after_results_simp
    simp only [TRef.toBuf, TRef.ofBuf, TRef.of, cast_eq]
    rw [select_guard pos_rows.sub_zero]
    refine ⟨?H, ((?H).reduceAdd .zero).div pos_rows.bcast,
      (((?H).sub (((?H).reduceAdd .zero).bcast.div pos_rows.bcast).bcast).sq.reduceAdd .zero).div_pos
        pos_rows.sub_zero.bcast, h11, h12, h13, h14⟩
    exact Every.dot h2 (Every.transpose h10)
  rw [show after (stF (F := Ideal)) W = after p2_l5 (after p2_l4 (after p2_l3 V)) by simp only [hV, stF, after_append]]
  after_results_simp
  simp only [TRef.toBuf, TRef.ofBuf, TRef.of, cast_eq]
  exact (((((k114.sub k117.bcast.bcast).div (k118.add_pos pos_eps.bcast).sqrt.bcast.bcast).mul k11.bcast.bcast).add
    k12.bcast.bcast).leaky pos_slope.real.bcast |>.dot k13.transpose).add k14.bcast.bcast

end Cert.ReferenceIdeal.RReal

end
-- ==== Proof.RXind.lean ====
import proofs.«120299_j54631984005498_1_alg».proof.Proof.RRun
import proofs.«120299_j54631984005498_1_alg».proof.Proof.RealOps

noncomputable section

namespace Cert.ReferenceIdeal.RRealX

open Cert.ReferenceIdeal Cert.ReferenceIdeal.Gen Cert.ReferenceIdeal.Ops Cert.ReferenceIdeal.RRun
open Idealize.ShloMosaic Idealize.ShloMosaic.TcCoe Idealize.SL.Sem Idealize.ShloMosaic.StableHlo
open Cert.Spec Cert.RealOps

/-- The second layer keeps reals real, for the same reasons as the first. -/
theorem xind_real (W : Valuation τ sig (Elt Ideal))
    (hZ : ∀ i, Cert.Spec.IsReal (W (Proc.devRef .tc main_v143) i))
    (h5 : ∀ i, Cert.Spec.IsReal (W (Proc.devRef .tc main_arg5) i))
    (h6 : ∀ i, Cert.Spec.IsReal (W (Proc.devRef .tc main_arg6) i))
    (h7 : ∀ i, Cert.Spec.IsReal (W (Proc.devRef .tc main_arg7) i))
    (h8 : ∀ i, Cert.Spec.IsReal (W (Proc.devRef .tc main_arg8) i))
    (h9 : ∀ i, Cert.Spec.IsReal (W (Proc.devRef .tc main_arg9) i)) :
    ∀ i, Cert.Spec.IsReal (after (stG (F := Ideal)) W (Proc.devRef .tc main_v174) i) := by
  obtain ⟨V, hV⟩ : ∃ V, V = after p3_l1 (after p3_l0 (after p2_l6 W)) := ⟨_, rfl⟩
  have ⟨k145, k148, k149, k6, k7, k8, k9⟩ : Every IsReal (V main_v145) ∧ Every IsReal (V main_v148) ∧
      Every IsNonneg (V main_v149) ∧ Every IsReal (V main_arg6) ∧ Every IsReal (V main_arg7) ∧
      Every IsReal (V main_arg8) ∧ Every IsReal (V main_arg9) := by
    rw [hV]
    after_results_simp
    simp only [TRef.toBuf, TRef.ofBuf, TRef.of, cast_eq]
    rw [select_guard pos_rows.sub_zero]
    refine ⟨?H, ((?H).reduceAdd .zero).div pos_rows.bcast,
      (((?H).sub (((?H).reduceAdd .zero).bcast.div pos_rows.bcast).bcast).sq.reduceAdd .zero).div_pos
        pos_rows.sub_zero.bcast, h6, h7, h8, h9⟩
    exact Every.dot hZ (Every.transpose h5)
  rw [show after (stG (F := Ideal)) W = after p3_l4 (after p3_l3 (after p3_l2 V)) by simp only [hV, stG, after_append]]
  after_results_simp
  simp only [TRef.toBuf, TRef.ofBuf, TRef.of, cast_eq]
  exact (((((k145.sub k148.bcast.bcast).div (k149.add_pos pos_eps.bcast).sqrt.bcast.bcast).mul k6.bcast.bcast).add
    k7.bcast.bcast).leaky pos_slope.real.bcast |>.dot k8.transpose).add k9.bcast.bcast

end Cert.ReferenceIdeal.RRealX

end
-- ==== Proof.PreReal.lean ====
import proofs.«120299_j54631984005498_1_alg».proof.Defs
import proofs.«120299_j54631984005498_1_alg».proof.Proof.Gen.Pre_finite_inputs
import proofs.«120299_j54631984005498_1_alg».proof.Proof.Spec
import Idealize.ShloMosaic.Lib.ReduceAll

noncomputable section

namespace Cert.PreReal

open Idealize.ShloMosaic Idealize.ShloMosaic.ValueIdx Idealize.SL.Sem Cert.Pre_finite_inputs Cert.Spec

instance : Subsingleton S_.Idx := ⟨fun _ _ => funext fun d => d.elim0⟩

/-- `|x| = max x (-x)` below `+∞` rules out both infinities. -/
theorem isReal_of_abs_lt_inf (x : EReal)
    (h : FloatOps.cmpf (F := Ideal) (φ := .f32) .olt (FloatOps.hostAbsf x) (FloatOps.ofBits .f32 0x7F800000#32) = 1#1) :
    IsReal x := by
  have h' : Ideal.cmp .olt (max x (-x)) (Ideal.ofBits .f32 0x7F800000#32) = 1#1 := h
  unfold Ideal.cmp at h'
  have hlt : max x (-x) < Ideal.ofBits .f32 0x7F800000#32 := by
    by_contra hn
    simp [hn] at h'
  obtain ⟨h1, h2⟩ := max_lt_iff.1 (lt_of_lt_of_le hlt le_top)
  exact ⟨x.toReal, (EReal.coe_toReal h1.ne (by rintro rfl; simp at h2)).symm⟩

/-- If the conjunction over all entries of `|x i| < +∞` is true, every entry of `x` is a real number. -/
theorem real_of_all_finite {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi (cmpf .olt (Host.absf x) (broadcastInDim s ![] hb (constant (F := Ideal) S_ .f32 0x7F800000#32)))
          (constantI S_ 1 1#1) hr hu ix0 = 1#1) (i : s.Idx) : IsReal (x i) :=
  isReal_of_abs_lt_inf (x i) (Host.reduce_andi_all _ _ hr hu ix0 h i)

variable [Cert.Pre_finite_inputs.Facts]

open Cert.KernelIdeal in
/-- The precondition is the conjunction, over the fifteen float arguments, of "every entry is finite". -/
theorem args_real (m : (ℓ : Loc nD τ sig) → Buf (Elt Ideal) ℓ) (hpre : Cert.Pre_KernelIdeal m) (c : Dev nD) :
    (∀ i, IsReal (m ((c.tc : Thread nD τ).loc main_arg0) i)) ∧
      (∀ i, IsReal (m ((c.tc : Thread nD τ).loc main_arg1) i)) ∧
      (∀ i, IsReal (m ((c.tc : Thread nD τ).loc main_arg2) i)) ∧
      (∀ i, IsReal (m ((c.tc : Thread nD τ).loc main_arg3) i)) ∧
      (∀ i, IsReal (m ((c.tc : Thread nD τ).loc main_arg4) i)) ∧
      (∀ i, IsReal (m ((c.tc : Thread nD τ).loc main_arg5) i)) ∧
      (∀ i, IsReal (m ((c.tc : Thread nD τ).loc main_arg6) i)) ∧
      (∀ i, IsReal (m ((c.tc : Thread nD τ).loc main_arg7) i)) ∧
      (∀ i, IsReal (m ((c.tc : Thread nD τ).loc main_arg8) i)) ∧
      (∀ i, IsReal (m ((c.tc : Thread nD τ).loc main_arg9) i)) ∧
      (∀ i, IsReal (m ((c.tc : Thread nD τ).loc main_arg10) i)) ∧
      (∀ i, IsReal (m ((c.tc : Thread nD τ).loc main_arg11) i)) ∧
      (∀ i, IsReal (m ((c.tc : Thread nD τ).loc main_arg12) i)) ∧
      (∀ i, IsReal (m ((c.tc : Thread nD τ).loc main_arg13) i)) ∧
      (∀ i, IsReal (m ((c.tc : Thread nD τ).loc main_arg14) i)) := by
  have h := congrFun (hpre c) ix0
  dsimp only [Cert.Pre_finite_inputs.fn, fn_part1, fn_part2, fn_part3, fn_part4] at h
  iterate 14 (replace h := IntOp.andi_eq_one.1 h; obtain ⟨h, e⟩ := h; replace e := real_of_all_finite _ _ _ _ e)
  refine ⟨real_of_all_finite _ _ _ _ h, ?_, ?_, ?_, ?_, ?_, ?_, ?_, ?_, ?_, ?_, ?_, ?_, ?_, ?_⟩ <;> assumption

end Cert.PreReal

end
-- ==== Proof.SharedALib.lean ====
import proofs.«120299_j54631984005498_1_alg».proof.Proof.Gen.KernelIdeal.Launch
import proofs.«120299_j54631984005498_1_alg».proof.Proof.RRun

set_option maxRecDepth 16384

namespace Cert.SharedALib

open Idealize.ShloMosaic Idealize.ShloMosaic.StableHlo

variable {F : FTy → Type} [FloatOps F]

open Cert.KernelIdeal.Gen in
/-- The first program's nine stretches of host operations before its first launch, as one fold. -/
noncomputable abbrev preK (W : Valuation Cert.KernelIdeal.τ Cert.KernelIdeal.sig (Elt F)) : Valuation Cert.KernelIdeal.τ Cert.KernelIdeal.sig (Elt F) :=
  after hostOps0_8 (after hostOps0_7 (after hostOps0_6 (after hostOps0_5 (after hostOps0_4 (after hostOps0_3 (after hostOps0_2 (after hostOps0_1 (after hostOps0 W))))))))

/-- Opens both programs' folds down to the contents they start from, each operation's result read at its own buffer. -/
macro "open_folds" : tactic =>
  `(tactic| (simp only [Cert.ReferenceIdeal.RRun.VD, Cert.ReferenceIdeal.RRun.VC, Cert.ReferenceIdeal.RRun.VB, Cert.ReferenceIdeal.RRun.VA, Cert.ReferenceIdeal.RRun.stA, Cert.ReferenceIdeal.RRun.stB,
      Cert.ReferenceIdeal.RRun.stC, Cert.ReferenceIdeal.RRun.stD, Cert.ReferenceIdeal.RRun.after_append]; after_results_simp))

end Cert.SharedALib
-- ==== Proof.SharedA.lean ====
import proofs.«120299_j54631984005498_1_alg».proof.Proof.Gen.KernelIdeal.Frame
import proofs.«120299_j54631984005498_1_alg».proof.Proof.SharedALib

set_option maxRecDepth 16384
set_option maxHeartbeats 1600000

noncomputable section

namespace Cert.SharedA

open Idealize.ShloMosaic Idealize.ShloMosaic.TcCoe Idealize.SL.Sem Idealize.ShloMosaic.StableHlo Cert.SharedALib

variable {F : FTy → Type} [FloatOps F]

local notation "dK" b => Proc.devRef (τ := Cert.KernelIdeal.τ) (sig := Cert.KernelIdeal.sig) Proc.tc b
local notation "dR" b => Proc.devRef (τ := Cert.ReferenceIdeal.τ) (sig := Cert.ReferenceIdeal.sig) Proc.tc b

section Fold

variable {WK : Valuation Cert.KernelIdeal.τ Cert.KernelIdeal.sig (Elt F)} {WR : Valuation Cert.ReferenceIdeal.τ Cert.ReferenceIdeal.sig (Elt F)}

/-- Both programs apply the same operations to the same argument, so equal arguments give equal results. -/
theorem v16_of (h3 : WK (dK Cert.KernelIdeal.main_arg3) = WR (dR Cert.ReferenceIdeal.main_arg3)) : preK WK (dK Cert.KernelIdeal.main_v16) = Cert.ReferenceIdeal.RRun.VA WR (dR Cert.ReferenceIdeal.main_v16) := by
  open_folds
  rw [h3]

theorem v20_of (h3 : WK (dK Cert.KernelIdeal.main_arg3) = WR (dR Cert.ReferenceIdeal.main_arg3)) : preK WK (dK Cert.KernelIdeal.main_v20) = Cert.ReferenceIdeal.RRun.VA WR (dR Cert.ReferenceIdeal.main_v20) := by
  open_folds
  rw [h3]
  rfl

theorem v55_of (h0 : WK (dK Cert.KernelIdeal.main_arg0) = WR (dR Cert.ReferenceIdeal.main_arg0)) (h4 : WK (dK Cert.KernelIdeal.main_arg4) = WR (dR Cert.ReferenceIdeal.main_arg4)) (h5 : WK (dK Cert.KernelIdeal.main_arg5) = WR (dR Cert.ReferenceIdeal.main_arg5))
    (h6 : WK (dK Cert.KernelIdeal.main_arg6) = WR (dR Cert.ReferenceIdeal.main_arg6)) (h7 : WK (dK Cert.KernelIdeal.main_arg7) = WR (dR Cert.ReferenceIdeal.main_arg7)) (h8 : WK (dK Cert.KernelIdeal.main_arg8) = WR (dR Cert.ReferenceIdeal.main_arg8))
    (h9 : WK (dK Cert.KernelIdeal.main_arg9) = WR (dR Cert.ReferenceIdeal.main_arg9)) : preK WK (dK Cert.KernelIdeal.main_v55) = Cert.ReferenceIdeal.RRun.VB WR (dR Cert.ReferenceIdeal.main_v55) := by
  open_folds
  rw [h0, h4, h5, h6, h7, h8, h9]
  rfl

end Fold

section Run

variable (m : (ℓ : Loc Cert.KernelIdeal.nD Cert.KernelIdeal.τ Cert.KernelIdeal.sig) → Buf (Elt F) ℓ) (ρ : Dev Cert.KernelIdeal.nD → PrngReg)
variable (m' : (ℓ : Loc Cert.ReferenceIdeal.nD Cert.ReferenceIdeal.τ Cert.ReferenceIdeal.sig) → Buf (Elt F) ℓ)
variable (c : Dev 1)

theorem eq_v16 (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (Cert.KernelIdeal.Gen.W9 m ρ c (dK Cert.KernelIdeal.main_v16) : Vec F ⟨2, ![64, 64]⟩ .f32) = Cert.ReferenceIdeal.RRun.VA (launchContents m' c) (dR Cert.ReferenceIdeal.main_v16) :=
  v16_of h3.symm

theorem eq_v20 (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (Cert.KernelIdeal.Gen.W9 m ρ c (dK Cert.KernelIdeal.main_v20) : Vec F ⟨0, ![]⟩ .f32) = Cert.ReferenceIdeal.RRun.VA (launchContents m' c) (dR Cert.ReferenceIdeal.main_v20) :=
  v20_of h3.symm

theorem eq_v55 (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    (Cert.KernelIdeal.Gen.W9 m ρ c (dK Cert.KernelIdeal.main_v55) : Vec F ⟨0, ![]⟩ .f32) = Cert.ReferenceIdeal.RRun.VB (launchContents m' c) (dR Cert.ReferenceIdeal.main_v55) :=
  v55_of h0.symm h4.symm h5.symm h6.symm h7.symm h8.symm h9.symm

end Run

end Cert.SharedA

end
-- ==== Proof.SharedB.lean ====
import proofs.«120299_j54631984005498_1_alg».proof.Proof.Gen.KernelIdeal.Frame
import proofs.«120299_j54631984005498_1_alg».proof.Proof.RRun
import Idealize.ShloMosaic.PureOps.Ideal

set_option maxRecDepth 16384

noncomputable section

namespace Cert.SharedB

open Idealize.ShloMosaic Idealize.ShloMosaic.TcCoe Idealize.SL.Sem Idealize.ShloMosaic.StableHlo
open Cert.KernelIdeal Cert.KernelIdeal.Gen Cert.ReferenceIdeal Cert.ReferenceIdeal.Ops Cert.ReferenceIdeal.RRun

abbrev VK := Valuation Cert.KernelIdeal.τ Cert.KernelIdeal.sig (Elt Ideal)
abbrev VR := Valuation Cert.ReferenceIdeal.τ Cert.ReferenceIdeal.sig (Elt Ideal)

/-- An argument of either program: one of its first sixteen buffers. -/
def IsArg {sig : RefSig} (b : Ref sig .tc) : Prop := b.space = .hbm ∧ b.idx.val < 16

instance {sig : RefSig} (b : Ref sig .tc) : Decidable (IsArg b) := by unfold IsArg; infer_instance

theorem ne_of_isArg {sig : RefSig} {b y : Ref sig .tc} (hb : IsArg b) (hy : ¬ IsArg y) : b ≠ y :=
  fun h => hy (h ▸ hb)

/-- `W` holds at every argument what `W₀` holds there. -/
def Keeps {τ : Topo} {sig : RefSig} (W W₀ : Valuation τ sig (Elt Ideal)) : Prop :=
  ∀ b : Ref sig .tc, IsArg b → W (Proc.devRef .tc b) = W₀ (Proc.devRef .tc b)

/-- Operations none of which writes an argument leave the arguments as they were. -/
theorem Keeps.after {τ : Topo} {sig : RefSig} {W W₀ : Valuation τ sig (Elt Ideal)} {l : List (HloOp τ sig (Elt Ideal))}
    (h : Keeps W W₀) (hl : ∀ b : Ref sig .tc, IsArg b → l.Forall fun op => Proc.devRef .tc b ∉ op.writes) :
    Keeps (StableHlo.after l W) W₀ :=
  fun b hb => (after_of_forall_not_mem l W (List.forall_iff_forall_mem.mp (hl b hb))).trans (h b hb)

/-- Every operation of a literal list writes a buffer that is no argument. -/
local macro "unwritten" : tactic => `(tactic| (
  intro b hb
  simp only [List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (ne_of_isArg hb (by decide))))

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev 1)
variable (V : VR)

theorem kW9 : Keeps (W9 m ρ c) (launchContents m c) := by
  iterate 9 refine Keeps.after ?_ (by unwritten)
  exact fun _ _ => rfl
theorem kW10 : Keeps (W10 m ρ c) (launchContents m c) := fun b hb =>
  (W10_of_ne m ρ c b fun w => (ne_of_isArg hb (by revert w; decide)).symm).trans (kW9 m ρ c b hb)
theorem kW12 : Keeps (W12 m ρ c) (launchContents m c) := ((kW10 m ρ c).after (by unwritten)).after (by unwritten)
theorem kW14 : Keeps (W14 m ρ c) (launchContents m c) := ((kW12 m ρ c).after (by unwritten)).after (by unwritten)
theorem kW16 : Keeps (W16 m ρ c) (launchContents m c) := ((kW14 m ρ c).after (by unwritten)).after (by unwritten)
theorem kW18 : Keeps (W18 m ρ c) (launchContents m c) := ((kW16 m ρ c).after (by unwritten)).after (by unwritten)

abbrev R2 : VR := after p2_l2 (after p2_l1 (VE V))
abbrev R4 : VR := after p2_l4 (after p2_l3 (R2 V))
abbrev R8 : VR := after p3_l1 (after p3_l0 (after p2_l6 (after p2_l5 (R4 V))))
abbrev R10 : VR := after p3_l3 (after p3_l2 (R8 V))

theorem VG_eq : VG V = after p3_l4 (R10 V) := by
  simp only [VG, VF, stG, stF, R10, R8, R4, R2, after_append]

theorem VH_eq : VH V = after p4_l0 (after p3_l5 (after p3_l4 (R10 V))) := by
  show after (p3_l5 ++ p4_l0) (VG V) = _
  rw [after_append, VG_eq]

theorem rVE : Keeps (VE V) V := by
  simp only [VE, VD, VC, VB, VA, stA, stB, stC, stD, stE, after_append]
  iterate 15 refine Keeps.after ?_ (by unwritten)
  exact fun _ _ => rfl
theorem rR2 : Keeps (R2 V) V := ((rVE V).after (by unwritten)).after (by unwritten)
theorem rR4 : Keeps (R4 V) V := ((rR2 V).after (by unwritten)).after (by unwritten)
theorem rR8 : Keeps (R8 V) V := ((((rR4 V).after (by unwritten)).after (by unwritten)).after (by unwritten)).after (by unwritten)
theorem rR10 : Keeps (R10 V) V := ((rR8 V).after (by unwritten)).after (by unwritten)

/-- Buffer `x` of the kernel program and buffer `y` of the reference hold the same contents. -/
def Same (WK : VK) (WR : VR) (x : Ref Cert.KernelIdeal.sig .tc) (y : Ref Cert.ReferenceIdeal.sig .tc) : Prop :=
  HEq (WK (Proc.devRef .tc x)) (WR (Proc.devRef .tc y))

/-! One stretch at a time: each side's fold becomes a pure term over the entry contents, and equal entry contents make the two terms one. -/
section Steps
variable {WK : VK} {WR : VR}
set_option maxHeartbeats 1000000

section
theorem s1_c24 : Same (after hostOps1 WK) (after p2_l1 WR) main_c_24 main_c_28 := by
  refine heq_of_eq ?_; after_results_simp
variable (h10 : Same WK WR main_arg10 main_arg10)
  (h2 : Same WK WR main_arg2 main_arg2)
include h10 h2
theorem s1_v99 : Same (after hostOps1 WK) (after p2_l1 WR) main_v99 main_v114 := by
  refine heq_of_eq ?_; after_results_simp; rw [eq_of_heq h10, eq_of_heq h2]; rfl
theorem s1_v102 : Same (after hostOps1 WK) (after p2_l1 WR) main_v102 main_v117 := by
  refine heq_of_eq ?_; after_results_simp; rw [eq_of_heq h10, eq_of_heq h2]; rfl
end

section
theorem s2_v99 (h : Same WK WR main_v99 main_v114) : Same (after hostOps1_1 WK) (after p2_l2 WR) main_v99 main_v114 := by
  refine heq_of_eq ?_; after_results_simp; exact eq_of_heq h
theorem s2_v102 (h : Same WK WR main_v102 main_v117) : Same (after hostOps1_1 WK) (after p2_l2 WR) main_v102 main_v117 := by
  refine heq_of_eq ?_; after_results_simp; exact eq_of_heq h
variable (h99 : Same WK WR main_v99 main_v114)
  (h24 : Same WK WR main_c_24 main_c_28)
include h99 h24
theorem s2_v103 : Same (after hostOps1_1 WK) (after p2_l2 WR) main_v103 main_v118 := by
  refine heq_of_eq ?_; after_results_simp; rw [eq_of_heq h99, eq_of_heq h24]
end

section
variable (h102 : Same WK WR main_v102 main_v117)
  (h99 : Same WK WR main_v99 main_v114)
  (h103 : Same WK WR main_v103 main_v118)
  (h11 : Same WK WR main_arg11 main_arg11)
  (h12 : Same WK WR main_arg12 main_arg12)
include h102 h99 h103 h11 h12
theorem s3_v118 : Same (after hostOps1_2 WK) (after p2_l3 WR) main_v118 main_v133 := by
  refine heq_of_eq ?_; after_results_simp; rw [eq_of_heq h102, eq_of_heq h99, eq_of_heq h103, eq_of_heq h11, eq_of_heq h12]
theorem s3_v120 : Same (after hostOps1_2 WK) (after p2_l3 WR) main_v120 main_v135 := by
  refine heq_of_eq ?_; after_results_simp; rw [eq_of_heq h102, eq_of_heq h99, eq_of_heq h103, eq_of_heq h11, eq_of_heq h12]
theorem s3_v122 : Same (after hostOps1_2 WK) (after p2_l3 WR) main_v122 main_v137 := by
  refine heq_of_eq ?_; after_results_simp; rw [eq_of_heq h102, eq_of_heq h99, eq_of_heq h103, eq_of_heq h11, eq_of_heq h12]
end

section
variable (h120 : Same WK WR main_v120 main_v135)
  (h118 : Same WK WR main_v118 main_v133)
  (h122 : Same WK WR main_v122 main_v137)
include h120 h118 h122
theorem s4_v123 : Same (after hostOps1_3 WK) (after p2_l4 WR) main_v123 main_v138 := by
  refine heq_of_eq ?_; after_results_simp; rw [eq_of_heq h120, eq_of_heq h118, eq_of_heq h122]
end

section
theorem s5_c30 : Same (after hostOps1_4 WK) (after p3_l0 (after p2_l6 (after p2_l5 WR))) main_c_30 main_c_34 := by
  refine heq_of_eq ?_; after_results_simp
variable (h123 : Same WK WR main_v123 main_v138)
  (h13 : Same WK WR main_arg13 main_arg13)
  (h14 : Same WK WR main_arg14 main_arg14)
  (h5 : Same WK WR main_arg5 main_arg5)
include h123 h13 h14 h5
theorem s5_v130 : Same (after hostOps1_4 WK) (after p3_l0 (after p2_l6 (after p2_l5 WR))) main_v130 main_v145 := by
  refine heq_of_eq ?_; after_results_simp; rw [eq_of_heq h123, eq_of_heq h13, eq_of_heq h14, eq_of_heq h5]; rfl
theorem s5_v133 : Same (after hostOps1_4 WK) (after p3_l0 (after p2_l6 (after p2_l5 WR))) main_v133 main_v148 := by
  refine heq_of_eq ?_; after_results_simp; rw [eq_of_heq h123, eq_of_heq h13, eq_of_heq h14, eq_of_heq h5]; rfl
end

section
theorem s6_v130 (h : Same WK WR main_v130 main_v145) : Same (after hostOps1_5 WK) (after p3_l1 WR) main_v130 main_v145 := by
  refine heq_of_eq ?_; after_results_simp; exact eq_of_heq h
theorem s6_v133 (h : Same WK WR main_v133 main_v148) : Same (after hostOps1_5 WK) (after p3_l1 WR) main_v133 main_v148 := by
  refine heq_of_eq ?_; after_results_simp; exact eq_of_heq h
variable (h130 : Same WK WR main_v130 main_v145)
  (h30 : Same WK WR main_c_30 main_c_34)
include h130 h30
theorem s6_v134 : Same (after hostOps1_5 WK) (after p3_l1 WR) main_v134 main_v149 := by
  refine heq_of_eq ?_; after_results_simp; rw [eq_of_heq h130, eq_of_heq h30]
end

section
variable (h133 : Same WK WR main_v133 main_v148)
  (h130 : Same WK WR main_v130 main_v145)
  (h134 : Same WK WR main_v134 main_v149)
  (h6 : Same WK WR main_arg6 main_arg6)
  (h7 : Same WK WR main_arg7 main_arg7)
include h133 h130 h134 h6 h7
theorem s7_v149 : Same (after hostOps1_6 WK) (after p3_l2 WR) main_v149 main_v164 := by
  refine heq_of_eq ?_; after_results_simp; rw [eq_of_heq h133, eq_of_heq h130, eq_of_heq h134, eq_of_heq h6, eq_of_heq h7]
theorem s7_v151 : Same (after hostOps1_6 WK) (after p3_l2 WR) main_v151 main_v166 := by
  refine heq_of_eq ?_; after_results_simp; rw [eq_of_heq h133, eq_of_heq h130, eq_of_heq h134, eq_of_heq h6, eq_of_heq h7]
theorem s7_v153 : Same (after hostOps1_6 WK) (after p3_l2 WR) main_v153 main_v168 := by
  refine heq_of_eq ?_; after_results_simp; rw [eq_of_heq h133, eq_of_heq h130, eq_of_heq h134, eq_of_heq h6, eq_of_heq h7]
end

section
variable (h151 : Same WK WR main_v151 main_v166)
  (h149 : Same WK WR main_v149 main_v164)
  (h153 : Same WK WR main_v153 main_v168)
include h151 h149 h153
theorem s8_v154 : Same (after hostOps1_7 WK) (after p3_l3 WR) main_v154 main_v169 := by
  refine heq_of_eq ?_; after_results_simp; rw [eq_of_heq h151, eq_of_heq h149, eq_of_heq h153]
end

section
variable (h154 : Same WK WR main_v154 main_v169)
  (h8 : Same WK WR main_arg8 main_arg8)
  (h9 : Same WK WR main_arg9 main_arg9)
include h154 h8 h9
theorem s9_v159 : Same (after hostOps1_8 WK) (after p3_l4 WR) main_v159 main_v174 := by
  refine heq_of_eq ?_; after_results_simp; rw [eq_of_heq h154, eq_of_heq h8, eq_of_heq h9]; rfl
set_option maxHeartbeats 2000000 in
theorem s9_v190 : Same (after hostOps1_8 WK) (after p4_l0 (after p3_l5 (after p3_l4 WR))) main_v190 main_v205 := by
  refine heq_of_eq ?_; after_results_simp; rw [eq_of_heq h154, eq_of_heq h8, eq_of_heq h9]; rfl
set_option maxHeartbeats 2000000 in
theorem s9_v196 : Same (after hostOps1_8 WK) (after p4_l0 (after p3_l5 (after p3_l4 WR))) main_v196 main_v211 := by
  refine heq_of_eq ?_; after_results_simp; rw [eq_of_heq h154, eq_of_heq h8, eq_of_heq h9]; rfl
set_option maxHeartbeats 2000000 in
theorem s9_v187 : Same (after hostOps1_8 WK) (after p4_l0 (after p3_l5 (after p3_l4 WR))) main_v187 main_v202 := by
  refine heq_of_eq ?_; after_results_simp; rw [eq_of_heq h154, eq_of_heq h8, eq_of_heq h9]; rfl
end

end Steps

/-- `x` and `y` hold the same array in the two launch memories. -/
abbrev Same₀ := Same (launchContents m c) (launchContents m' c)

/-- The two launch memories agree on the eleven arguments the stages between the two calls read. -/
def Agree : Prop :=
  Same₀ m m' c main_arg2 main_arg2
  ∧ Same₀ m m' c main_arg5 main_arg5
  ∧ Same₀ m m' c main_arg6 main_arg6
  ∧ Same₀ m m' c main_arg7 main_arg7
  ∧ Same₀ m m' c main_arg8 main_arg8
  ∧ Same₀ m m' c main_arg9 main_arg9
  ∧ Same₀ m m' c main_arg10 main_arg10
  ∧ Same₀ m m' c main_arg11 main_arg11
  ∧ Same₀ m m' c main_arg12 main_arg12
  ∧ Same₀ m m' c main_arg13 main_arg13
  ∧ Same₀ m m' c main_arg14 main_arg14

theorem agree_of
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Agree m m' c :=
  ⟨heq_of_eq h2.symm, heq_of_eq h5.symm, heq_of_eq h6.symm, heq_of_eq h7.symm, heq_of_eq h8.symm, heq_of_eq h9.symm, heq_of_eq h10.symm, heq_of_eq h11.symm, heq_of_eq h12.symm, heq_of_eq h13.symm, heq_of_eq h14.symm⟩

variable {m m' c} in
/-- An argument on which the launch memories agree is the same wherever both sides have kept their arguments. -/
theorem Same.ofArg {WK : VK} {WR : VR} {x : Ref Cert.KernelIdeal.sig .tc} {y : Ref Cert.ReferenceIdeal.sig .tc} (h : Same (launchContents m c) (launchContents m' c) x y)
    (hK : Keeps WK (launchContents m c)) (hR : Keeps WR (launchContents m' c))
    (hx : IsArg x := by decide) (hy : IsArg y := by decide) : Same WK WR x y :=
  HEq.trans (heq_of_eq (hK x hx)) (HEq.trans h (heq_of_eq (hR y hy)).symm)

/-- Nothing between the two calls writes the connectivity matrix. -/
theorem carry_C : W19 (F := Ideal) m ρ c (Proc.devRef .tc Cert.KernelIdeal.main_v16) = W9 m ρ c (Proc.devRef .tc Cert.KernelIdeal.main_v16) :=
  (show _ = W10 m ρ c (Proc.devRef .tc Cert.KernelIdeal.main_v16) by after_results_simp).trans (W10_of_ne m ρ c main_v16 (by decide))

variable (h : Agree m m' c)
include h

/-- Stretch by stretch from the first call's exit, the two sides hold the same samples, slopes, intercepts and scaled correlation sum. -/
theorem lockstep :
    Same (W19 m ρ c) (VG (launchContents m' c)) main_v159 main_v174
    ∧ Same (W19 m ρ c) (VH (launchContents m' c)) main_v190 main_v205
    ∧ Same (W19 m ρ c) (VH (launchContents m' c)) main_v196 main_v211
    ∧ Same (W19 m ρ c) (VH (launchContents m' c)) main_v187 main_v202 := by
  obtain ⟨a2, a5, a6, a7, a8, a9, a10, a11, a12, a13, a14⟩ := h
  have k := kW10 m ρ c; have r := rVE (launchContents m' c)
  have v99 := s1_v99 (Same.ofArg a10 k r) (Same.ofArg a2 k r)
  have v102 := s1_v102 (Same.ofArg a10 k r) (Same.ofArg a2 k r)
  have v103 := s2_v103 v99 s1_c24
  have v99 := s2_v99 v99
  have v102 := s2_v102 v102
  have k := kW12 m ρ c; have r := rR2 (launchContents m' c)
  have v118 := s3_v118 v102 v99 v103 (Same.ofArg a11 k r) (Same.ofArg a12 k r)
  have v120 := s3_v120 v102 v99 v103 (Same.ofArg a11 k r) (Same.ofArg a12 k r)
  have v122 := s3_v122 v102 v99 v103 (Same.ofArg a11 k r) (Same.ofArg a12 k r)
  have v123 := s4_v123 v120 v118 v122
  have k := kW14 m ρ c; have r := rR4 (launchContents m' c)
  have v130 := s5_v130 v123 (Same.ofArg a13 k r) (Same.ofArg a14 k r) (Same.ofArg a5 k r)
  have v133 := s5_v133 v123 (Same.ofArg a13 k r) (Same.ofArg a14 k r) (Same.ofArg a5 k r)
  have v134 := s6_v134 v130 s5_c30
  have v130 := s6_v130 v130
  have v133 := s6_v133 v133
  have k := kW16 m ρ c; have r := rR8 (launchContents m' c)
  have v149 := s7_v149 v133 v130 v134 (Same.ofArg a6 k r) (Same.ofArg a7 k r)
  have v151 := s7_v151 v133 v130 v134 (Same.ofArg a6 k r) (Same.ofArg a7 k r)
  have v153 := s7_v153 v133 v130 v134 (Same.ofArg a6 k r) (Same.ofArg a7 k r)
  have v154 := s8_v154 v151 v149 v153
  have a8 := Same.ofArg a8 (kW18 m ρ c) (rR10 (launchContents m' c))
  have a9 := Same.ofArg a9 (kW18 m ρ c) (rR10 (launchContents m' c))
  rw [VG_eq, VH_eq]
  exact ⟨s9_v159 v154 a8 a9, s9_v190 v154 a8 a9, s9_v196 v154 a8 a9, s9_v187 v154 a8 a9⟩

theorem eq_X_of : (W19 (F := Ideal) m ρ c (Proc.devRef .tc Cert.KernelIdeal.main_v159) : (⟨Cert.KernelIdeal.S8192x64, .f32⟩ : BufTy).Contents (Elt Ideal)) = VG (launchContents m' c) (Proc.devRef .tc Cert.ReferenceIdeal.main_v174) :=
  eq_of_heq (lockstep m ρ m' c h).1

theorem eq_A_of : (W19 (F := Ideal) m ρ c (Proc.devRef .tc Cert.KernelIdeal.main_v190) : (⟨Cert.KernelIdeal.S64x64, .f32⟩ : BufTy).Contents (Elt Ideal)) = VH (launchContents m' c) (Proc.devRef .tc Cert.ReferenceIdeal.main_v205) :=
  eq_of_heq (lockstep m ρ m' c h).2.1

theorem eq_B_of : (W19 (F := Ideal) m ρ c (Proc.devRef .tc Cert.KernelIdeal.main_v196) : (⟨Cert.KernelIdeal.S64x64, .f32⟩ : BufTy).Contents (Elt Ideal)) = VH (launchContents m' c) (Proc.devRef .tc Cert.ReferenceIdeal.main_v211) :=
  eq_of_heq (lockstep m ρ m' c h).2.2.1

theorem eq_sc_of : (W19 (F := Ideal) m ρ c (Proc.devRef .tc Cert.KernelIdeal.main_v187) : (⟨Cert.KernelIdeal.S_, .f32⟩ : BufTy).Contents (Elt Ideal)) = VH (launchContents m' c) (Proc.devRef .tc Cert.ReferenceIdeal.main_v202) :=
  eq_of_heq (lockstep m ρ m' c h).2.2.2

end Cert.SharedB

end
-- ==== Proof.SharedC.lean ====
import proofs.«120299_j54631984005498_1_alg».proof.Proof.Gen.KernelIdeal.Frame
import proofs.«120299_j54631984005498_1_alg».proof.Proof.SharedALib
import Idealize.ShloMosaic.PureOps.Ideal

set_option maxRecDepth 16384

noncomputable section

namespace Cert.SharedC

open Idealize.ShloMosaic Idealize.ShloMosaic.TcCoe Idealize.SL.Sem Idealize.ShloMosaic.StableHlo Cert.SharedALib

section Fold

variable {WK : Valuation Cert.KernelIdeal.τ Cert.KernelIdeal.sig (Elt Ideal)} {WR : Valuation Cert.ReferenceIdeal.τ Cert.ReferenceIdeal.sig (Elt Ideal)}

set_option maxHeartbeats 1000000 in
/-- Both programs apply the same operations to the same arguments, so equal arguments give equal results. -/
theorem v86_of (h1 : WK (Proc.devRef .tc Cert.KernelIdeal.main_arg1) = WR (Proc.devRef .tc Cert.ReferenceIdeal.main_arg1)) (h10 : WK (Proc.devRef .tc Cert.KernelIdeal.main_arg10) = WR (Proc.devRef .tc Cert.ReferenceIdeal.main_arg10))
    (h11 : WK (Proc.devRef .tc Cert.KernelIdeal.main_arg11) = WR (Proc.devRef .tc Cert.ReferenceIdeal.main_arg11)) (h12 : WK (Proc.devRef .tc Cert.KernelIdeal.main_arg12) = WR (Proc.devRef .tc Cert.ReferenceIdeal.main_arg12))
    (h13 : WK (Proc.devRef .tc Cert.KernelIdeal.main_arg13) = WR (Proc.devRef .tc Cert.ReferenceIdeal.main_arg13)) (h14 : WK (Proc.devRef .tc Cert.KernelIdeal.main_arg14) = WR (Proc.devRef .tc Cert.ReferenceIdeal.main_arg14)) :
    preK WK (Proc.devRef .tc Cert.KernelIdeal.main_v86) = Cert.ReferenceIdeal.RRun.VC WR (Proc.devRef .tc Cert.ReferenceIdeal.main_v86) := by
  open_folds
  rw [h1, h10, h11, h12, h13, h14]
  rfl

set_option maxHeartbeats 1000000 in
theorem v93_of (h4 : WK (Proc.devRef .tc Cert.KernelIdeal.main_arg4) = WR (Proc.devRef .tc Cert.ReferenceIdeal.main_arg4)) (h15 : WK (Proc.devRef .tc Cert.KernelIdeal.main_arg15) = WR (Proc.devRef .tc Cert.ReferenceIdeal.main_arg15)) :
    preK WK (Proc.devRef .tc Cert.KernelIdeal.main_v93) = Cert.ReferenceIdeal.RRun.VD WR (Proc.devRef .tc Cert.ReferenceIdeal.main_v93) := by
  open_folds
  rw [h4, h15]
  rfl

end Fold

section Run
variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

theorem eq_v86 (h_arg1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h_arg10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h_arg11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h_arg12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h_arg13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h_arg14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    (Cert.KernelIdeal.Gen.W9 (F := Ideal) m ρ c (Proc.devRef .tc Cert.KernelIdeal.main_v86) : (⟨Cert.KernelIdeal.S2048x128, .f32⟩ : BufTy).Contents (Elt Ideal))
      = Cert.ReferenceIdeal.RRun.VC (StableHlo.launchContents m' c) (Proc.devRef .tc Cert.ReferenceIdeal.main_v86) :=
  v86_of h_arg1.symm h_arg10.symm h_arg11.symm h_arg12.symm h_arg13.symm h_arg14.symm

theorem eq_v93 (h_arg4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h_arg15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    (Cert.KernelIdeal.Gen.W9 (F := Ideal) m ρ c (Proc.devRef .tc Cert.KernelIdeal.main_v93) : (⟨Cert.KernelIdeal.S16384x128, .f32⟩ : BufTy).Contents (Elt Ideal))
      = Cert.ReferenceIdeal.RRun.VD (StableHlo.launchContents m' c) (Proc.devRef .tc Cert.ReferenceIdeal.main_v93) :=
  v93_of h_arg4.symm h_arg15.symm

end Run

end Cert.SharedC
end
-- ==== Proof.lean ====
import proofs.«120299_j54631984005498_1_alg».proof.Defs
import proofs.«120299_j54631984005498_1_alg».proof.Proof.Gen.Kernel
import proofs.«120299_j54631984005498_1_alg».proof.Proof.Gen.Kernel.Skeleton
import proofs.«120299_j54631984005498_1_alg».proof.Proof.Gen.Kernel.Launch
import proofs.«120299_j54631984005498_1_alg».proof.Proof.Gen.Kernel.Points
import proofs.«120299_j54631984005498_1_alg».proof.Proof.Gen.Kernel.Frame
import proofs.«120299_j54631984005498_1_alg».proof.Proof.Gen.KernelIdeal
import proofs.«120299_j54631984005498_1_alg».proof.Proof.Gen.KernelIdeal.Skeleton
import proofs.«120299_j54631984005498_1_alg».proof.Proof.Gen.KernelIdeal.Launch
import proofs.«120299_j54631984005498_1_alg».proof.Proof.Gen.KernelIdeal.Points
import proofs.«120299_j54631984005498_1_alg».proof.Proof.Gen.KernelIdeal.Frame
import proofs.«120299_j54631984005498_1_alg».proof.Proof.Gen.ReferenceIdeal
import proofs.«120299_j54631984005498_1_alg».proof.Proof.Gen.Pre_finite_inputs
import proofs.«120299_j54631984005498_1_alg».proof.Proof.SpecBridge
import proofs.«120299_j54631984005498_1_alg».proof.Proof.KRun
import proofs.«120299_j54631984005498_1_alg».proof.Proof.KTail
import proofs.«120299_j54631984005498_1_alg».proof.Proof.KIndepHost
import proofs.«120299_j54631984005498_1_alg».proof.Proof.RRunMain
import proofs.«120299_j54631984005498_1_alg».proof.Proof.RCarry
import proofs.«120299_j54631984005498_1_alg».proof.Proof.RNct
import proofs.«120299_j54631984005498_1_alg».proof.Proof.RIndep
import proofs.«120299_j54631984005498_1_alg».proof.Proof.RFit
import proofs.«120299_j54631984005498_1_alg».proof.Proof.RZind
import proofs.«120299_j54631984005498_1_alg».proof.Proof.RXind
import proofs.«120299_j54631984005498_1_alg».proof.Proof.PreReal
import proofs.«120299_j54631984005498_1_alg».proof.Proof.SharedA
import proofs.«120299_j54631984005498_1_alg».proof.Proof.SharedB
import proofs.«120299_j54631984005498_1_alg».proof.Proof.SharedC
import Idealize.ShloMosaic.Adequacy
import Idealize.ShloMosaic.Init

set_option maxRecDepth 16384

noncomputable section

namespace Cert.Proof

open Idealize.ShloMosaic Idealize.SL.Sem Idealize.ShloMosaic.ValueIdx Idealize.ShloMosaic.StableHlo
open Cert.Spec (sc at2 IsReal)
open Cert.ReferenceIdeal.RRun
open Cert.KernelIdeal.Gen (W9 W19 W20 W21)

/-- Each generator pass maps real arrays to real arrays, so real inputs make the independence samples real. -/
theorem samples_real (V' : Valuation ReferenceIdeal.τ ReferenceIdeal.sig (Elt Ideal))
    (h2 : ∀ i, IsReal (V' (Proc.devRef .tc ReferenceIdeal.main_arg2) i))
    (h5 : ∀ i, IsReal (V' (Proc.devRef .tc ReferenceIdeal.main_arg5) i))
    (h6 : ∀ i, IsReal (V' (Proc.devRef .tc ReferenceIdeal.main_arg6) i))
    (h7 : ∀ i, IsReal (V' (Proc.devRef .tc ReferenceIdeal.main_arg7) i))
    (h8 : ∀ i, IsReal (V' (Proc.devRef .tc ReferenceIdeal.main_arg8) i))
    (h9 : ∀ i, IsReal (V' (Proc.devRef .tc ReferenceIdeal.main_arg9) i))
    (h10 : ∀ i, IsReal (V' (Proc.devRef .tc ReferenceIdeal.main_arg10) i))
    (h11 : ∀ i, IsReal (V' (Proc.devRef .tc ReferenceIdeal.main_arg11) i))
    (h12 : ∀ i, IsReal (V' (Proc.devRef .tc ReferenceIdeal.main_arg12) i))
    (h13 : ∀ i, IsReal (V' (Proc.devRef .tc ReferenceIdeal.main_arg13) i))
    (h14 : ∀ i, IsReal (V' (Proc.devRef .tc ReferenceIdeal.main_arg14) i)) (n : Fin 8192) (i : Fin 64) :
    IsReal (VG V' (Proc.devRef .tc ReferenceIdeal.main_v174) (ix2 n i)) :=
  ReferenceIdeal.RRealX.xind_real (VF V')
    (ReferenceIdeal.RReal.zind_real (VE V')
      (fun i => keepAE V' (r := ReferenceIdeal.main_arg2) (by decide) ▸ h2 i) (fun i => keepAE V' (r := ReferenceIdeal.main_arg10) (by decide) ▸ h10 i)
      (fun i => keepAE V' (r := ReferenceIdeal.main_arg11) (by decide) ▸ h11 i) (fun i => keepAE V' (r := ReferenceIdeal.main_arg12) (by decide) ▸ h12 i)
      (fun i => keepAE V' (r := ReferenceIdeal.main_arg13) (by decide) ▸ h13 i) (fun i => keepAE V' (r := ReferenceIdeal.main_arg14) (by decide) ▸ h14 i))
    (fun i => keepAF V' (r := ReferenceIdeal.main_arg5) (by decide) ▸ h5 i) (fun i => keepAF V' (r := ReferenceIdeal.main_arg6) (by decide) ▸ h6 i)
    (fun i => keepAF V' (r := ReferenceIdeal.main_arg7) (by decide) ▸ h7 i) (fun i => keepAF V' (r := ReferenceIdeal.main_arg8) (by decide) ▸ h8 i)
    (fun i => keepAF V' (r := ReferenceIdeal.main_arg9) (by decide) ▸ h9 i) (ix2 n i)

/-- The reference runs to the end, and no stage writes an argument. -/
theorem frame_ri [ReferenceIdeal.Facts] [Pre_finite_inputs.Facts] : frame_ReferenceIdeal := fun m ρ _ =>
  (θ_run ReferenceIdeal.defs _ _).mono (fun r h c => by
    repeat' apply And.intro
    all_goals exact (h c _).trans (keepAI _ (by decide)))
    (run_main (F := Ideal) m ρ)

/-- Both programs end with the same loss: the host values they compute alike are equal buffer by buffer; the nearest-neighbour
    terms differ by where the division by 128 stands, the independence terms by the bracketing of the residual. -/
theorem algebraic [KernelIdeal.Facts] [ReferenceIdeal.Facts] [Pre_finite_inputs.Facts] :
    algebraic_KernelIdeal_ReferenceIdeal := by
  intro m ρ m' ρ' hpre hag
  refine ⟨fun c => W21 m ρ c (Proc.devRef .tc KernelIdeal.main_v215), KernelIdeal.KRun.run_value m ρ, ?_⟩
  refine (θ_run ReferenceIdeal.defs _ _).mono (fun r h c => ?_) (run_main (F := Ideal) m' ρ')
  obtain ⟨a0, a1, a2, a3, a4, a5, a6, a7, a8, a9, a10, a11, a12, a13, a14, a15⟩ := hag c
  obtain ⟨r0, r1, r2, r3, r4, r5, r6, r7, r8, r9, r10, r11, r12, r13, r14⟩ := PreReal.args_real m hpre c
  refine ⟨(h c _).trans ?_, ?_⟩
  · rw [← a2] at r2; rw [← a5] at r5; rw [← a6] at r6; rw [← a7] at r7; rw [← a8] at r8; rw [← a9] at r9
    rw [← a10] at r10; rw [← a11] at r11; rw [← a12] at r12; rw [← a13] at r13; rw [← a14] at r14
    have hX := samples_real (launchContents m' c) r2 r5 r6 r7 r8 r9 r10 r11 r12 r13 r14
    have hAg := SharedB.agree_of m m' c a2 a5 a6 a7 a8 a9 a10 a11 a12 a13 a14
    have eC := (SharedB.carry_C m ρ c).trans (SharedA.eq_v16 (F := Ideal) m ρ m' c a3)
    have hnct : sc (W21 m ρ c (Proc.devRef .tc KernelIdeal.main_v97)) = sc (VH (launchContents m' c) (Proc.devRef .tc ReferenceIdeal.main_v112)) := by
      rw [KernelIdeal.KTail.nct_value, SharedC.eq_v86 m ρ m' c a1 a10 a11 a12 a13 a14, SharedC.eq_v93 m ρ m' c a4 a15, ← carry_v86,
        Spec.nct_bridge, carry_v112]
      exact (ReferenceIdeal.RNct.nct_read (VD (launchContents m' c))).symm
    have hind : at2 (W20 m ρ c (Proc.devRef .tc KernelIdeal.main_v210)) 0 0
        = sc (after stI (VH (launchContents m' c)) (Proc.devRef .tc ReferenceIdeal.main_v276)) := by
      refine (KernelIdeal.KIndepHost.indep_value m ρ c).trans ?_
      rw [SharedB.eq_X_of m ρ m' c hAg, SharedB.eq_A_of m ρ m' c hAg, SharedB.eq_B_of m ρ m' c hAg, eC, ← carry_v16]
      refine (Spec.indep_bridge _ _ _ _ _ hX (ReferenceIdeal.RFit.fit_read (VG (launchContents m' c)) hX)).trans ?_
      rw [← carry_v174]
      exact (ReferenceIdeal.RIndep.indep_read (VH (launchContents m' c))).symm
    funext i
    obtain rfl : i = ix0 := eq_ix0 i
    refine (ReferenceIdeal.RIndep.final_read (VH (launchContents m' c))).trans (Eq.trans ?_ (KernelIdeal.KTail.result_split m ρ c).symm)
    rw [hnct, hind, SharedA.eq_v20 (F := Ideal) m ρ m' c a3, SharedA.eq_v55 (F := Ideal) m ρ m' c a0 a4 a5 a6 a7 a8 a9,
      SharedB.eq_sc_of m ρ m' c hAg, carry_v20, carry_v55]
  · repeat' apply And.intro
    all_goals exact (h c _).trans (keepAI _ (by decide))

theorem claim : Cert.Claim :=
  ⟨Kernel.Gen.facts, KernelIdeal.Gen.facts, ReferenceIdeal.Gen.facts, Pre_finite_inputs.Gen.facts,
    fun m ρ _ => Kernel.Gen.frame m ρ, fun m ρ _ => KernelIdeal.Gen.frame m ρ, frame_ri, trivial, algebraic⟩

end Cert.Proof

end
